-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2 : Shape := ⟨3, ![16, 2048, 2]⟩
abbrev S16x8000x3 : Shape := ⟨3, ![16, 8000, 3]⟩
abbrev S16x7 : Shape := ⟨2, ![16, 7]⟩
abbrev S2000 : Shape := ⟨1, ![2000]⟩
abbrev S1000 : Shape := ⟨1, ![1000]⟩
abbrev S_ : Shape := ⟨0, ![]⟩

class Facts : Prop where
  bcast_S_S16x2048x2 : S_.BroadcastsInDim S16x2048x2 (![] : Fin 0 → Fin S16x2048x2.rank)
  reducesTo_S16x2048x2_S_d0_1_2 : S16x2048x2.ReducesTo [0, 1, 2] S_
  h_S_ : 0 < S_.numel
  bcast_S_S16x8000x3 : S_.BroadcastsInDim S16x8000x3 (![] : Fin 0 → Fin S16x8000x3.rank)
  reducesTo_S16x8000x3_S_d0_1_2 : S16x8000x3.ReducesTo [0, 1, 2] S_
  bcast_S_S16x7 : S_.BroadcastsInDim S16x7 (![] : Fin 0 → Fin S16x7.rank)
  reducesTo_S16x7_S_d0_1 : S16x7.ReducesTo [0, 1] S_
  bcast_S_S2000 : S_.BroadcastsInDim S2000 (![] : Fin 0 → Fin S2000.rank)
  reducesTo_S2000_S_d0 : S2000.ReducesTo [0] S_
  bcast_S_S1000 : S_.BroadcastsInDim S1000 (![] : Fin 0 → Fin S1000.rank)
  reducesTo_S1000_S_d0 : S1000.ReducesTo [0] S_

variable [Facts]

def fn_part3 {F : FTy → Type} [FloatOps F] (main_arg8 : IVec S1000 32) (main_arg9 : IVec S1000 32) (main_v48 : IVec S_ 1) (main_c_20 : IVec S_ 32) : IVec S_ 1 :=
  let main_v49 : IVec S1000 32 := broadcastInDim S1000 ![] bcast_S_S1000 main_c_20
  let main_v50 : IVec S1000 1 := cmpi .slt main_arg8 main_v49
  let main_c_21 : IVec S_ 1 := constantI S_ 1 1#1
  let main_v51 : IVec S_ 1 := (fun x v => Host.reduce IntOp.andi x v reducesTo_S1000_S_d0 h_S_) main_v50 main_c_21
  let main_v52 : IVec S_ 1 := andi main_v48 main_v51
  let main_c_22 : IVec S_ 32 := constantI S_ 32 0#32
  let main_v53 : IVec S1000 32 := broadcastInDim S1000 ![] bcast_S_S1000 main_c_22
  let main_v54 : IVec S1000 1 := cmpi .sge main_arg9 main_v53
  let main_c_23 : IVec S_ 1 := constantI S_ 1 1#1
  let main_v55 : IVec S_ 1 := (fun x v => Host.reduce IntOp.andi x v reducesTo_S1000_S_d0 h_S_) main_v54 main_c_23
  let main_v56 : IVec S_ 1 := andi main_v52 main_v55
  let main_c_24 : IVec S_ 32 := constantI S_ 32 8000#32
  let main_v57 : IVec S1000 32 := broadcastInDim S1000 ![] bcast_S_S1000 main_c_24
  let main_v58 : IVec S1000 1 := cmpi .slt main_arg9 main_v57
  let main_c_25 : IVec S_ 1 := constantI S_ 1 1#1
  let main_v59 : IVec S_ 1 := (fun x v => Host.reduce IntOp.andi x v reducesTo_S1000_S_d0 h_S_) main_v58 main_c_25
  let main_v60 : IVec S_ 1 := andi main_v56 main_v59
  main_v60

def fn_part2 {F : FTy → Type} [FloatOps F] (main_arg6 : IVec S2000 32) (main_arg7 : IVec S2000 32) (main_arg8 : IVec S1000 32) (main_arg9 : IVec S1000 32) (main_v32 : IVec S_ 1) (main_c_12 : IVec S_ 32) : IVec S_ 1 :=
  let main_v33 : IVec S2000 32 := broadcastInDim S2000 ![] bcast_S_S2000 main_c_12
  let main_v34 : IVec S2000 1 := cmpi .slt main_arg6 main_v33
  let main_c_13 : IVec S_ 1 := constantI S_ 1 1#1
  let main_v35 : IVec S_ 1 := (fun x v => Host.reduce IntOp.andi x v reducesTo_S2000_S_d0 h_S_) main_v34 main_c_13
  let main_v36 : IVec S_ 1 := andi main_v32 main_v35
  let main_c_14 : IVec S_ 32 := constantI S_ 32 0#32
  let main_v37 : IVec S2000 32 := broadcastInDim S2000 ![] bcast_S_S2000 main_c_14
  let main_v38 : IVec S2000 1 := cmpi .sge main_arg7 main_v37
  let main_c_15 : IVec S_ 1 := constantI S_ 1 1#1
  let main_v39 : IVec S_ 1 := (fun x v => Host.reduce IntOp.andi x v reducesTo_S2000_S_d0 h_S_) main_v38 main_c_15
  let main_v40 : IVec S_ 1 := andi main_v36 main_v39
  let main_c_16 : IVec S_ 32 := constantI S_ 32 8000#32
  let main_v41 : IVec S2000 32 := broadcastInDim S2000 ![] bcast_S_S2000 main_c_16
  let main_v42 : IVec S2000 1 := cmpi .slt main_arg7 main_v41
  let main_c_17 : IVec S_ 1 := constantI S_ 1 1#1
  let main_v43 : IVec S_ 1 := (fun x v => Host.reduce IntOp.andi x v reducesTo_S2000_S_d0 h_S_) main_v42 main_c_17
  let main_v44 : IVec S_ 1 := andi main_v40 main_v43
  let main_c_18 : IVec S_ 32 := constantI S_ 32 0#32
  let main_v45 : IVec S1000 32 := broadcastInDim S1000 ![] bcast_S_S1000 main_c_18
  let main_v46 : IVec S1000 1 := cmpi .sge main_arg8 main_v45
  let main_c_19 : IVec S_ 1 := constantI S_ 1 1#1
  let main_v47 : IVec S_ 1 := (fun x v => Host.reduce IntOp.andi x v reducesTo_S1000_S_d0 h_S_) main_v46 main_c_19
  let main_v48 : IVec S_ 1 := andi main_v44 main_v47
  let main_c_20 : IVec S_ 32 := constantI S_ 32 8000#32
  fn_part3 (F := F) main_arg8 main_arg9 main_v48 main_c_20

def fn_part1 {F : FTy → Type} [FloatOps F] (main_arg4 : FVec F S16x8000x3 .f32) (main_arg5 : FVec F S16x7 .f32) (main_arg6 : IVec S2000 32) (main_arg7 : IVec S2000 32) (main_arg8 : IVec S1000 32) (main_arg9 : IVec S1000 32) (main_v13 : IVec S_ 1) (main_v16 : IVec S16x2048x2 1) : IVec S_ 1 :=
  let main_c_5 : IVec S_ 1 := constantI S_ 1 1#1
  let main_v17 : IVec S_ 1 := (fun x v => Host.reduce IntOp.andi x v reducesTo_S16x2048x2_S_d0_1_2 h_S_) main_v16 main_c_5
  let main_v18 : IVec S_ 1 := andi main_v13 main_v17
  let main_v19 : FVec F S16x8000x3 .f32 := Host.absf main_arg4
  let main_cst_6 : FVec F S_ .f32 := constant S_ .f32 0x7F800000#32
  let main_v20 : FVec F S16x8000x3 .f32 := broadcastInDim S16x8000x3 ![] bcast_S_S16x8000x3 main_cst_6
  let main_v21 : IVec S16x8000x3 1 := cmpf .olt main_v19 main_v20
  let main_c_7 : IVec S_ 1 := constantI S_ 1 1#1
  let main_v22 : IVec S_ 1 := (fun x v => Host.reduce IntOp.andi x v reducesTo_S16x8000x3_S_d0_1_2 h_S_) main_v21 main_c_7
  let main_v23 : IVec S_ 1 := andi main_v18 main_v22
  let main_v24 : FVec F S16x7 .f32 := Host.absf main_arg5
  let main_cst_8 : FVec F S_ .f32 := constant S_ .f32 0x7F800000#32
  let main_v25 : FVec F S16x7 .f32 := broadcastInDim S16x7 ![] bcast_S_S16x7 main_cst_8
  let main_v26 : IVec S16x7 1 := cmpf .olt main_v24 main_v25
  let main_c_9 : IVec S_ 1 := constantI S_ 1 1#1
  let main_v27 : IVec S_ 1 := (fun x v => Host.reduce IntOp.andi x v reducesTo_S16x7_S_d0_1 h_S_) main_v26 main_c_9
  let main_v28 : IVec S_ 1 := andi main_v23 main_v27
  let main_c_10 : IVec S_ 32 := constantI S_ 32 0#32
  let main_v29 : IVec S2000 32 := broadcastInDim S2000 ![] bcast_S_S2000 main_c_10
  let main_v30 : IVec S2000 1 := cmpi .sge main_arg6 main_v29
  let main_c_11 : IVec S_ 1 := constantI S_ 1 1#1
  let main_v31 : IVec S_ 1 := (fun x v => Host.reduce IntOp.andi x v reducesTo_S2000_S_d0 h_S_) main_v30 main_c_11
  let main_v32 : IVec S_ 1 := andi main_v28 main_v31
  let main_c_12 : IVec S_ 32 := constantI S_ 32 8000#32
  fn_part2 (F := F) main_arg6 main_arg7 main_arg8 main_arg9 main_v32 main_c_12

def fn {F : FTy → Type} [FloatOps F] (main_arg0 : FVec F S16x2048x2 .f32) (main_arg1 : FVec F S16x2048x2 .f32) (main_arg2 : FVec F S16x2048x2 .f32) (main_arg3 : FVec F S16x2048x2 .f32) (main_arg4 : FVec F S16x8000x3 .f32) (main_arg5 : FVec F S16x7 .f32) (main_arg6 : IVec S2000 32) (main_arg7 : IVec S2000 32) (main_arg8 : IVec S1000 32) (main_arg9 : IVec S1000 32) : IVec S_ 1 :=
  let main_v0 : FVec F S16x2048x2 .f32 := Host.absf main_arg0
  let main_cst : FVec F S_ .f32 := constant S_ .f32 0x7F800000#32
  let main_v1 : FVec F S16x2048x2 .f32 := broadcastInDim S16x2048x2 ![] bcast_S_S16x2048x2 main_cst
  let main_v2 : IVec S16x2048x2 1 := cmpf .olt main_v0 main_v1
  let main_c : IVec S_ 1 := constantI S_ 1 1#1
  let main_v3 : IVec S_ 1 := (fun x v => Host.reduce IntOp.andi x v reducesTo_S16x2048x2_S_d0_1_2 h_S_) main_v2 main_c
  let main_v4 : FVec F S16x2048x2 .f32 := Host.absf main_arg1
  let main_cst_0 : FVec F S_ .f32 := constant S_ .f32 0x7F800000#32
  let main_v5 : FVec F S16x2048x2 .f32 := broadcastInDim S16x2048x2 ![] bcast_S_S16x2048x2 main_cst_0
  let main_v6 : IVec S16x2048x2 1 := cmpf .olt main_v4 main_v5
  let main_c_1 : IVec S_ 1 := constantI S_ 1 1#1
  let main_v7 : IVec S_ 1 := (fun x v => Host.reduce IntOp.andi x v reducesTo_S16x2048x2_S_d0_1_2 h_S_) main_v6 main_c_1
  let main_v8 : IVec S_ 1 := andi main_v3 main_v7
  let main_v9 : FVec F S16x2048x2 .f32 := Host.absf main_arg2
  let main_cst_2 : FVec F S_ .f32 := constant S_ .f32 0x7F800000#32
  let main_v10 : FVec F S16x2048x2 .f32 := broadcastInDim S16x2048x2 ![] bcast_S_S16x2048x2 main_cst_2
  let main_v11 : IVec S16x2048x2 1 := cmpf .olt main_v9 main_v10
  let main_c_3 : IVec S_ 1 := constantI S_ 1 1#1
  let main_v12 : IVec S_ 1 := (fun x v => Host.reduce IntOp.andi x v reducesTo_S16x2048x2_S_d0_1_2 h_S_) main_v11 main_c_3
  let main_v13 : IVec S_ 1 := andi main_v8 main_v12
  let main_v14 : FVec F S16x2048x2 .f32 := Host.absf main_arg3
  let main_cst_4 : FVec F S_ .f32 := constant S_ .f32 0x7F800000#32
  let main_v15 : FVec F S16x2048x2 .f32 := broadcastInDim S16x2048x2 ![] bcast_S_S16x2048x2 main_cst_4
  let main_v16 : IVec S16x2048x2 1 := cmpf .olt main_v14 main_v15
  fn_part1 (F := F) main_arg4 main_arg5 main_arg6 main_arg7 main_arg8 main_arg9 main_v13 main_v16
-- ==== Kernel.lean ====
abbrev S16x2048x2 : Shape := ⟨3, ![16, 2048, 2]⟩
abbrev S16x8000x3 : Shape := ⟨3, ![16, 8000, 3]⟩
abbrev S16x7 : Shape := ⟨2, ![16, 7]⟩
abbrev S2000 : Shape := ⟨1, ![2000]⟩
abbrev S1000 : Shape := ⟨1, ![1000]⟩
abbrev S4 : Shape := ⟨1, ![4]⟩
abbrev S6000 : Shape := ⟨1, ![6000]⟩
abbrev S_ : Shape := ⟨0, ![]⟩
abbrev S6000x1 : Shape := ⟨2, ![6000, 1]⟩
abbrev S1 : Shape := ⟨1, ![1]⟩
abbrev S1x1 : Shape := ⟨2, ![1, 1]⟩
abbrev S16x6000x3 : Shape := ⟨3, ![16, 6000, 3]⟩
abbrev S16x1 : Shape := ⟨2, ![16, 1]⟩
abbrev S16x2 : Shape := ⟨2, ![16, 2]⟩
abbrev S16x4 : Shape := ⟨2, ![16, 4]⟩
abbrev S16 : Shape := ⟨1, ![16]⟩
abbrev S16x3 : Shape := ⟨2, ![16, 3]⟩
abbrev S16x1x3 : Shape := ⟨3, ![16, 1, 3]⟩
abbrev S16x3x3 : Shape := ⟨3, ![16, 3, 3]⟩
abbrev S16x1x1 : Shape := ⟨3, ![16, 1, 1]⟩
abbrev S16x6000x2 : Shape := ⟨3, ![16, 6000, 2]⟩
abbrev S16x1x2 : Shape := ⟨3, ![16, 1, 2]⟩
abbrev S16x2000x2 : Shape := ⟨3, ![16, 2000, 2]⟩
abbrev S16x2x2000 : Shape := ⟨3, ![16, 2, 2000]⟩
abbrev S16x1x2000 : Shape := ⟨3, ![16, 1, 2000]⟩
abbrev S1x2x2000 : Shape := ⟨3, ![1, 2, 2000]⟩
abbrev S1x2048x2 : Shape := ⟨3, ![1, 2048, 2]⟩
abbrev S1x1x2000 : Shape := ⟨3, ![1, 1, 2000]⟩
abbrev S1x2000 : Shape := ⟨2, ![1, 2000]⟩
abbrev S1x256x2 : Shape := ⟨3, ![1, 256, 2]⟩
abbrev S256x2 : Shape := ⟨2, ![256, 2]⟩
abbrev S256x1 : Shape := ⟨2, ![256, 1]⟩
abbrev S256x2000 : Shape := ⟨2, ![256, 2000]⟩
abbrev S16x2000 : Shape := ⟨2, ![16, 2000]⟩
abbrev S16x1000x2 : Shape := ⟨3, ![16, 1000, 2]⟩
abbrev S16x2x1000 : Shape := ⟨3, ![16, 2, 1000]⟩
abbrev S16x1x1000 : Shape := ⟨3, ![16, 1, 1000]⟩
abbrev S1x2x1000 : Shape := ⟨3, ![1, 2, 1000]⟩
abbrev S1x1x1000 : Shape := ⟨3, ![1, 1, 1000]⟩
abbrev S1x1000 : Shape := ⟨2, ![1, 1000]⟩
abbrev S256x1000 : Shape := ⟨2, ![256, 1000]⟩
abbrev S16x1000 : Shape := ⟨2, ![16, 1000]⟩
abbrev S16x6000 : Shape := ⟨2, ![16, 6000]⟩

abbrev nBuf : Space → Nat
  | .hbm => 185
  | .vmem => 28
  | .smem => 0
  | _ => 0

abbrev hbmTy0_0 (i : Nat) : BufTy := match i % 128 with
  | 0 => ⟨S16x2048x2, .f32⟩
  | 1 => ⟨S16x2048x2, .f32⟩
  | 2 => ⟨S16x2048x2, .f32⟩
  | 3 => ⟨S16x2048x2, .f32⟩
  | 4 => ⟨S16x8000x3, .f32⟩
  | 5 => ⟨S16x7, .f32⟩
  | 6 => ⟨S2000, .i32⟩
  | 7 => ⟨S2000, .i32⟩
  | 8 => ⟨S1000, .i32⟩
  | 9 => ⟨S1000, .i32⟩
  | 10 => ⟨S4, .f32⟩
  | 11 => ⟨S6000, .i32⟩
  | 12 => ⟨S_, .i32⟩
  | 13 => ⟨S6000, .i32⟩
  | 14 => ⟨S6000, .i1⟩
  | 15 => ⟨S_, .i32⟩
  | 16 => ⟨S6000, .i32⟩
  | 17 => ⟨S6000, .i32⟩
  | 18 => ⟨S6000, .i32⟩
  | 19 => ⟨S6000x1, .i32⟩
  | 20 => ⟨S1, .i32⟩
  | 21 => ⟨S_, .i32⟩
  | 22 => ⟨S6000x1, .i32⟩
  | 23 => ⟨S6000x1, .i1⟩
  | 24 => ⟨S1x1, .i32⟩
  | 25 => ⟨S6000x1, .i32⟩
  | 26 => ⟨S6000x1, .i1⟩
  | 27 => ⟨S6000x1, .i1⟩
  | 28 => ⟨S_, .i1⟩
  | 29 => ⟨S6000, .i1⟩
  | 30 => ⟨S16x6000x3, .f32⟩
  | 31 => ⟨S16x6000x3, .i1⟩
  | 32 => ⟨S_, .f32⟩
  | 33 => ⟨S16x6000x3, .f32⟩
  | 34 => ⟨S16x6000x3, .f32⟩
  | 35 => ⟨S16x1, .f32⟩
  | 36 => ⟨S16x2, .f32⟩
  | 37 => ⟨S16x4, .f32⟩
  | 38 => ⟨S16x4, .f32⟩
  | 39 => ⟨S_, .f32⟩
  | 40 => ⟨S16, .f32⟩
  | 41 => ⟨S16x1, .f32⟩
  | 42 => ⟨S16x1, .f32⟩
  | 43 => ⟨S_, .f32⟩
  | 44 => ⟨S16x1, .f32⟩
  | 45 => ⟨S16x1, .f32⟩
  | 46 => ⟨S16x4, .f32⟩
  | 47 => ⟨S16x4, .f32⟩
  | 48 => ⟨S16x1, .f32⟩
  | 49 => ⟨S16, .f32⟩
  | 50 => ⟨S16x1, .f32⟩
  | 51 => ⟨S16, .f32⟩
  | 52 => ⟨S16x1, .f32⟩
  | 53 => ⟨S16, .f32⟩
  | 54 => ⟨S16x1, .f32⟩
  | 55 => ⟨S16, .f32⟩
  | 56 => ⟨S16, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S16, .f32⟩
  | 67 => ⟨S16, .f32⟩
  | 68 => ⟨S_, .f32⟩
  | 69 => ⟨S16, .f32⟩
  | 70 => ⟨S16, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S16x1, .f32⟩
  | 78 => ⟨S16x1, .f32⟩
  | 79 => ⟨S16x1, .f32⟩
  | 80 => ⟨S16x3, .f32⟩
  | 81 => ⟨S16, .f32⟩
  | 82 => ⟨S16, .f32⟩
  | 83 => ⟨S16, .f32⟩
  | 84 => ⟨S_, .f32⟩
  | 85 => ⟨S16, .f32⟩
  | 86 => ⟨S16, .f32⟩
  | 87 => ⟨S16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S16, .f32⟩
  | 98 => ⟨S16, .f32⟩
  | 99 => ⟨S_, .f32⟩
  | 100 => ⟨S16, .f32⟩
  | 101 => ⟨S16, .f32⟩
  | 102 => ⟨S16x1, .f32⟩
  | 103 => ⟨S16x1, .f32⟩
  | 104 => ⟨S16x1, .f32⟩
  | 105 => ⟨S16x3, .f32⟩
  | 106 => ⟨S16, .f32⟩
  | 107 => ⟨S16, .f32⟩
  | 108 => ⟨S16, .f32⟩
  | 109 => ⟨S_, .f32⟩
  | 110 => ⟨S16, .f32⟩
  | 111 => ⟨S16, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S16, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S16x1, .f32⟩
  | _ => ⟨S16x2048x2, .f32⟩

abbrev hbmTy0_1 (i : Nat) : BufTy := match i % 128 with
  | 0 => ⟨S16x1, .f32⟩
  | 1 => ⟨S16x1, .f32⟩
  | 2 => ⟨S16x3, .f32⟩
  | 3 => ⟨S16x1x3, .f32⟩
  | 4 => ⟨S16x1x3, .f32⟩
  | 5 => ⟨S16x1x3, .f32⟩
  | 6 => ⟨S16x3x3, .f32⟩
  | 7 => ⟨S16x6000x3, .f32⟩
  | 8 => ⟨S16x1x1, .f32⟩
  | 9 => ⟨S16x6000x2, .f32⟩
  | 10 => ⟨S16x6000x2, .f32⟩
  | 11 => ⟨S16x6000x2, .f32⟩
  | 12 => ⟨S16x1x2, .f32⟩
  | 13 => ⟨S16x6000x2, .f32⟩
  | 14 => ⟨S16x6000x2, .f32⟩
  | 15 => ⟨S16x2000x2, .f32⟩
  | 16 => ⟨S16x2x2000, .f32⟩
  | 17 => ⟨S16x1x2000, .f32⟩
  | 18 => ⟨S16x2000, .f32⟩
  | 19 => ⟨S16x2000x2, .f32⟩
  | 20 => ⟨S16x2x2000, .f32⟩
  | 21 => ⟨S16x1x2000, .f32⟩
  | 22 => ⟨S16x2000, .f32⟩
  | 23 => ⟨S16x1000x2, .f32⟩
  | 24 => ⟨S16x2x1000, .f32⟩
  | 25 => ⟨S16x1x1000, .f32⟩
  | 26 => ⟨S16x1000, .f32⟩
  | 27 => ⟨S16x1000x2, .f32⟩
  | 28 => ⟨S16x2x1000, .f32⟩
  | 29 => ⟨S16x1x1000, .f32⟩
  | 30 => ⟨S16x1000, .f32⟩
  | 31 => ⟨S1, .f32⟩
  | 32 => ⟨S_, .f32⟩
  | 33 => ⟨S16x2000, .f32⟩
  | 34 => ⟨S16x2000, .f32⟩
  | 35 => ⟨S1, .f32⟩
  | 36 => ⟨S_, .f32⟩
  | 37 => ⟨S16x2000, .f32⟩
  | 38 => ⟨S16x2000, .f32⟩
  | 39 => ⟨S1, .f32⟩
  | 40 => ⟨S_, .f32⟩
  | 41 => ⟨S16x1000, .f32⟩
  | 42 => ⟨S16x1000, .f32⟩
  | 43 => ⟨S1, .f32⟩
  | 44 => ⟨S_, .f32⟩
  | 45 => ⟨S16x1000, .f32⟩
  | 46 => ⟨S16x1000, .f32⟩
  | 47 => ⟨S16x6000, .f32⟩
  | 48 => ⟨S_, .f32⟩
  | 49 => ⟨S16, .f32⟩
  | 50 => ⟨S_, .f32⟩
  | 51 => ⟨S16, .f32⟩
  | 52 => ⟨S16, .f32⟩
  | 53 => ⟨S_, .f32⟩
  | 54 => ⟨S_, .f32⟩
  | 55 => ⟨S_, .f32⟩
  | 56 => ⟨S_, .f32⟩
  | _ => ⟨S16x2048x2, .f32⟩

abbrev hbmTy (i : Nat) : BufTy := match i / 128 with
  | 0 => hbmTy0_0 i
  | 1 => hbmTy0_1 i
  | _ => ⟨S16x2048x2, .f32⟩

abbrev bufTy : (tb : Table) → Fin (tcTables nBuf tb) → BufTy
  | .hbm, ⟨i, _⟩ => hbmTy i
  | .local _ .vmem, ⟨0, _⟩ => ⟨S1x2x2000, .f32⟩
  | .local _ .vmem, ⟨1, _⟩ => ⟨S1x2x2000, .f32⟩
  | .local _ .vmem, ⟨2, _⟩ => ⟨S1x2048x2, .f32⟩
  | .local _ .vmem, ⟨3, _⟩ => ⟨S1x2048x2, .f32⟩
  | .local _ .vmem, ⟨4, _⟩ => ⟨S1x1x2000, .f32⟩
  | .local _ .vmem, ⟨5, _⟩ => ⟨S1x1x2000, .f32⟩
  | .local _ .vmem, ⟨6, _⟩ => ⟨S1x2000, .f32⟩
  | .local _ .vmem, ⟨7, _⟩ => ⟨S1x2x2000, .f32⟩
  | .local _ .vmem, ⟨8, _⟩ => ⟨S1x2x2000, .f32⟩
  | .local _ .vmem, ⟨9, _⟩ => ⟨S1x2048x2, .f32⟩
  | .local _ .vmem, ⟨10, _⟩ => ⟨S1x2048x2, .f32⟩
  | .local _ .vmem, ⟨11, _⟩ => ⟨S1x1x2000, .f32⟩
  | .local _ .vmem, ⟨12, _⟩ => ⟨S1x1x2000, .f32⟩
  | .local _ .vmem, ⟨13, _⟩ => ⟨S1x2000, .f32⟩
  | .local _ .vmem, ⟨14, _⟩ => ⟨S1x2x1000, .f32⟩
  | .local _ .vmem, ⟨15, _⟩ => ⟨S1x2x1000, .f32⟩
  | .local _ .vmem, ⟨16, _⟩ => ⟨S1x2048x2, .f32⟩
  | .local _ .vmem, ⟨17, _⟩ => ⟨S1x2048x2, .f32⟩
  | .local _ .vmem, ⟨18, _⟩ => ⟨S1x1x1000, .f32⟩
  | .local _ .vmem, ⟨19, _⟩ => ⟨S1x1x1000, .f32⟩
  | .local _ .vmem, ⟨20, _⟩ => ⟨S1x1000, .f32⟩
  | .local _ .vmem, ⟨21, _⟩ => ⟨S1x2x1000, .f32⟩
  | .local _ .vmem, ⟨22, _⟩ => ⟨S1x2x1000, .f32⟩
  | .local _ .vmem, ⟨23, _⟩ => ⟨S1x2048x2, .f32⟩
  | .local _ .vmem, ⟨24, _⟩ => ⟨S1x2048x2, .f32⟩
  | .local _ .vmem, ⟨25, _⟩ => ⟨S1x1x1000, .f32⟩
  | .local _ .vmem, ⟨26, _⟩ => ⟨S1x1x1000, .f32⟩
  | .local _ .vmem, ⟨27, _⟩ => ⟨S1x1000, .f32⟩
  | _, _ => ⟨S16x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v5 : Ref sig .tc := ⟨.hbm, 42, rfl⟩
abbrev main_cst_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_5 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_6 : Ref sig .tc := ⟨.hbm, 90, rfl⟩
abbrev main_v47 : Ref sig .tc := ⟨.hbm, 91, rfl⟩
abbrev main_v48 : Ref sig .tc := ⟨.hbm, 92, rfl⟩
abbrev main_cst_7 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_8 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_9 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_10 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_11 : Ref sig .tc := ⟨.hbm, 121, rfl⟩
abbrev main_v73 : Ref sig .tc := ⟨.hbm, 122, rfl⟩
abbrev main_v74 : Ref sig .tc := ⟨.hbm, 123, rfl⟩
abbrev main_cst_12 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_13 : Ref sig .tc := ⟨.hbm, 176, rfl⟩
abbrev main_v126 : Ref sig .tc := ⟨.hbm, 177, rfl⟩
abbrev main_cst_14 : Ref sig .tc := ⟨.hbm, 178, rfl⟩
abbrev main_v127 : Ref sig .tc := ⟨.hbm, 179, rfl⟩
abbrev main_v128 : Ref sig .tc := ⟨.hbm, 180, rfl⟩
abbrev main_cst_15 : Ref sig .tc := ⟨.hbm, 181, rfl⟩
abbrev main_v129 : Ref sig .tc := ⟨.hbm, 182, rfl⟩
abbrev main_cst_16 : Ref sig .tc := ⟨.hbm, 183, rfl⟩
abbrev main_v130 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32_13 : BitVec 32 := 0#32
  let c0_i32 : BitVec 32 := 0#32
  let c1_i32 : BitVec 32 := 1#32
  let arg5 : BitVec 32 := Scf.iv c0_i32 c1_i32 k0_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  v19
def k0_off1 (k0_t1 : Fin k0_t1_loop.trips) : Fin 3 → Nat :=
  let c0_14 : Index := 0#32
  let c0_i32_13 : BitVec 32 := 0#32
  let c0_i32 : BitVec 32 := 0#32
  let c1_i32 : BitVec 32 := 1#32
  let arg5 : BitVec 32 := Scf.iv c0_i32 c1_i32 k0_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  let v20 : BitVec 32 := v19
  let v21 : Index := Scalar.indexCast v20
  let c0_15 : Index := 0#32
  ![0, v21.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k1_mult1 (k1_t1 : Fin k1_t1_loop.trips) : BitVec 32 :=
  let c0_i32_13 : BitVec 32 := 0#32
  let c0_i32 : BitVec 32 := 0#32
  let c1_i32 : BitVec 32 := 1#32
  let arg5 : BitVec 32 := Scf.iv c0_i32 c1_i32 k1_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  v19
def k1_off1 (k1_t1 : Fin k1_t1_loop.trips) : Fin 3 → Nat :=
  let c0_14 : Index := 0#32
  let c0_i32_13 : BitVec 32 := 0#32
  let c0_i32 : BitVec 32 := 0#32
  let c1_i32 : BitVec 32 := 1#32
  let arg5 : BitVec 32 := Scf.iv c0_i32 c1_i32 k1_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  let v20 : BitVec 32 := v19
  let v21 : Index := Scalar.indexCast v20
  let c0_15 : Index := 0#32
  ![0, v21.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

@[reducible] def k2_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k2_mult1 (k2_t1 : Fin k2_t1_loop.trips) : BitVec 32 :=
  let c0_i32_13 : BitVec 32 := 0#32
  let c0_i32 : BitVec 32 := 0#32
  let c1_i32 : BitVec 32 := 1#32
  let arg5 : BitVec 32 := Scf.iv c0_i32 c1_i32 k2_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  v19
def k2_off1 (k2_t1 : Fin k2_t1_loop.trips) : Fin 3 → Nat :=
  let c0_14 : Index := 0#32
  let c0_i32_13 : BitVec 32 := 0#32
  let c0_i32 : BitVec 32 := 0#32
  let c1_i32 : BitVec 32 := 1#32
  let arg5 : BitVec 32 := Scf.iv c0_i32 c1_i32 k2_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  let v20 : BitVec 32 := v19
  let v21 : Index := Scalar.indexCast v20
  let c0_15 : Index := 0#32
  ![0, v21.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

@[reducible] def k3_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k3_mult1 (k3_t1 : Fin k3_t1_loop.trips) : BitVec 32 :=
  let c0_i32_13 : BitVec 32 := 0#32
  let c0_i32 : BitVec 32 := 0#32
  let c1_i32 : BitVec 32 := 1#32
  let arg5 : BitVec 32 := Scf.iv c0_i32 c1_i32 k3_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  v19
def k3_off1 (k3_t1 : Fin k3_t1_loop.trips) : Fin 3 → Nat :=
  let c0_14 : Index := 0#32
  let c0_i32_13 : BitVec 32 := 0#32
  let c0_i32 : BitVec 32 := 0#32
  let c1_i32 : BitVec 32 := 1#32
  let arg5 : BitVec 32 := Scf.iv c0_i32 c1_i32 k3_t1
  let c1_i32_12 : BitVec 32 := 1#32
  let v17 : BitVec 32 := Scalar.muli arg5 c1_i32_12
  let v18 : BitVec 32 := Scalar.addi c0_i32_13 v17
  let c256_i32 : BitVec 32 := 256#32
  let v19 : BitVec 32 := Scalar.muli v18 c256_i32
  let v20 : BitVec 32 := v19
  let v21 : Index := Scalar.indexCast v20
  let c0_15 : Index := 0#32
  ![0, v21.toNat, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2x1000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x1000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S2000_S2000_S1000_S1000_S6000_d0 : Shape.Concatenates [S2000, S2000, S1000, S1000] S6000 0
  bcast_S_S6000 : S_.BroadcastsInDim S6000 (![] : Fin 0 → Fin S6000.rank)
  bcast_S6000_S6000x1_0 : S6000.BroadcastsInDim S6000x1 (![0] : Fin 1 → Fin S6000x1.rank)
  bcast_S_S6000x1 : S_.BroadcastsInDim S6000x1 (![] : Fin 0 → Fin S6000x1.rank)
  bcast_S1_S1x1_1 : S1.BroadcastsInDim S1x1 (![1] : Fin 1 → Fin S1x1.rank)
  bcast_S1x1_S6000x1_0_1 : S1x1.BroadcastsInDim S6000x1 (![0, 1] : Fin 2 → Fin S6000x1.rank)
  reducesTo_S6000x1_S6000_d1 : S6000x1.ReducesTo [1] S6000
  h_S_ : 0 < S_.numel
  bcast_S6000_S16x6000x3_1 : S6000.BroadcastsInDim S16x6000x3 (![1] : Fin 1 → Fin S16x6000x3.rank)
  bcast_S_S16x6000x3 : S_.BroadcastsInDim S16x6000x3 (![] : Fin 0 → Fin S16x6000x3.rank)
  slices_S16x7_S16x1_0_0 : S16x7.Slices ![0, 0] S16x1
  slices_S16x7_S16x2_0_1 : S16x7.Slices ![0, 1] S16x2
  slices_S16x7_S16x4_0_3 : S16x7.Slices ![0, 3] S16x4
  reducesTo_S16x4_S16_d1 : S16x4.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4_0_1 : S16x1.BroadcastsInDim S16x4 (![0, 1] : Fin 2 → Fin S16x4.rank)
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  bcast_S_S16 : S_.BroadcastsInDim S16 (![] : Fin 0 → Fin S16.rank)
  concatenates_S16x1_S16x1_S16x1_S16x3_d1 : Shape.Concatenates [S16x1, S16x1, S16x1] S16x3 1
  bcast_S16x3_S16x1x3_0_2 : S16x3.BroadcastsInDim S16x1x3 (![0, 2] : Fin 2 → Fin S16x1x3.rank)
  concatenates_S16x1x3_S16x1x3_S16x1x3_S16x3x3_d1 : Shape.Concatenates [S16x1x3, S16x1x3, S16x1x3] S16x3x3 1
  bcast_S16x1_S16x1x1_0_1 : S16x1.BroadcastsInDim S16x1x1 (![0, 1] : Fin 2 → Fin S16x1x1.rank)
  slices_S16x6000x3_S16x6000x2_0_0_0 : S16x6000x3.Slices ![0, 0, 0] S16x6000x2
  bcast_S16x1x1_S16x6000x2_0_1_2 : S16x1x1.BroadcastsInDim S16x6000x2 (![0, 1, 2] : Fin 3 → Fin S16x6000x2.rank)
  bcast_S16x2_S16x1x2_0_2 : S16x2.BroadcastsInDim S16x1x2 (![0, 2] : Fin 2 → Fin S16x1x2.rank)
  bcast_S16x1x2_S16x6000x2_0_1_2 : S16x1x2.BroadcastsInDim S16x6000x2 (![0, 1, 2] : Fin 3 → Fin S16x6000x2.rank)
  slices_S16x6000x2_S16x2000x2_0_0_0 : S16x6000x2.Slices ![0, 0, 0] S16x2000x2
  transposes_S16x2000x2_S16x2x2000_0_2_1 : S16x2000x2.Transposes [0, 2, 1] S16x2x2000
  inb_S1x2x2000_S1x1x2000_0_0_0 : ∀ a, (![0, 0, 0] : Fin 3 → Nat) a + S1x1x2000.size a ≤ S1x2x2000.size a
  h_S1x1x2000 : 0 < S1x1x2000.numel
  shapeCasts_S1x1x2000_S1x2000 : S1x1x2000.ShapeCasts S1x2000
  inb_S1x2x2000_S1x1x2000_0_1_0 : ∀ a, (![0, 1, 0] : Fin 3 → Nat) a + S1x1x2000.size a ≤ S1x2x2000.size a
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  h_S1x256x2 : 0 < S1x256x2.numel
  shapeCasts_S1x256x2_S256x2 : S1x256x2.ShapeCasts S256x2
  slices_S256x2_o0_0_S256x1 : S256x2.Slices ![0, 0] S256x1
  slices_S256x2_o0_1_S256x1 : S256x2.Slices ![0, 1] S256x1
  broadcasts_S256x1_S256x2000 : S256x1.Broadcasts S256x2000
  broadcasts_S1x2000_S256x2000 : S1x2000.Broadcasts S256x2000
  reduces_S256x2000_S2000 : S256x2000.Reduces [0] S2000
  shapeCasts_S2000_S1x2000 : S2000.ShapeCasts S1x2000
  inb_S1x1x2000_S1x1x2000_0_0_0 : ∀ a, (![0, 0, 0] : Fin 3 → Nat) a + S1x1x2000.size a ≤ S1x1x2000.size a
  shapeCasts_S1x2000_S1x1x2000 : S1x2000.ShapeCasts S1x1x2000
  shapeCasts_S16x1x2000_S16x2000 : S16x1x2000.ShapeCasts S16x2000
  slices_S16x6000x2_S16x2000x2_0_2000_0 : S16x6000x2.Slices ![0, 2000, 0] S16x2000x2
  slices_S16x6000x2_S16x1000x2_0_4000_0 : S16x6000x2.Slices ![0, 4000, 0] S16x1000x2
  transposes_S16x1000x2_S16x2x1000_0_2_1 : S16x1000x2.Transposes [0, 2, 1] S16x2x1000
  inb_S1x2x1000_S1x1x1000_0_0_0 : ∀ a, (![0, 0, 0] : Fin 3 → Nat) a + S1x1x1000.size a ≤ S1x2x1000.size a
  h_S1x1x1000 : 0 < S1x1x1000.numel
  shapeCasts_S1x1x1000_S1x1000 : S1x1x1000.ShapeCasts S1x1000
  inb_S1x2x1000_S1x1x1000_0_1_0 : ∀ a, (![0, 1, 0] : Fin 3 → Nat) a + S1x1x1000.size a ≤ S1x2x1000.size a
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S256x1_S256x1000 : S256x1.Broadcasts S256x1000
  broadcasts_S1x1000_S256x1000 : S1x1000.Broadcasts S256x1000
  reduces_S256x1000_S1000 : S256x1000.Reduces [0] S1000
  shapeCasts_S1000_S1x1000 : S1000.ShapeCasts S1x1000
  inb_S1x1x1000_S1x1x1000_0_0_0 : ∀ a, (![0, 0, 0] : Fin 3 → Nat) a + S1x1x1000.size a ≤ S1x1x1000.size a
  shapeCasts_S1x1000_S1x1x1000 : S1x1000.ShapeCasts S1x1x1000
  shapeCasts_S16x1x1000_S16x1000 : S16x1x1000.ShapeCasts S16x1000
  slices_S16x6000x2_S16x1000x2_0_5000_0 : S16x6000x2.Slices ![0, 5000, 0] S16x1000x2
  slices_S4_S1_0 : S4.Slices ![0] S1
  shapeCasts_S1_S_ : S1.ShapeCasts S_
  bcast_S_S16x2000 : S_.BroadcastsInDim S16x2000 (![] : Fin 0 → Fin S16x2000.rank)
  slices_S4_S1_1 : S4.Slices ![1] S1
  slices_S4_S1_2 : S4.Slices ![2] S1
  bcast_S_S16x1000 : S_.BroadcastsInDim S16x1000 (![] : Fin 0 → Fin S16x1000.rank)
  slices_S4_S1_3 : S4.Slices ![3] S1
  concatenates_S16x2000_S16x2000_S16x1000_S16x1000_S16x6000_d1 : Shape.Concatenates [S16x2000, S16x2000, S16x1000, S16x1000] S16x6000 1
  reducesTo_S16x6000_S16_d1 : S16x6000.ReducesTo [1] S16
  reducesTo_S16_S_d0 : S16.ReducesTo [0] S_
  gather_S16x8000x3_S6000x1_S16x6000x3_02_1_n_n_1_1_1613_wf : GatherDims.WF S16x8000x3 S6000x1 S16x6000x3 [0, 2] [1] [] [1] [] 1 ![16, 1, 3]
  dot_S16x6000x3_S16x3x3_S16x6000x3_2_2_1_1_0_0_wf : DotDims.WF S16x6000x3 S16x3x3 S16x6000x3 [2] [2] [1] [1] [0] [0]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x2.size a ≤ S1x2048x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x2000.size a ≤ S16x2x2000.size a
  hwx0_0 : ∀ i : grid0.Coords, EltTy.bits .f32 = 32 ∨ (Rect.block (s := S16x2x2000) S1x2x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2.size a ≤ S16x2048x2.size a
  hwx0_1 : ∀ i : grid0.Coords, EltTy.bits .f32 = 32 ∨ (Rect.block (s := S16x2048x2) S1x2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2000.size a ≤ S16x1x2000.size a
  hwx0_2 : ∀ i : grid0.Coords, EltTy.bits .f32 = 32 ∨ (Rect.block (s := S16x1x2000) S1x1x2000.size (cc0_transform_2 i) (hinb0_2 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S1x256x2.size a ≤ S1x2048x2.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x2000.size a ≤ S16x2x2000.size a
  hwx1_0 : ∀ i : grid1.Coords, EltTy.bits .f32 = 32 ∨ (Rect.block (s := S16x2x2000) S1x2x2000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x2.size a ≤ S16x2048x2.size a
  hwx1_1 : ∀ i : grid1.Coords, EltTy.bits .f32 = 32 ∨ (Rect.block (s := S16x2048x2) S1x2048x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2000.size a ≤ S16x1x2000.size a
  hwx1_2 : ∀ i : grid1.Coords, EltTy.bits .f32 = 32 ∨ (Rect.block (s := S16x1x2000) S1x1x2000.size (cc1_transform_2 i) (hinb1_2 i)).WholeWords (EltTy.packing .f32)
  hrank2 : 0 < grid2.rank
  k2_t1_ok : k2_t1_loop.OK
  k2_mult1_dvd : ∀ k2_t1 : Fin k2_t1_loop.trips, 256 ∣ (k2_mult1 k2_t1).toNat
  k2_off1_inb : ∀ k2_t1 : Fin k2_t1_loop.trips, ∀ a, (k2_off1 k2_t1) a + S1x256x2.size a ≤ S1x2048x2.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2x1000.size a ≤ S16x2x1000.size a
  hwx2_0 : ∀ i : grid2.Coords, EltTy.bits .f32 = 32 ∨ (Rect.block (s := S16x2x1000) S1x2x1000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x2.size a ≤ S16x2048x2.size a
  hwx2_1 : ∀ i : grid2.Coords, EltTy.bits .f32 = 32 ∨ (Rect.block (s := S16x2048x2) S1x2048x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1000.size a ≤ S16x1x1000.size a
  hwx2_2 : ∀ i : grid2.Coords, EltTy.bits .f32 = 32 ∨ (Rect.block (s := S16x1x1000) S1x1x1000.size (cc2_transform_2 i) (hinb2_2 i)).WholeWords (EltTy.packing .f32)
  hrank3 : 0 < grid3.rank
  k3_t1_ok : k3_t1_loop.OK
  k3_mult1_dvd : ∀ k3_t1 : Fin k3_t1_loop.trips, 256 ∣ (k3_mult1 k3_t1).toNat
  k3_off1_inb : ∀ k3_t1 : Fin k3_t1_loop.trips, ∀ a, (k3_off1 k3_t1) a + S1x256x2.size a ≤ S1x2048x2.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2x1000.size a ≤ S16x2x1000.size a
  hwx3_0 : ∀ i : grid3.Coords, EltTy.bits .f32 = 32 ∨ (Rect.block (s := S16x2x1000) S1x2x1000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x2.size a ≤ S16x2048x2.size a
  hwx3_1 : ∀ i : grid3.Coords, EltTy.bits .f32 = 32 ∨ (Rect.block (s := S16x2048x2) S1x2048x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1000.size a ≤ S16x1x1000.size a
  hwx3_2 : ∀ i : grid3.Coords, EltTy.bits .f32 = 32 ∨ (Rect.block (s := S16x1x1000) S1x1x1000.size (cc3_transform_2 i) (hinb3_2 i)).WholeWords (EltTy.packing .f32)

variable [Facts₀]

def gather_S16x8000x3_S6000x1_S16x6000x3_02_1_n_n_1_1_1613 : GatherDims S16x8000x3 S6000x1 S16x6000x3 where
  offsetDims := [0, 2]
  collapsedSliceDims := [1]
  operandBatchingDims := []
  startIndicesBatchingDims := []
  startIndexMap := [1]
  indexVectorDim := 1
  sliceSizes := ![16, 1, 3]
  wf := gather_S16x8000x3_S6000x1_S16x6000x3_02_1_n_n_1_1_1613_wf
def dot_S16x6000x3_S16x3x3_S16x6000x3_2_2_1_1_0_0 : DotDims S16x6000x3 S16x3x3 S16x6000x3 where
  lhsContracting := [2]
  rhsContracting := [2]
  lhsNonContracting := [1]
  rhsNonContracting := [1]
  lhsBatch := [0]
  rhsBatch := [0]
  wf := dot_S16x6000x3_S16x3x3_S16x6000x3_2_2_1_1_0_0_wf

abbrev win0_0 : Pipeline.Window sig grid0 :=
  Pipeline.Window.ofSpec (Memref.whole main_v94) S1x2x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v95) S1x1x2000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v98) S1x2x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S1x1x2000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v102) S1x2x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x2048x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x1x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v106) S1x2x1000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S1x2048x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v107) S1x1x1000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16x2048x2 : Shape := ⟨3, ![16, 2048, 2]⟩
abbrev S16x8000x3 : Shape := ⟨3, ![16, 8000, 3]⟩
abbrev S16x7 : Shape := ⟨2, ![16, 7]⟩
abbrev S2000 : Shape := ⟨1, ![2000]⟩
abbrev S1000 : Shape := ⟨1, ![1000]⟩
abbrev S4 : Shape := ⟨1, ![4]⟩
abbrev S_ : Shape := ⟨0, ![]⟩
abbrev S2000x1 : Shape := ⟨2, ![2000, 1]⟩
abbrev S16x2000x3 : Shape := ⟨3, ![16, 2000, 3]⟩
abbrev S1000x1 : Shape := ⟨2, ![1000, 1]⟩
abbrev S16x1000x3 : Shape := ⟨3, ![16, 1000, 3]⟩
abbrev S16x6000x3 : Shape := ⟨3, ![16, 6000, 3]⟩
abbrev S16x1 : Shape := ⟨2, ![16, 1]⟩
abbrev S16x2 : Shape := ⟨2, ![16, 2]⟩
abbrev S16x4 : Shape := ⟨2, ![16, 4]⟩
abbrev S16 : Shape := ⟨1, ![16]⟩
abbrev S16x3 : Shape := ⟨2, ![16, 3]⟩
abbrev S16x1x3 : Shape := ⟨3, ![16, 1, 3]⟩
abbrev S16x3x3 : Shape := ⟨3, ![16, 3, 3]⟩
abbrev S16x1x1 : Shape := ⟨3, ![16, 1, 1]⟩
abbrev S16x6000x2 : Shape := ⟨3, ![16, 6000, 2]⟩
abbrev S16x1x2 : Shape := ⟨3, ![16, 1, 2]⟩
abbrev S16x2000x2 : Shape := ⟨3, ![16, 2000, 2]⟩
abbrev S16x2000 : Shape := ⟨2, ![16, 2000]⟩
abbrev S16x2048 : Shape := ⟨2, ![16, 2048]⟩
abbrev S16x2000x2048 : Shape := ⟨3, ![16, 2000, 2048]⟩
abbrev S16x2000x1 : Shape := ⟨3, ![16, 2000, 1]⟩
abbrev S16x1x2048 : Shape := ⟨3, ![16, 1, 2048]⟩
abbrev S1 : Shape := ⟨1, ![1]⟩
abbrev S16x1000x2 : Shape := ⟨3, ![16, 1000, 2]⟩
abbrev S16x1000 : Shape := ⟨2, ![16, 1000]⟩
abbrev S16x1000x2048 : Shape := ⟨3, ![16, 1000, 2048]⟩
abbrev S16x1000x1 : Shape := ⟨3, ![16, 1000, 1]⟩
abbrev S16x6000 : Shape := ⟨2, ![16, 6000]⟩

abbrev nBuf : Space → Nat
  | .hbm => 258
  | .vmem => 0
  | .smem => 0
  | _ => 0

abbrev hbmTy0_0 (i : Nat) : BufTy := match i % 128 with
  | 0 => ⟨S16x2048x2, .f32⟩
  | 1 => ⟨S16x2048x2, .f32⟩
  | 2 => ⟨S16x2048x2, .f32⟩
  | 3 => ⟨S16x2048x2, .f32⟩
  | 4 => ⟨S16x8000x3, .f32⟩
  | 5 => ⟨S16x7, .f32⟩
  | 6 => ⟨S2000, .i32⟩
  | 7 => ⟨S2000, .i32⟩
  | 8 => ⟨S1000, .i32⟩
  | 9 => ⟨S1000, .i32⟩
  | 10 => ⟨S4, .f32⟩
  | 11 => ⟨S_, .i32⟩
  | 12 => ⟨S2000, .i32⟩
  | 13 => ⟨S2000, .i1⟩
  | 14 => ⟨S_, .i32⟩
  | 15 => ⟨S2000, .i32⟩
  | 16 => ⟨S2000, .i32⟩
  | 17 => ⟨S2000, .i32⟩
  | 18 => ⟨S2000x1, .i32⟩
  | 19 => ⟨S16x2000x3, .f32⟩
  | 20 => ⟨S_, .i32⟩
  | 21 => ⟨S2000, .i32⟩
  | 22 => ⟨S2000, .i1⟩
  | 23 => ⟨S_, .i32⟩
  | 24 => ⟨S2000, .i32⟩
  | 25 => ⟨S2000, .i32⟩
  | 26 => ⟨S2000, .i32⟩
  | 27 => ⟨S2000x1, .i32⟩
  | 28 => ⟨S16x2000x3, .f32⟩
  | 29 => ⟨S_, .i32⟩
  | 30 => ⟨S1000, .i32⟩
  | 31 => ⟨S1000, .i1⟩
  | 32 => ⟨S_, .i32⟩
  | 33 => ⟨S1000, .i32⟩
  | 34 => ⟨S1000, .i32⟩
  | 35 => ⟨S1000, .i32⟩
  | 36 => ⟨S1000x1, .i32⟩
  | 37 => ⟨S16x1000x3, .f32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S16x1000x3, .f32⟩
  | 47 => ⟨S16x6000x3, .f32⟩
  | 48 => ⟨S16x1, .f32⟩
  | 49 => ⟨S16x2, .f32⟩
  | 50 => ⟨S16x4, .f32⟩
  | 51 => ⟨S16x4, .f32⟩
  | 52 => ⟨S_, .f32⟩
  | 53 => ⟨S16, .f32⟩
  | 54 => ⟨S16x1, .f32⟩
  | 55 => ⟨S16x1, .f32⟩
  | 56 => ⟨S_, .f32⟩
  | 57 => ⟨S16x1, .f32⟩
  | 58 => ⟨S16x1, .f32⟩
  | 59 => ⟨S16x4, .f32⟩
  | 60 => ⟨S16x4, .f32⟩
  | 61 => ⟨S16x1, .f32⟩
  | 62 => ⟨S16, .f32⟩
  | 63 => ⟨S16x1, .f32⟩
  | 64 => ⟨S16, .f32⟩
  | 65 => ⟨S16x1, .f32⟩
  | 66 => ⟨S16, .f32⟩
  | 67 => ⟨S16x1, .f32⟩
  | 68 => ⟨S16, .f32⟩
  | 69 => ⟨S16, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S16, .f32⟩
  | 86 => ⟨S16, .f32⟩
  | 87 => ⟨S_, .f32⟩
  | 88 => ⟨S16, .f32⟩
  | 89 => ⟨S16, .f32⟩
  | 90 => ⟨S16x1, .f32⟩
  | 91 => ⟨S16x1, .f32⟩
  | 92 => ⟨S16x1, .f32⟩
  | 93 => ⟨S16x3, .f32⟩
  | 94 => ⟨S16, .f32⟩
  | 95 => ⟨S16, .f32⟩
  | 96 => ⟨S16, .f32⟩
  | 97 => ⟨S_, .f32⟩
  | 98 => ⟨S16, .f32⟩
  | 99 => ⟨S16, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S16, .f32⟩
  | 110 => ⟨S16, .f32⟩
  | 111 => ⟨S16, .f32⟩
  | 112 => ⟨S_, .f32⟩
  | 113 => ⟨S16, .f32⟩
  | 114 => ⟨S16, .f32⟩
  | 115 => ⟨S16x1, .f32⟩
  | 116 => ⟨S16x1, .f32⟩
  | 117 => ⟨S16x1, .f32⟩
  | 118 => ⟨S16x3, .f32⟩
  | 119 => ⟨S16, .f32⟩
  | 120 => ⟨S16, .f32⟩
  | 121 => ⟨S16, .f32⟩
  | 122 => ⟨S_, .f32⟩
  | 123 => ⟨S16, .f32⟩
  | 124 => ⟨S16, .f32⟩
  | 125 => ⟨S16, .f32⟩
  | 126 => ⟨S16, .f32⟩
  | 127 => ⟨S16, .f32⟩
  | _ => ⟨S16x2048x2, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16x1, .f32⟩
  | 13 => ⟨S16x1, .f32⟩
  | 14 => ⟨S16x1, .f32⟩
  | 15 => ⟨S16x3, .f32⟩
  | 16 => ⟨S16x1x3, .f32⟩
  | 17 => ⟨S16x1x3, .f32⟩
  | 18 => ⟨S16x1x3, .f32⟩
  | 19 => ⟨S16x3x3, .f32⟩
  | 20 => ⟨S16x6000x3, .f32⟩
  | 21 => ⟨S16x1x1, .f32⟩
  | 22 => ⟨S16x6000x2, .f32⟩
  | 23 => ⟨S16x6000x2, .f32⟩
  | 24 => ⟨S16x6000x2, .f32⟩
  | 25 => ⟨S16x1x2, .f32⟩
  | 26 => ⟨S16x6000x2, .f32⟩
  | 27 => ⟨S16x6000x2, .f32⟩
  | 28 => ⟨S16x2000x2, .f32⟩
  | 29 => ⟨S16x2000x2, .f32⟩
  | 30 => ⟨S_, .f32⟩
  | 31 => ⟨S16x2000, .f32⟩
  | 32 => ⟨S16x2048x2, .f32⟩
  | 33 => ⟨S_, .f32⟩
  | 34 => ⟨S16x2048, .f32⟩
  | 35 => ⟨S16x2000x2048, .f32⟩
  | 36 => ⟨S16x2000x1, .f32⟩
  | 37 => ⟨S16x1x2048, .f32⟩
  | 38 => ⟨S16x2000x2048, .f32⟩
  | 39 => ⟨S16x2000x2048, .f32⟩
  | 40 => ⟨S16x2000x2048, .f32⟩
  | 41 => ⟨S_, .f32⟩
  | 42 => ⟨S16x2000x2048, .f32⟩
  | 43 => ⟨S16x2000x2048, .f32⟩
  | 44 => ⟨S16x2000x2048, .f32⟩
  | 45 => ⟨S_, .f32⟩
  | 46 => ⟨S16x2000, .f32⟩
  | 47 => ⟨S1, .f32⟩
  | 48 => ⟨S_, .f32⟩
  | 49 => ⟨S16x2000, .f32⟩
  | 50 => ⟨S16x2000, .f32⟩
  | 51 => ⟨S16x2000x2, .f32⟩
  | 52 => ⟨S16x2000x2, .f32⟩
  | 53 => ⟨S_, .f32⟩
  | 54 => ⟨S16x2000, .f32⟩
  | 55 => ⟨S16x2048x2, .f32⟩
  | 56 => ⟨S_, .f32⟩
  | 57 => ⟨S16x2048, .f32⟩
  | 58 => ⟨S16x2000x2048, .f32⟩
  | 59 => ⟨S16x2000x1, .f32⟩
  | 60 => ⟨S16x1x2048, .f32⟩
  | 61 => ⟨S16x2000x2048, .f32⟩
  | 62 => ⟨S16x2000x2048, .f32⟩
  | 63 => ⟨S16x2000x2048, .f32⟩
  | 64 => ⟨S_, .f32⟩
  | 65 => ⟨S16x2000x2048, .f32⟩
  | 66 => ⟨S16x2000x2048, .f32⟩
  | 67 => ⟨S16x2000x2048, .f32⟩
  | 68 => ⟨S_, .f32⟩
  | 69 => ⟨S16x2000, .f32⟩
  | 70 => ⟨S1, .f32⟩
  | 71 => ⟨S_, .f32⟩
  | 72 => ⟨S16x2000, .f32⟩
  | 73 => ⟨S16x2000, .f32⟩
  | 74 => ⟨S16x1000x2, .f32⟩
  | 75 => ⟨S16x1000x2, .f32⟩
  | 76 => ⟨S_, .f32⟩
  | 77 => ⟨S16x1000, .f32⟩
  | 78 => ⟨S16x2048x2, .f32⟩
  | 79 => ⟨S_, .f32⟩
  | 80 => ⟨S16x2048, .f32⟩
  | 81 => ⟨S16x1000x2048, .f32⟩
  | 82 => ⟨S16x1000x1, .f32⟩
  | 83 => ⟨S16x1x2048, .f32⟩
  | 84 => ⟨S16x1000x2048, .f32⟩
  | 85 => ⟨S16x1000x2048, .f32⟩
  | 86 => ⟨S16x1000x2048, .f32⟩
  | 87 => ⟨S_, .f32⟩
  | 88 => ⟨S16x1000x2048, .f32⟩
  | 89 => ⟨S16x1000x2048, .f32⟩
  | 90 => ⟨S16x1000x2048, .f32⟩
  | 91 => ⟨S_, .f32⟩
  | 92 => ⟨S16x1000, .f32⟩
  | 93 => ⟨S1, .f32⟩
  | 94 => ⟨S_, .f32⟩
  | 95 => ⟨S16x1000, .f32⟩
  | 96 => ⟨S16x1000, .f32⟩
  | 97 => ⟨S16x1000x2, .f32⟩
  | 98 => ⟨S16x1000x2, .f32⟩
  | 99 => ⟨S_, .f32⟩
  | 100 => ⟨S16x1000, .f32⟩
  | 101 => ⟨S16x2048x2, .f32⟩
  | 102 => ⟨S_, .f32⟩
  | 103 => ⟨S16x2048, .f32⟩
  | 104 => ⟨S16x1000x2048, .f32⟩
  | 105 => ⟨S16x1000x1, .f32⟩
  | 106 => ⟨S16x1x2048, .f32⟩
  | 107 => ⟨S16x1000x2048, .f32⟩
  | 108 => ⟨S16x1000x2048, .f32⟩
  | 109 => ⟨S16x1000x2048, .f32⟩
  | 110 => ⟨S_, .f32⟩
  | 111 => ⟨S16x1000x2048, .f32⟩
  | 112 => ⟨S16x1000x2048, .f32⟩
  | 113 => ⟨S16x1000x2048, .f32⟩
  | 114 => ⟨S_, .f32⟩
  | 115 => ⟨S16x1000, .f32⟩
  | 116 => ⟨S1, .f32⟩
  | 117 => ⟨S_, .f32⟩
  | 118 => ⟨S16x1000, .f32⟩
  | 119 => ⟨S16x1000, .f32⟩
  | 120 => ⟨S16x6000, .f32⟩
  | 121 => ⟨S_, .f32⟩
  | 122 => ⟨S16, .f32⟩
  | 123 => ⟨S_, .f32⟩
  | 124 => ⟨S16, .f32⟩
  | 125 => ⟨S16, .f32⟩
  | 126 => ⟨S_, .f32⟩
  | 127 => ⟨S_, .f32⟩
  | _ => ⟨S16x2048x2, .f32⟩

abbrev hbmTy0_2 (i : Nat) : BufTy := match i % 128 with
  | 0 => ⟨S_, .f32⟩
  | 1 => ⟨S_, .f32⟩
  | _ => ⟨S16x2048x2, .f32⟩

abbrev hbmTy (i : Nat) : BufTy := match i / 128 with
  | 0 => hbmTy0_0 i
  | 1 => hbmTy0_1 i
  | 2 => hbmTy0_2 i
  | _ => ⟨S16x2048x2, .f32⟩

abbrev bufTy : (tb : Table) → Fin (tcTables nBuf tb) → BufTy
  | .hbm, ⟨i, _⟩ => hbmTy i
  | _, _ => ⟨S16x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_18 : Ref sig .tc := ⟨.hbm, 134, rfl⟩
abbrev main_v100 : Ref sig .tc := ⟨.hbm, 135, rfl⟩
abbrev main_v101 : Ref sig .tc := ⟨.hbm, 136, rfl⟩
abbrev main_cst_19 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_20 : Ref sig .tc := ⟨.hbm, 158, rfl⟩
abbrev main_v122 : Ref sig .tc := ⟨.hbm, 159, rfl⟩
abbrev main_v123 : Ref sig .tc := ⟨.hbm, 160, rfl⟩
abbrev main_cst_21 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_22 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_23 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_24 : Ref sig .tc := ⟨.hbm, 181, rfl⟩
abbrev main_v141 : Ref sig .tc := ⟨.hbm, 182, rfl⟩
abbrev main_v142 : Ref sig .tc := ⟨.hbm, 183, rfl⟩
abbrev main_cst_25 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_26 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_27 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_28 : Ref sig .tc := ⟨.hbm, 204, rfl⟩
abbrev main_v160 : Ref sig .tc := ⟨.hbm, 205, rfl⟩
abbrev main_v161 : Ref sig .tc := ⟨.hbm, 206, rfl⟩
abbrev main_cst_29 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_30 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_31 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_32 : Ref sig .tc := ⟨.hbm, 227, rfl⟩
abbrev main_v179 : Ref sig .tc := ⟨.hbm, 228, rfl⟩
abbrev main_v180 : Ref sig .tc := ⟨.hbm, 229, rfl⟩
abbrev main_cst_33 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_34 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_35 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_36 : Ref sig .tc := ⟨.hbm, 249, rfl⟩
abbrev main_v197 : Ref sig .tc := ⟨.hbm, 250, rfl⟩
abbrev main_cst_37 : Ref sig .tc := ⟨.hbm, 251, rfl⟩
abbrev main_v198 : Ref sig .tc := ⟨.hbm, 252, rfl⟩
abbrev main_v199 : Ref sig .tc := ⟨.hbm, 253, rfl⟩
abbrev main_cst_38 : Ref sig .tc := ⟨.hbm, 254, rfl⟩
abbrev main_v200 : Ref sig .tc := ⟨.hbm, 255, rfl⟩
abbrev main_cst_39 : Ref sig .tc := ⟨.hbm, 256, rfl⟩
abbrev main_v201 : Ref sig .tc := ⟨.hbm, 257, rfl⟩

abbrev nD : Nat := 1
abbrev τ : Topo := Topo.v7x

variable {F : FTy → Type} [FloatOps F]

class Facts₀ : Prop where
  bcast_S_S2000 : S_.BroadcastsInDim S2000 (![] : Fin 0 → Fin S2000.rank)
  bcast_S2000_S2000x1_0 : S2000.BroadcastsInDim S2000x1 (![0] : Fin 1 → Fin S2000x1.rank)
  bcast_S_S1000 : S_.BroadcastsInDim S1000 (![] : Fin 0 → Fin S1000.rank)
  bcast_S1000_S1000x1_0 : S1000.BroadcastsInDim S1000x1 (![0] : Fin 1 → Fin S1000x1.rank)
  concatenates_S16x2000x3_S16x2000x3_S16x1000x3_S16x1000x3_S16x6000x3_d1 : Shape.Concatenates [S16x2000x3, S16x2000x3, S16x1000x3, S16x1000x3] S16x6000x3 1
  slices_S16x7_S16x1_0_0 : S16x7.Slices ![0, 0] S16x1
  slices_S16x7_S16x2_0_1 : S16x7.Slices ![0, 1] S16x2
  slices_S16x7_S16x4_0_3 : S16x7.Slices ![0, 3] S16x4
  reducesTo_S16x4_S16_d1 : S16x4.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4_0_1 : S16x1.BroadcastsInDim S16x4 (![0, 1] : Fin 2 → Fin S16x4.rank)
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  bcast_S_S16 : S_.BroadcastsInDim S16 (![] : Fin 0 → Fin S16.rank)
  concatenates_S16x1_S16x1_S16x1_S16x3_d1 : Shape.Concatenates [S16x1, S16x1, S16x1] S16x3 1
  bcast_S16x3_S16x1x3_0_2 : S16x3.BroadcastsInDim S16x1x3 (![0, 2] : Fin 2 → Fin S16x1x3.rank)
  concatenates_S16x1x3_S16x1x3_S16x1x3_S16x3x3_d1 : Shape.Concatenates [S16x1x3, S16x1x3, S16x1x3] S16x3x3 1
  bcast_S16x1_S16x1x1_0_1 : S16x1.BroadcastsInDim S16x1x1 (![0, 1] : Fin 2 → Fin S16x1x1.rank)
  slices_S16x6000x3_S16x6000x2_0_0_0 : S16x6000x3.Slices ![0, 0, 0] S16x6000x2
  bcast_S16x1x1_S16x6000x2_0_1_2 : S16x1x1.BroadcastsInDim S16x6000x2 (![0, 1, 2] : Fin 3 → Fin S16x6000x2.rank)
  bcast_S16x2_S16x1x2_0_2 : S16x2.BroadcastsInDim S16x1x2 (![0, 2] : Fin 2 → Fin S16x1x2.rank)
  bcast_S16x1x2_S16x6000x2_0_1_2 : S16x1x2.BroadcastsInDim S16x6000x2 (![0, 1, 2] : Fin 3 → Fin S16x6000x2.rank)
  slices_S16x6000x2_S16x2000x2_0_0_0 : S16x6000x2.Slices ![0, 0, 0] S16x2000x2
  reducesTo_S16x2000x2_S16x2000_d2 : S16x2000x2.ReducesTo [2] S16x2000
  reducesTo_S16x2048x2_S16x2048_d2 : S16x2048x2.ReducesTo [2] S16x2048
  bcast_S16x2000_S16x2000x1_0_1 : S16x2000.BroadcastsInDim S16x2000x1 (![0, 1] : Fin 2 → Fin S16x2000x1.rank)
  bcast_S16x2048_S16x1x2048_0_2 : S16x2048.BroadcastsInDim S16x1x2048 (![0, 2] : Fin 2 → Fin S16x1x2048.rank)
  bcast_S16x2000x1_S16x2000x2048_0_1_2 : S16x2000x1.BroadcastsInDim S16x2000x2048 (![0, 1, 2] : Fin 3 → Fin S16x2000x2048.rank)
  bcast_S16x1x2048_S16x2000x2048_0_1_2 : S16x1x2048.BroadcastsInDim S16x2000x2048 (![0, 1, 2] : Fin 3 → Fin S16x2000x2048.rank)
  bcast_S_S16x2000x2048 : S_.BroadcastsInDim S16x2000x2048 (![] : Fin 0 → Fin S16x2000x2048.rank)
  reducesTo_S16x2000x2048_S16x2000_d2 : S16x2000x2048.ReducesTo [2] S16x2000
  slices_S4_S1_0 : S4.Slices ![0] S1
  shapeCasts_S1_S_ : S1.ShapeCasts S_
  bcast_S_S16x2000 : S_.BroadcastsInDim S16x2000 (![] : Fin 0 → Fin S16x2000.rank)
  slices_S16x6000x2_S16x2000x2_0_2000_0 : S16x6000x2.Slices ![0, 2000, 0] S16x2000x2
  slices_S4_S1_1 : S4.Slices ![1] S1
  slices_S16x6000x2_S16x1000x2_0_4000_0 : S16x6000x2.Slices ![0, 4000, 0] S16x1000x2
  reducesTo_S16x1000x2_S16x1000_d2 : S16x1000x2.ReducesTo [2] S16x1000
  bcast_S16x1000_S16x1000x1_0_1 : S16x1000.BroadcastsInDim S16x1000x1 (![0, 1] : Fin 2 → Fin S16x1000x1.rank)
  bcast_S16x1000x1_S16x1000x2048_0_1_2 : S16x1000x1.BroadcastsInDim S16x1000x2048 (![0, 1, 2] : Fin 3 → Fin S16x1000x2048.rank)
  bcast_S16x1x2048_S16x1000x2048_0_1_2 : S16x1x2048.BroadcastsInDim S16x1000x2048 (![0, 1, 2] : Fin 3 → Fin S16x1000x2048.rank)
  bcast_S_S16x1000x2048 : S_.BroadcastsInDim S16x1000x2048 (![] : Fin 0 → Fin S16x1000x2048.rank)
  reducesTo_S16x1000x2048_S16x1000_d2 : S16x1000x2048.ReducesTo [2] S16x1000
  slices_S4_S1_2 : S4.Slices ![2] S1
  bcast_S_S16x1000 : S_.BroadcastsInDim S16x1000 (![] : Fin 0 → Fin S16x1000.rank)
  slices_S16x6000x2_S16x1000x2_0_5000_0 : S16x6000x2.Slices ![0, 5000, 0] S16x1000x2
  slices_S4_S1_3 : S4.Slices ![3] S1
  concatenates_S16x2000_S16x2000_S16x1000_S16x1000_S16x6000_d1 : Shape.Concatenates [S16x2000, S16x2000, S16x1000, S16x1000] S16x6000 1
  reducesTo_S16x6000_S16_d1 : S16x6000.ReducesTo [1] S16
  reducesTo_S16_S_d0 : S16.ReducesTo [0] S_
  gather_S16x8000x3_S2000x1_S16x2000x3_02_1_n_n_1_1_1613_wf : GatherDims.WF S16x8000x3 S2000x1 S16x2000x3 [0, 2] [1] [] [1] [] 1 ![16, 1, 3]
  gather_S16x8000x3_S1000x1_S16x1000x3_02_1_n_n_1_1_1613_wf : GatherDims.WF S16x8000x3 S1000x1 S16x1000x3 [0, 2] [1] [] [1] [] 1 ![16, 1, 3]
  dot_S16x6000x3_S16x3x3_S16x6000x3_2_2_1_1_0_0_wf : DotDims.WF S16x6000x3 S16x3x3 S16x6000x3 [2] [2] [1] [1] [0] [0]
  dot_S16x2000x2_S16x2048x2_S16x2000x2048_2_2_1_1_0_0_wf : DotDims.WF S16x2000x2 S16x2048x2 S16x2000x2048 [2] [2] [1] [1] [0] [0]
  dot_S16x1000x2_S16x2048x2_S16x1000x2048_2_2_1_1_0_0_wf : DotDims.WF S16x1000x2 S16x2048x2 S16x1000x2048 [2] [2] [1] [1] [0] [0]

variable [Facts₀]

def gather_S16x8000x3_S2000x1_S16x2000x3_02_1_n_n_1_1_1613 : GatherDims S16x8000x3 S2000x1 S16x2000x3 where
  offsetDims := [0, 2]
  collapsedSliceDims := [1]
  operandBatchingDims := []
  startIndicesBatchingDims := []
  startIndexMap := [1]
  indexVectorDim := 1
  sliceSizes := ![16, 1, 3]
  wf := gather_S16x8000x3_S2000x1_S16x2000x3_02_1_n_n_1_1_1613_wf
def gather_S16x8000x3_S1000x1_S16x1000x3_02_1_n_n_1_1_1613 : GatherDims S16x8000x3 S1000x1 S16x1000x3 where
  offsetDims := [0, 2]
  collapsedSliceDims := [1]
  operandBatchingDims := []
  startIndicesBatchingDims := []
  startIndexMap := [1]
  indexVectorDim := 1
  sliceSizes := ![16, 1, 3]
  wf := gather_S16x8000x3_S1000x1_S16x1000x3_02_1_n_n_1_1_1613_wf
def dot_S16x6000x3_S16x3x3_S16x6000x3_2_2_1_1_0_0 : DotDims S16x6000x3 S16x3x3 S16x6000x3 where
  lhsContracting := [2]
  rhsContracting := [2]
  lhsNonContracting := [1]
  rhsNonContracting := [1]
  lhsBatch := [0]
  rhsBatch := [0]
  wf := dot_S16x6000x3_S16x3x3_S16x6000x3_2_2_1_1_0_0_wf
def dot_S16x2000x2_S16x2048x2_S16x2000x2048_2_2_1_1_0_0 : DotDims S16x2000x2 S16x2048x2 S16x2000x2048 where
  lhsContracting := [2]
  rhsContracting := [2]
  lhsNonContracting := [1]
  rhsNonContracting := [1]
  lhsBatch := [0]
  rhsBatch := [0]
  wf := dot_S16x2000x2_S16x2048x2_S16x2000x2048_2_2_1_1_0_0_wf
def dot_S16x1000x2_S16x2048x2_S16x1000x2048_2_2_1_1_0_0 : DotDims S16x1000x2 S16x2048x2 S16x1000x2048 where
  lhsContracting := [2]
  rhsContracting := [2]
  lhsNonContracting := [1]
  rhsNonContracting := [1]
  lhsBatch := [0]
  rhsBatch := [0]
  wf := dot_S16x1000x2_S16x2048x2_S16x1000x2048_2_2_1_1_0_0_wf

class Facts : Prop extends Facts₀ where

variable [Facts]
-- ==== Proof.KI.Fold.lean ====
import proofs.«423449_j63771674411371_3_alg».proof.Proof.Gen.KernelIdeal.Launch
import Idealize.ShloMosaic.Lib.StableHlo.Run

set_option maxRecDepth 2180

noncomputable section

namespace Cert.KernelIdeal.Hand

open Idealize.ShloMosaic Idealize.ShloMosaic.TcCoe
open Cert.KernelIdeal Cert.KernelIdeal.Gen

variable {F : FTy → Type} [FloatOps F]

variable (m : (ℓ : Loc nD τ sig) → Buf (Elt F) ℓ)

abbrev X0 (c : Dev nD) : Valuation τ sig (Elt F) := fun b => m (c, b)

abbrev X1 (c : Dev nD) : Valuation τ sig (Elt F) := StableHlo.after main_part0_ops0 (X0 m c)

abbrev X2 (c : Dev nD) : Valuation τ sig (Elt F) := StableHlo.after main_part0_ops1 (X1 m c)

abbrev X3 (c : Dev nD) : Valuation τ sig (Elt F) := StableHlo.after main_part0_ops2 (X2 m c)

abbrev X4 (c : Dev nD) : Valuation τ sig (Elt F) := StableHlo.after main_part0_ops3 (X3 m c)

abbrev X5 (c : Dev nD) : Valuation τ sig (Elt F) := StableHlo.after main_part0_ops4 (X4 m c)

abbrev X6 (c : Dev nD) : Valuation τ sig (Elt F) := StableHlo.after main_part1_ops0 (X5 m c)

abbrev X7 (o0 : (c : Dev nD) → Buf (Elt F) ((c : Thread nD τ).loc main_v95)) (c : Dev nD) : Valuation τ sig (Elt F) :=
  Function.update (X6 m c) (Proc.devRef .tc main_v95) (o0 c)

abbrev X8 (o0 : (c : Dev nD) → Buf (Elt F) ((c : Thread nD τ).loc main_v95)) (c : Dev nD) : Valuation τ sig (Elt F) :=
  StableHlo.after main_part1_ops1 (X7 m o0 c)

abbrev X9 (o0 : (c : Dev nD) → Buf (Elt F) ((c : Thread nD τ).loc main_v95))
    (o1 : (c : Dev nD) → Buf (Elt F) ((c : Thread nD τ).loc main_v99)) (c : Dev nD) : Valuation τ sig (Elt F) :=
  Function.update (X8 m o0 c) (Proc.devRef .tc main_v99) (o1 c)

abbrev X10 (o0 : (c : Dev nD) → Buf (Elt F) ((c : Thread nD τ).loc main_v95))
    (o1 : (c : Dev nD) → Buf (Elt F) ((c : Thread nD τ).loc main_v99)) (c : Dev nD) : Valuation τ sig (Elt F) :=
  StableHlo.after main_part1_ops2 (X9 m o0 o1 c)

abbrev X11 (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103)) (c : Dev nD) : Valuation τ sig (Elt F) :=
  Function.update (X10 m o0 o1 c) (Proc.devRef .tc main_v103) (o2 c)

abbrev X12 (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103)) (c : Dev nD) : Valuation τ sig (Elt F) :=
  StableHlo.after main_part1_ops3 (X11 m o0 o1 o2 c)

abbrev X13 (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103)) (c : Dev nD) : Valuation τ sig (Elt F) :=
  StableHlo.after main_part2_ops0 (X12 m o0 o1 o2 c)

abbrev X14 (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107)) (c : Dev nD) : Valuation τ sig (Elt F) :=
  Function.update (X13 m o0 o1 o2 c) (Proc.devRef .tc main_v107) (o3 c)

abbrev X15 (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107)) (c : Dev nD) : Valuation τ sig (Elt F) :=
  StableHlo.after main_part2_ops1 (X14 m o0 o1 o2 o3 c)

abbrev main_part0_ops0_W : List (Ref sig .tc) :=
  [ main_cst, main_v0 ]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part0_ops1_W : List (Ref sig .tc) :=
  [ main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v1 ]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part0_ops2_W : List (Ref sig .tc) :=
  [ main_v2, main_v3, main_v4 ]
theorem main_part0_ops2_writes : (main_part0_ops2 : List (HloOp τ sig (Elt F))).Forall fun op => op.writes ⊆ (main_part0_ops2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part0_ops3_W : List (Ref sig .tc) :=
  [ main_call1_v0, main_call1_cst, main_call1_v1, main_call1_v2, main_v5 ]
theorem main_part0_ops3_writes : (main_part0_ops3 : List (HloOp τ sig (Elt F))).Forall fun op => op.writes ⊆ (main_part0_ops3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part0_ops4_W : List (Ref sig .tc) :=
  [ main_cst_0, main_v6, main_v7, main_v8, main_v9, main_v10, main_v11, main_v12,
    main_v13, main_v14, main_v15, main_v16, main_v17, main_v18, main_v19, main_v20,
    main_cst_1, main_v21, main_v22, main_cst_2, main_v23, main_v24, main_v25, main_v26,
    main_v27, main_cst_3, main_v28, main_v29, main_v30, main_v31, main_v32, main_cst_4,
    main_v33, main_v34, main_v35, main_v36, main_v37, main_v38, main_v39, main_v40,
    main_v41, main_cst_5, main_v42, main_v43, main_v44, main_v45, main_v46, main_cst_6,
    main_v47, main_v48, main_cst_7, main_v49, main_v50 ]
theorem main_part0_ops4_writes : (main_part0_ops4 : List (HloOp τ sig (Elt F))).Forall fun op => op.writes ⊆ (main_part0_ops4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part1_ops0_W : List (Ref sig .tc) :=
  [ main_v51, main_v52, main_v53, main_cst_8, main_v54, main_v55, main_v56, main_v57,
    main_v58, main_v59, main_v60, main_v61, main_v62, main_cst_9, main_v63, main_v64,
    main_v65, main_v66, main_v67, main_cst_10, main_v68, main_v69, main_v70, main_v71,
    main_v72, main_cst_11, main_v73, main_v74, main_cst_12, main_v75, main_v76, main_v77,
    main_v78, main_v79, main_v80, main_v81, main_v82, main_v83, main_v84, main_v85,
    main_v86, main_v87, main_v88, main_v89, main_v90, main_v91, main_v92, main_v93,
    main_v94 ]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part1_ops1_W : List (Ref sig .tc) :=
  [ main_v96, main_v97, main_v98 ]
theorem main_part1_ops1_writes : (main_part1_ops1 : List (HloOp τ sig (Elt F))).Forall fun op => op.writes ⊆ (main_part1_ops1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part1_ops2_W : List (Ref sig .tc) :=
  [ main_v100, main_v101, main_v102 ]
theorem main_part1_ops2_writes : (main_part1_ops2 : List (HloOp τ sig (Elt F))).Forall fun op => op.writes ⊆ (main_part1_ops2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part1_ops3_W : List (Ref sig .tc) :=
  [ main_v104, main_v105 ]
theorem main_part1_ops3_writes : (main_part1_ops3 : List (HloOp τ sig (Elt F))).Forall fun op => op.writes ⊆ (main_part1_ops3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part2_ops0_W : List (Ref sig .tc) :=
  [ main_v106 ]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

abbrev main_part2_ops1_W : List (Ref sig .tc) :=
  [ main_v108, main_v109, main_v110, main_v111, main_v112, main_v113, main_v114, main_v115,
    main_v116, main_v117, main_v118, main_v119, main_v120, main_v121, main_v122, main_v123,
    main_v124, main_v125, main_cst_13, main_v126, main_cst_14, main_v127, main_v128, main_cst_15,
    main_v129, main_cst_16, main_v130 ]
theorem main_part2_ops1_writes : (main_part2_ops1 : List (HloOp τ sig (Elt F))).Forall fun op => op.writes ⊆ (main_part2_ops1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

theorem X1_of (c : Dev nD) (r : Ref sig .tc) (h : r ∉ (main_part0_ops0_W : List (Ref sig .tc))) :
    X1 m c (Proc.devRef .tc r) = X0 m c (Proc.devRef .tc r) :=
  StableHlo.after_of_writes_sub main_part0_ops0 _ main_part0_ops0_writes h

theorem X2_of (c : Dev nD) (r : Ref sig .tc) (h : r ∉ (main_part0_ops1_W : List (Ref sig .tc))) :
    X2 m c (Proc.devRef .tc r) = X1 m c (Proc.devRef .tc r) :=
  StableHlo.after_of_writes_sub main_part0_ops1 _ main_part0_ops1_writes h

theorem X3_of (c : Dev nD) (r : Ref sig .tc) (h : r ∉ (main_part0_ops2_W : List (Ref sig .tc))) :
    X3 m c (Proc.devRef .tc r) = X2 m c (Proc.devRef .tc r) :=
  StableHlo.after_of_writes_sub main_part0_ops2 _ main_part0_ops2_writes h

theorem X4_of (c : Dev nD) (r : Ref sig .tc) (h : r ∉ (main_part0_ops3_W : List (Ref sig .tc))) :
    X4 m c (Proc.devRef .tc r) = X3 m c (Proc.devRef .tc r) :=
  StableHlo.after_of_writes_sub main_part0_ops3 _ main_part0_ops3_writes h

theorem X5_of (c : Dev nD) (r : Ref sig .tc) (h : r ∉ (main_part0_ops4_W : List (Ref sig .tc))) :
    X5 m c (Proc.devRef .tc r) = X4 m c (Proc.devRef .tc r) :=
  StableHlo.after_of_writes_sub main_part0_ops4 _ main_part0_ops4_writes h

theorem X6_of (c : Dev nD) (r : Ref sig .tc) (h : r ∉ (main_part1_ops0_W : List (Ref sig .tc))) :
    X6 m c (Proc.devRef .tc r) = X5 m c (Proc.devRef .tc r) :=
  StableHlo.after_of_writes_sub main_part1_ops0 _ main_part1_ops0_writes h

theorem X7_of
    (o0 : (c : Dev nD) → Buf (Elt F) ((c : Thread nD τ).loc main_v95))
    (c : Dev nD) (r : Ref sig .tc) (h : r ≠ main_v95) :
    X7 m o0 c (Proc.devRef .tc r) = X6 m c (Proc.devRef .tc r) :=
  Function.update_of_ne (StableHlo.devRef_ne_of_ne h) _ _

theorem X7_out
    (o0 : (c : Dev nD) → Buf (Elt F) ((c : Thread nD τ).loc main_v95))
    (c : Dev nD) :
    X7 m o0 c (Proc.devRef .tc main_v95) = o0 c :=
  Function.update_self _ _ _

theorem X8_of
    (o0 : (c : Dev nD) → Buf (Elt F) ((c : Thread nD τ).loc main_v95))
    (c : Dev nD) (r : Ref sig .tc) (h : r ∉ (main_part1_ops1_W : List (Ref sig .tc))) :
    X8 m o0 c (Proc.devRef .tc r) = X7 m o0 c (Proc.devRef .tc r) :=
  StableHlo.after_of_writes_sub main_part1_ops1 _ main_part1_ops1_writes h

theorem X9_of
    (o0 : (c : Dev nD) → Buf (Elt F) ((c : Thread nD τ).loc main_v95))
    (o1 : (c : Dev nD) → Buf (Elt F) ((c : Thread nD τ).loc main_v99))
    (c : Dev nD) (r : Ref sig .tc) (h : r ≠ main_v99) :
    X9 m o0 o1 c (Proc.devRef .tc r) = X8 m o0 c (Proc.devRef .tc r) :=
  Function.update_of_ne (StableHlo.devRef_ne_of_ne h) _ _

theorem X9_out
    (o0 : (c : Dev nD) → Buf (Elt F) ((c : Thread nD τ).loc main_v95))
    (o1 : (c : Dev nD) → Buf (Elt F) ((c : Thread nD τ).loc main_v99))
    (c : Dev nD) :
    X9 m o0 o1 c (Proc.devRef .tc main_v99) = o1 c :=
  Function.update_self _ _ _

theorem X10_of
    (o0 : (c : Dev nD) → Buf (Elt F) ((c : Thread nD τ).loc main_v95))
    (o1 : (c : Dev nD) → Buf (Elt F) ((c : Thread nD τ).loc main_v99))
    (c : Dev nD) (r : Ref sig .tc) (h : r ∉ (main_part1_ops2_W : List (Ref sig .tc))) :
    X10 m o0 o1 c (Proc.devRef .tc r) = X9 m o0 o1 c (Proc.devRef .tc r) :=
  StableHlo.after_of_writes_sub main_part1_ops2 _ main_part1_ops2_writes h

theorem X11_of
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) (r : Ref sig .tc) (h : r ≠ main_v103) :
    X11 m o0 o1 o2 c (Proc.devRef .tc r) = X10 m o0 o1 c (Proc.devRef .tc r) :=
  Function.update_of_ne (StableHlo.devRef_ne_of_ne h) _ _

theorem X11_out
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) :
    X11 m o0 o1 o2 c (Proc.devRef .tc main_v103) = o2 c :=
  Function.update_self _ _ _

theorem X12_of
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) (r : Ref sig .tc) (h : r ∉ (main_part1_ops3_W : List (Ref sig .tc))) :
    X12 m o0 o1 o2 c (Proc.devRef .tc r) = X11 m o0 o1 o2 c (Proc.devRef .tc r) :=
  StableHlo.after_of_writes_sub main_part1_ops3 _ main_part1_ops3_writes h

theorem X13_of
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) (r : Ref sig .tc) (h : r ∉ (main_part2_ops0_W : List (Ref sig .tc))) :
    X13 m o0 o1 o2 c (Proc.devRef .tc r) = X12 m o0 o1 o2 c (Proc.devRef .tc r) :=
  StableHlo.after_of_writes_sub main_part2_ops0 _ main_part2_ops0_writes h

theorem X14_of
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) (r : Ref sig .tc) (h : r ≠ main_v107) :
    X14 m o0 o1 o2 o3 c (Proc.devRef .tc r) = X13 m o0 o1 o2 c (Proc.devRef .tc r) :=
  Function.update_of_ne (StableHlo.devRef_ne_of_ne h) _ _

theorem X14_out
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) :
    X14 m o0 o1 o2 o3 c (Proc.devRef .tc main_v107) = o3 c :=
  Function.update_self _ _ _

theorem X15_of
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) (r : Ref sig .tc) (h : r ∉ (main_part2_ops1_W : List (Ref sig .tc))) :
    X15 m o0 o1 o2 o3 c (Proc.devRef .tc r) = X14 m o0 o1 o2 o3 c (Proc.devRef .tc r) :=
  StableHlo.after_of_writes_sub main_part2_ops1 _ main_part2_ops1_writes h

theorem X15_unwritten
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) (r : Ref sig .tc)
    (h1 : r ∉ (main_part0_ops0_W : List (Ref sig .tc))) (h2 : r ∉ (main_part0_ops1_W : List (Ref sig .tc))) (h3 : r ∉ (main_part0_ops2_W : List (Ref sig .tc))) (h4 : r ∉ (main_part0_ops3_W : List (Ref sig .tc))) (h5 : r ∉ (main_part0_ops4_W : List (Ref sig .tc)))
    (h6 : r ∉ (main_part1_ops0_W : List (Ref sig .tc))) (h7 : r ≠ main_v95) (h8 : r ∉ (main_part1_ops1_W : List (Ref sig .tc))) (h9 : r ≠ main_v99) (h10 : r ∉ (main_part1_ops2_W : List (Ref sig .tc)))
    (h11 : r ≠ main_v103) (h12 : r ∉ (main_part1_ops3_W : List (Ref sig .tc))) (h13 : r ∉ (main_part2_ops0_W : List (Ref sig .tc))) (h14 : r ≠ main_v107) (h15 : r ∉ (main_part2_ops1_W : List (Ref sig .tc))) :
    X15 m o0 o1 o2 o3 c (Proc.devRef .tc r) = m ((c : Thread nD τ).loc r) :=
  (X15_of m o0 o1 o2 o3 c r h15).trans <| (X14_of m o0 o1 o2 o3 c r h14).trans <| (X13_of m o0 o1 o2 c r h13).trans <|
    (X12_of m o0 o1 o2 c r h12).trans <| (X11_of m o0 o1 o2 c r h11).trans <| (X10_of m o0 o1 c r h10).trans <|
    (X9_of m o0 o1 c r h9).trans <| (X8_of m o0 c r h8).trans <| (X7_of m o0 c r h7).trans <|
    (X6_of m c r h6).trans <| (X5_of m c r h5).trans <| (X4_of m c r h4).trans <|
    (X3_of m c r h3).trans <| (X2_of m c r h2).trans <| (X1_of m c r h1).trans <|
    rfl

theorem X15_main_arg0
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg0) = m ((c : Thread nD τ).loc main_arg0) :=
  X15_unwritten m o0 o1 o2 o3 c main_arg0 (by decide) (by decide) (by decide) (by decide) (by decide) (by decide) (by decide) (by decide) (by decide) (by decide) (by decide) (by decide) (by decide) (by decide) (by decide)

theorem X15_main_arg1
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg1) = m ((c : Thread nD τ).loc main_arg1) :=
  X15_unwritten m o0 o1 o2 o3 c main_arg1 (by decide) (by decide) (by decide) (by decide) (by decide) (by decide) (by decide) (by decide) (by decide) (by decide) (by decide) (by decide) (by decide) (by decide) (by decide)

theorem X15_main_arg2
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg2) = m ((c : Thread nD τ).loc main_arg2) :=
  X15_unwritten m o0 o1 o2 o3 c main_arg2 (by decide) (by decide) (by decide) (by decide) (by decide) (by decide) (by decide) (by decide) (by decide) (by decide) (by decide) (by decide) (by decide) (by decide) (by decide)

theorem X15_main_arg3
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg3) = m ((c : Thread nD τ).loc main_arg3) :=
  X15_unwritten m o0 o1 o2 o3 c main_arg3 (by decide) (by decide) (by decide) (by decide) (by decide) (by decide) (by decide) (by decide) (by decide) (by decide) (by decide) (by decide) (by decide) (by decide) (by decide)

theorem X15_main_arg4
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg4) = m ((c : Thread nD τ).loc main_arg4) :=
  X15_unwritten m o0 o1 o2 o3 c main_arg4 (by decide) (by decide) (by decide) (by decide) (by decide) (by decide) (by decide) (by decide) (by decide) (by decide) (by decide) (by decide) (by decide) (by decide) (by decide)

theorem X15_main_arg5
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg5) = m ((c : Thread nD τ).loc main_arg5) :=
  X15_unwritten m o0 o1 o2 o3 c main_arg5 (by decide) (by decide) (by decide) (by decide) (by decide) (by decide) (by decide) (by decide) (by decide) (by decide) (by decide) (by decide) (by decide) (by decide) (by decide)

theorem X15_main_arg6
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg6) = m ((c : Thread nD τ).loc main_arg6) :=
  X15_unwritten m o0 o1 o2 o3 c main_arg6 (by decide) (by decide) (by decide) (by decide) (by decide) (by decide) (by decide) (by decide) (by decide) (by decide) (by decide) (by decide) (by decide) (by decide) (by decide)

theorem X15_main_arg7
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg7) = m ((c : Thread nD τ).loc main_arg7) :=
  X15_unwritten m o0 o1 o2 o3 c main_arg7 (by decide) (by decide) (by decide) (by decide) (by decide) (by decide) (by decide) (by decide) (by decide) (by decide) (by decide) (by decide) (by decide) (by decide) (by decide)

theorem X15_main_arg8
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg8) = m ((c : Thread nD τ).loc main_arg8) :=
  X15_unwritten m o0 o1 o2 o3 c main_arg8 (by decide) (by decide) (by decide) (by decide) (by decide) (by decide) (by decide) (by decide) (by decide) (by decide) (by decide) (by decide) (by decide) (by decide) (by decide)

theorem X15_main_arg9
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_arg9) = m ((c : Thread nD τ).loc main_arg9) :=
  X15_unwritten m o0 o1 o2 o3 c main_arg9 (by decide) (by decide) (by decide) (by decide) (by decide) (by decide) (by decide) (by decide) (by decide) (by decide) (by decide) (by decide) (by decide) (by decide) (by decide)

end Cert.KernelIdeal.Hand

end
-- ==== Proof.KI.Out0.lean ====
import proofs.«423449_j63771674411371_3_alg».proof.Proof.Gen.KernelIdeal.Skeleton
import Idealize.ShloMosaic.Lib.Pipeline.FrameBody

noncomputable section

namespace Cert.KernelIdeal.Val

open Idealize.ShloMosaic Cert.KernelIdeal Cert.KernelIdeal.Gen

variable {F : FTy → Type} [FloatOps F]

abbrev rowX0 : Rect S1x2x2000 := Rect.unit (s := S1x2x2000) ![0, 0, 0] S1x1x2000.size inb_S1x2x2000_S1x1x2000_0_0_0

abbrev rowY0 : Rect S1x2x2000 := Rect.unit (s := S1x2x2000) ![0, 1, 0] S1x1x2000.size inb_S1x2x2000_S1x1x2000_0_1_0

abbrev chunk0 (k : Fin k0_t1_loop.trips) : Rect S1x2048x2 := Rect.unit (s := S1x2048x2) (k0_off1 k) S1x256x2.size (k0_off1_inb k)

-- Running minimum after k chunks of 256 landmarks, starting from +∞.
def acc0 (v0 v2 : Vec F S1x1x2000 .f32) (p : Vec F S1x2048x2 .f32) : ℕ → Vec F S1x2000 .f32
  | 0 => k0_pay3
  | k + 1 => if h : k < k0_t1_loop.trips then k0_pay4 v0 v2 (View.ld p (chunk0 ⟨k, h⟩)) (acc0 v0 v2 p k) else acc0 v0 v2 p k

-- One grid point's output: the vertex's squared norm plus the running minimum after all the chunks.
def out0 (x : Vec F S1x2x2000 .f32) (p : Vec F S1x2048x2 .f32) : Vec F S1x1x2000 .f32 :=
  k0_pay5 (View.ld x rowX0) (View.ld x rowY0) (acc0 (View.ld x rowX0) (View.ld x rowY0) p k0_t1_loop.trips)

end Cert.KernelIdeal.Val

end
-- ==== Proof.KI.Dat0.lean ====
import proofs.«423449_j63771674411371_3_alg».proof.Proof.Gen.KernelIdeal.Launch
import proofs.«423449_j63771674411371_3_alg».proof.Proof.Gen.KernelIdeal.Skeleton
import proofs.«423449_j63771674411371_3_alg».proof.Proof.Gen.KernelIdeal.Points
import proofs.«423449_j63771674411371_3_alg».proof.Proof.KI.Out0
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => Val.out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = Val.out0 (iblk0 V c 0 t) (iblk0 V c 1 t) := by dsimp only [dat0]

end Cert.KernelIdeal.Hand

end
-- ==== Proof.KI.Body0.lean ====
import proofs.«423449_j63771674411371_3_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev acc0_rect : Rect S1x2000 := Rect.unit (s := S1x2000) ![0, 0] S1x2000.size inb_S1x2000_S1x2000_0_0
abbrev out0_rect : Rect S1x1x2000 := Rect.unit (s := S1x1x2000) ![0, 0, 0] S1x1x2000.size inb_S1x1x2000_S1x1x2000_0_0_0

theorem acc0_rect_zero : (![0, 0] : Fin S1x2000.rank → ℕ) = fun _ => 0 := by funext a; fin_cases a <;> rfl
theorem out0_rect_zero : (![0, 0, 0] : Fin S1x1x2000.rank → ℕ) = fun _ => 0 := by funext a; fin_cases a <;> rfl

theorem acc0_rect_stored {sp : Space} (v : View sig .tc sp S1x2000 .f32) (f : v.ty.Contents (Elt F)) (w : S1x2000.Idx → Elt F .f32) :
    v.read (Elt F) (v.writes (Elt F) f [(⟨acc0_rect, w⟩ : View.Piece (Elt F) S1x2000 .f32)]) = w := by
  have hcov : ∀ y : S1x2000.Idx, ∃ pc ∈ ([⟨acc0_rect, w⟩] : List (View.Piece (Elt F) S1x2000 .f32)), y ∈ pc.1.set :=
    fun y => ⟨⟨acc0_rect, w⟩, List.mem_singleton_self _,
      (show y ∈ acc0_rect.set from View.mem_set_unit_zero acc0_rect_zero inb_S1x2000_S1x2000_0_0 y)⟩
  exact (View.read_writes_eq_canon v f [⟨acc0_rect, w⟩] hcov).trans
    (View.canon_unit_zero acc0_rect_zero inb_S1x2000_S1x2000_0_0 w)

theorem out0_rect_stored {sp : Space} (v : View sig .tc sp S1x1x2000 .f32) (f : v.ty.Contents (Elt F)) (w : S1x1x2000.Idx → Elt F .f32) :
    v.read (Elt F) (v.writes (Elt F) f [(⟨out0_rect, w⟩ : View.Piece (Elt F) S1x1x2000 .f32)]) = w := by
  have hcov : ∀ y : S1x1x2000.Idx, ∃ pc ∈ ([⟨out0_rect, w⟩] : List (View.Piece (Elt F) S1x1x2000 .f32)), y ∈ pc.1.set :=
    fun y => ⟨⟨out0_rect, w⟩, List.mem_singleton_self _,
      (show y ∈ out0_rect.set from View.mem_set_unit_zero out0_rect_zero inb_S1x1x2000_S1x1x2000_0_0_0 y)⟩
  exact (View.read_writes_eq_canon v f [⟨out0_rect, w⟩] hcov).trans
    (View.canon_unit_zero out0_rect_zero inb_S1x1x2000_S1x1x2000_0_0_0 w)

section Trips

variable (c : Dev nD) (E : Set ℕ) (i : grid0.Coords)
  (arg1 : Memref sig .tc .vmem S1x2x2000 .f32) (harg1 : arg1.IsWhole)
  (arg2 : Memref sig .tc .vmem S1x2048x2 .f32) (harg2 : arg2.IsWhole)
  (arg3 : Memref sig .tc .vmem S1x1x2000 .f32) (harg3 : arg3.IsWhole)
  (arg4 : Memref sig .tc .vmem S1x2000 .f32) (harg4 : arg4.IsWhole)
  (v0 v2 : Vec F S1x1x2000 .f32)
  (g2 : Buf (Elt F) (arg2.view.loc (c : Thread nD τ)))

abbrev invH0 (f : Buf (Elt F) (arg4.view.loc (c : Thread nD τ))) : sProp 𝕄 :=
  iprop((arg2.view.loc (c : Thread nD τ) ↦[arg2.view.set]{fullShare} g2)
    ∗ (arg4.view.loc (c : Thread nD τ) ↦[arg4.view.set]{fullShare} f))

def tripH0_next (k : Fin k0_t1_loop.trips) (f : Buf (Elt F) (arg4.view.loc (c : Thread nD τ))) :
    Buf (Elt F) (arg4.view.loc (c : Thread nD τ)) :=
  arg4.view.writes (Elt F) f
    [⟨acc0_rect, k0_pay4 v0 v2 (View.readAt (Elt F) arg2.view (Val.chunk0 k).toLoadRect g2)
        (View.readAt (Elt F) arg4.view acc0_rect.toLoadRect f)⟩]

set_option maxHeartbeats 1000000 in

theorem tripH0 (k : Fin k0_t1_loop.trips) (f : Buf (Elt F) (arg4.view.loc (c : Thread nD τ))) :
    invH0 c arg2 arg4 g2 f
      ⊢ wp frame (wpE (defs₀ (F := F)) Variants.none (c : Thread nD τ) none) E
          (k0_t1_body (F := F) i arg1 harg1 arg2 harg2 arg3 harg3 arg4 harg4 v0 v2 k PUnit.unit)
          (fun _ => invH0 c arg2 arg4 g2 (tripH0_next c arg2 arg4 v0 v2 g2 k f)) := by
  unfold k0_t1_body tripH0_next
  iintro ⟨H2, H4⟩
  sl_exec
  sl_step
  sl_close

def invH0_at (f₀ : Buf (Elt F) (arg4.view.loc (c : Thread nD τ))) : ℕ → Buf (Elt F) (arg4.view.loc (c : Thread nD τ))
  | 0 => f₀
  | n + 1 => if h : n < k0_t1_loop.trips then tripH0_next c arg2 arg4 v0 v2 g2 ⟨n, h⟩ (invH0_at f₀ n) else invH0_at f₀ n

theorem invH0_at_succ (f₀ : Buf (Elt F) (arg4.view.loc (c : Thread nD τ))) (k : Fin k0_t1_loop.trips) :
    invH0_at c arg2 arg4 v0 v2 g2 f₀ (k.val + 1)
      = tripH0_next c arg2 arg4 v0 v2 g2 k (invH0_at c arg2 arg4 v0 v2 g2 f₀ k.val) := by
  rw [invH0_at.eq_2]; exact dif_pos k.isLt

set_option warn.classDefReducibility false in

@[sl_loop] def loopInvH0 (f₀ : Buf (Elt F) (arg4.view.loc (c : Thread nD τ))) :
    Idealize.ShloMosaic.LoopInv (M := 𝕄) Idealize.ShloMosaic.frame (wpE (defs₀ (F := F)) Variants.none (c : Thread nD τ) none) E
      k0_t1_loop.lb k0_t1_loop.ub k0_t1_loop.st k0_t1_ok ()
      (k0_t1_body (F := F) i arg1 harg1 arg2 harg2 arg3 harg3 arg4 harg4 v0 v2) where
  inv k _ := invH0 c arg2 arg4 g2 (invH0_at c arg2 arg4 v0 v2 g2 f₀ k)
  step k acc := by
    rw [invH0_at_succ]
    exact tripH0 c E i arg1 harg1 arg2 harg2 arg3 harg3 arg4 harg4 v0 v2 g2 k _

-- By induction on the trips: a trip stores the minimum of the row it read back and the chunk's column minima.
theorem invH0_at_read (f₀ : Buf (Elt F) (arg4.view.loc (c : Thread nD τ)))
    (h0 : arg4.view.read (Elt F) f₀ = k0_pay3) :
    ∀ n, n ≤ k0_t1_loop.trips →
      arg4.view.read (Elt F) (invH0_at c arg2 arg4 v0 v2 g2 f₀ n) = Val.acc0 v0 v2 (arg2.view.read (Elt F) g2) n
  | 0, _ => by rw [invH0_at, Val.acc0]; exact h0
  | n + 1, hn => by
    have hlt : n < k0_t1_loop.trips := hn
    have ih := invH0_at_read f₀ h0 n (Nat.le_of_lt hlt)
    have e : View.readAt (Elt F) arg4.view acc0_rect.toLoadRect (invH0_at c arg2 arg4 v0 v2 g2 f₀ n)
        = arg4.view.read (Elt F) (invH0_at c arg2 arg4 v0 v2 g2 f₀ n) :=
      (View.readAt_eq_ld _ _ _).trans (View.ld_unit_zero acc0_rect_zero _ _)
    rw [invH0_at_succ c arg2 arg4 v0 v2 g2 f₀ ⟨n, hlt⟩, tripH0_next, acc0_rect_stored, e, ih, Val.acc0, dif_pos hlt]
    rfl

end Trips

theorem sound_kernel0_value (c : Dev nD)
    (arg1 : Memref sig .tc .vmem S1x2x2000 .f32) (arg2 : Memref sig .tc .vmem S1x2048x2 .f32)
    (arg4 : Memref sig .tc .vmem S1x2000 .f32)
    (f1 : Buf (Elt F) (arg1.view.loc (c : Thread nD τ))) (f2 : Buf (Elt F) (arg2.view.loc (c : Thread nD τ)))
    (f₀ : Buf (Elt F) (arg4.view.loc (c : Thread nD τ))) (n : ℕ) (h0 : arg4.view.read (Elt F) f₀ = k0_pay3)
    (hn : n ≤ k0_t1_loop.trips) :
    k0_pay5 (View.readAt (Elt F) arg1.view Val.rowX0.toLoadRect f1) (View.readAt (Elt F) arg1.view Val.rowY0.toLoadRect f1)
        (View.readAt (Elt F) arg4.view acc0_rect.toLoadRect
          (invH0_at c arg2 arg4 (View.readAt (Elt F) arg1.view Val.rowX0.toLoadRect f1)
            (View.readAt (Elt F) arg1.view Val.rowY0.toLoadRect f1) f2 f₀ n))
      = k0_pay5 (View.ld (arg1.view.read (Elt F) f1) Val.rowX0) (View.ld (arg1.view.read (Elt F) f1) Val.rowY0)
          (Val.acc0 (View.ld (arg1.view.read (Elt F) f1) Val.rowX0) (View.ld (arg1.view.read (Elt F) f1) Val.rowY0)
            (arg2.view.read (Elt F) f2) n) := by
  rw [View.readAt_eq_ld _ _ acc0_rect, View.ld_unit_zero acc0_rect_zero,
    invH0_at_read c arg2 arg4 _ _ f2 f₀ h0 n hn]
  rfl

set_option maxHeartbeats 400000 in

theorem sound_kernel0 (c : Dev nD) (E : Set ℕ) (i : grid0.Coords)
    (arg1 : Memref sig .tc .vmem S1x2x2000 .f32) (harg1 : arg1.IsWhole)
    (arg2 : Memref sig .tc .vmem S1x2048x2 .f32) (harg2 : arg2.IsWhole)
    (arg3 : Memref sig .tc .vmem S1x1x2000 .f32) (harg3 : arg3.IsWhole)
    (arg4 : Memref sig .tc .vmem S1x2000 .f32) (harg4 : arg4.IsWhole)
    (x : Vec F S1x2x2000 .f32) (p : Vec F S1x2048x2 .f32) (K : PUnit → sProp 𝕄) :
    iprop(owns (c : Thread nD τ) arg1 fullShare x ∗ owns (c : Thread nD τ) arg2 fullShare p
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare p
            ∗ owns (c : Thread nD τ) arg3 fullShare (Val.out0 x p) ∗ (∃ d, owns (c : Thread nD τ) arg4 fullShare d)) -∗ K ⟨⟩))
      ⊢ wp frame (wpE (defs₀ (F := F)) Variants.none c none) E (cc0__chamfer_min_kernel i arg1 harg1 arg2 harg2 arg3 harg3 arg4 harg4) K := by
  simp only [cc0__chamfer_min_kernel_eq_skeleton]; unfold cc0__chamfer_min_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (out0_rect_stored arg3.view f3 _).trans ?_
    sl_unfold_run_names
    refine sound_kernel0_value c arg1 arg2 arg4 f1 f2 _ _ ?_ ?_
    · exact acc0_rect_stored arg4.view (arg4.view.writes (Elt F) arg4.view.junk []) k0_pay3
    · exact Nat.le_refl _
  iexists _, _; isplitr
  swap; · iexact H4
  ipureintro; rfl

section Body

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem scopedRest0_lend (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
          ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [owns_whole]
  rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Pipeline.ΦA spec0 c from rfl,
    show (dat0 V c).Φ t.castSucc = Pipeline.ΦA spec0 c from rfl,
    show (dat0 V c).owesAt () t.succ = (dat0 V c).owesAt () t.castSucc from rfl,
    after0_0, after0_1, after0_2]
  unfold Pipeline.ΦA
  rw [scopedRest0_lend]
  iintro ⟨⟨⟨⟨%g4, H4⟩, Hrest⟩, Hr⟩, Ho, ⟨%d0, H0⟩, ⟨%d1, H1⟩, ⟨%d2, H2⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H4]
  · iexists g4; iexact H4
  iintro ⟨H0, H1, H2, ⟨%d4, H4⟩⟩
  isplitl [H4 Hrest Hr]
  · isplitr [Hr]
    · isplitl [H4]
      · iexists d4; iexact H4
      · iexact Hrest
    · iexact Hr
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Body

end Cert.KernelIdeal.Hand

end
-- ==== Proof.KI.Dat1.lean ====
import proofs.«423449_j63771674411371_3_alg».proof.Proof.Gen.KernelIdeal.Launch
import proofs.«423449_j63771674411371_3_alg».proof.Proof.Gen.KernelIdeal.Skeleton
import proofs.«423449_j63771674411371_3_alg».proof.Proof.Gen.KernelIdeal.Points
import proofs.«423449_j63771674411371_3_alg».proof.Proof.KI.Out0
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => Val.out0 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = Val.out0 (iblk1 V c 0 t) (iblk1 V c 1 t) := by dsimp only [dat1]

end Cert.KernelIdeal.Hand

end
-- ==== Proof.KI.Body1.lean ====
import proofs.«423449_j63771674411371_3_alg».proof.Proof.KI.Dat1
import proofs.«423449_j63771674411371_3_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two regions with this vertex count run the same function text.
theorem cc1_eq : cc1__chamfer_min_kernel (F := F) = cc0__chamfer_min_kernel (F := F) := rfl

section Body

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem scopedRest1_lend (c : Dev nD) :
    (Pipeline.scopedRest (Ix := Unit) (Name := ℕ) (U := UR sig nD τ) (Lvl := ℕ) (Val := Elt F) spec1 c : sProp 𝕄)
      = iprop((∃ d, owns (c : Thread nD τ) (Memref.whole cc1_scratch0) fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [owns_whole]
  rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq]
  simp only [before1_0, before1_1]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2]
  unfold Pipeline.ΦA
  rw [scopedRest1_lend]
  iintro ⟨⟨⟨⟨%g4, H4⟩, Hrest⟩, Hr⟩, Ho, ⟨%d0, H0⟩, ⟨%d1, H1⟩, ⟨%d2, H2⟩⟩
  iapply (sound_kernel0 c Set.univ _ _ _ _ _ _ _ _ _ (iblk1 V c 0 t) (iblk1 V c 1 t) _)
  isplitl [H0]; · iexact H0
  isplitl [H1]; · iexact H1
  isplitl [H2]; · iexists _; iexact H2
  isplitl [H4]
  · iexists g4; iexact H4
  iintro ⟨H0, H1, H2, ⟨%d4, H4⟩⟩
  isplitl [H4 Hrest Hr]
  · isplitr [Hr]
    · isplitl [H4]
      · iexists d4; iexact H4
      · iexact Hrest
    · iexact Hr
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Body

end Cert.KernelIdeal.Hand

end
-- ==== Proof.KI.Out2.lean ====
import proofs.«423449_j63771674411371_3_alg».proof.Proof.Gen.KernelIdeal.Skeleton
import Idealize.ShloMosaic.Lib.Pipeline.FrameBody

noncomputable section

namespace Cert.KernelIdeal.Val

open Idealize.ShloMosaic Cert.KernelIdeal Cert.KernelIdeal.Gen

variable {F : FTy → Type} [FloatOps F]

abbrev rowX2 : Rect S1x2x1000 := Rect.unit (s := S1x2x1000) ![0, 0, 0] S1x1x1000.size inb_S1x2x1000_S1x1x1000_0_0_0

abbrev rowY2 : Rect S1x2x1000 := Rect.unit (s := S1x2x1000) ![0, 1, 0] S1x1x1000.size inb_S1x2x1000_S1x1x1000_0_1_0

abbrev chunk2 (k : Fin k2_t1_loop.trips) : Rect S1x2048x2 := Rect.unit (s := S1x2048x2) (k2_off1 k) S1x256x2.size (k2_off1_inb k)

-- Running minimum after k chunks of 256 landmarks, starting from +∞.
def acc2 (v0 v2 : Vec F S1x1x1000 .f32) (p : Vec F S1x2048x2 .f32) : ℕ → Vec F S1x1000 .f32
  | 0 => k2_pay3
  | k + 1 => if h : k < k2_t1_loop.trips then k2_pay4 v0 v2 (View.ld p (chunk2 ⟨k, h⟩)) (acc2 v0 v2 p k) else acc2 v0 v2 p k

-- One grid point's output: the vertex's squared norm plus the running minimum after all the chunks.
def out2 (x : Vec F S1x2x1000 .f32) (p : Vec F S1x2048x2 .f32) : Vec F S1x1x1000 .f32 :=
  k2_pay5 (View.ld x rowX2) (View.ld x rowY2) (acc2 (View.ld x rowX2) (View.ld x rowY2) p k2_t1_loop.trips)

end Cert.KernelIdeal.Val

end
-- ==== Proof.KI.Dat2.lean ====
import proofs.«423449_j63771674411371_3_alg».proof.Proof.Gen.KernelIdeal.Launch
import proofs.«423449_j63771674411371_3_alg».proof.Proof.Gen.KernelIdeal.Skeleton
import proofs.«423449_j63771674411371_3_alg».proof.Proof.Gen.KernelIdeal.Points
import proofs.«423449_j63771674411371_3_alg».proof.Proof.KI.Out2
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => Val.out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = Val.out2 (iblk2 V c 0 t) (iblk2 V c 1 t) := by dsimp only [dat2]

end Cert.KernelIdeal.Hand

end
-- ==== Proof.KI.Body2.lean ====
import proofs.«423449_j63771674411371_3_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev acc2_rect : Rect S1x1000 := Rect.unit (s := S1x1000) ![0, 0] S1x1000.size inb_S1x1000_S1x1000_0_0
abbrev out2_rect : Rect S1x1x1000 := Rect.unit (s := S1x1x1000) ![0, 0, 0] S1x1x1000.size inb_S1x1x1000_S1x1x1000_0_0_0

theorem acc2_rect_zero : (![0, 0] : Fin S1x1000.rank → ℕ) = fun _ => 0 := by funext a; fin_cases a <;> rfl
theorem out2_rect_zero : (![0, 0, 0] : Fin S1x1x1000.rank → ℕ) = fun _ => 0 := by funext a; fin_cases a <;> rfl

theorem acc2_rect_stored {sp : Space} (v : View sig .tc sp S1x1000 .f32) (f : v.ty.Contents (Elt F)) (w : S1x1000.Idx → Elt F .f32) :
    v.read (Elt F) (v.writes (Elt F) f [(⟨acc2_rect, w⟩ : View.Piece (Elt F) S1x1000 .f32)]) = w := by
  have hcov : ∀ y : S1x1000.Idx, ∃ pc ∈ ([⟨acc2_rect, w⟩] : List (View.Piece (Elt F) S1x1000 .f32)), y ∈ pc.1.set :=
    fun y => ⟨⟨acc2_rect, w⟩, List.mem_singleton_self _,
      (show y ∈ acc2_rect.set from View.mem_set_unit_zero acc2_rect_zero inb_S1x1000_S1x1000_0_0 y)⟩
  exact (View.read_writes_eq_canon v f [⟨acc2_rect, w⟩] hcov).trans
    (View.canon_unit_zero acc2_rect_zero inb_S1x1000_S1x1000_0_0 w)

theorem out2_rect_stored {sp : Space} (v : View sig .tc sp S1x1x1000 .f32) (f : v.ty.Contents (Elt F)) (w : S1x1x1000.Idx → Elt F .f32) :
    v.read (Elt F) (v.writes (Elt F) f [(⟨out2_rect, w⟩ : View.Piece (Elt F) S1x1x1000 .f32)]) = w := by
  have hcov : ∀ y : S1x1x1000.Idx, ∃ pc ∈ ([⟨out2_rect, w⟩] : List (View.Piece (Elt F) S1x1x1000 .f32)), y ∈ pc.1.set :=
    fun y => ⟨⟨out2_rect, w⟩, List.mem_singleton_self _,
      (show y ∈ out2_rect.set from View.mem_set_unit_zero out2_rect_zero inb_S1x1x1000_S1x1x1000_0_0_0 y)⟩
  exact (View.read_writes_eq_canon v f [⟨out2_rect, w⟩] hcov).trans
    (View.canon_unit_zero out2_rect_zero inb_S1x1x1000_S1x1x1000_0_0_0 w)

section Trips

variable (c : Dev nD) (E : Set ℕ) (i : grid2.Coords)
  (arg1 : Memref sig .tc .vmem S1x2x1000 .f32) (harg1 : arg1.IsWhole)
  (arg2 : Memref sig .tc .vmem S1x2048x2 .f32) (harg2 : arg2.IsWhole)
  (arg3 : Memref sig .tc .vmem S1x1x1000 .f32) (harg3 : arg3.IsWhole)
  (arg4 : Memref sig .tc .vmem S1x1000 .f32) (harg4 : arg4.IsWhole)
  (v0 v2 : Vec F S1x1x1000 .f32)
  (g2 : Buf (Elt F) (arg2.view.loc (c : Thread nD τ)))

abbrev invH2 (f : Buf (Elt F) (arg4.view.loc (c : Thread nD τ))) : sProp 𝕄 :=
  iprop((arg2.view.loc (c : Thread nD τ) ↦[arg2.view.set]{fullShare} g2)
    ∗ (arg4.view.loc (c : Thread nD τ) ↦[arg4.view.set]{fullShare} f))

def tripH2_next (k : Fin k2_t1_loop.trips) (f : Buf (Elt F) (arg4.view.loc (c : Thread nD τ))) :
    Buf (Elt F) (arg4.view.loc (c : Thread nD τ)) :=
  arg4.view.writes (Elt F) f
    [⟨acc2_rect, k2_pay4 v0 v2 (View.readAt (Elt F) arg2.view (Val.chunk2 k).toLoadRect g2)
        (View.readAt (Elt F) arg4.view acc2_rect.toLoadRect f)⟩]

set_option maxHeartbeats 1000000 in

theorem tripH2 (k : Fin k2_t1_loop.trips) (f : Buf (Elt F) (arg4.view.loc (c : Thread nD τ))) :
    invH2 c arg2 arg4 g2 f
      ⊢ wp frame (wpE (defs₀ (F := F)) Variants.none (c : Thread nD τ) none) E
          (k2_t1_body (F := F) i arg1 harg1 arg2 harg2 arg3 harg3 arg4 harg4 v0 v2 k PUnit.unit)
          (fun _ => invH2 c arg2 arg4 g2 (tripH2_next c arg2 arg4 v0 v2 g2 k f)) := by
  unfold k2_t1_body tripH2_next
  iintro ⟨H2, H4⟩
  sl_exec
  sl_step
  sl_close

def invH2_at (f₀ : Buf (Elt F) (arg4.view.loc (c : Thread nD τ))) : ℕ → Buf (Elt F) (arg4.view.loc (c : Thread nD τ))
  | 0 => f₀
  | n + 1 => if h : n < k2_t1_loop.trips then tripH2_next c arg2 arg4 v0 v2 g2 ⟨n, h⟩ (invH2_at f₀ n) else invH2_at f₀ n

theorem invH2_at_succ (f₀ : Buf (Elt F) (arg4.view.loc (c : Thread nD τ))) (k : Fin k2_t1_loop.trips) :
    invH2_at c arg2 arg4 v0 v2 g2 f₀ (k.val + 1)
      = tripH2_next c arg2 arg4 v0 v2 g2 k (invH2_at c arg2 arg4 v0 v2 g2 f₀ k.val) := by
  rw [invH2_at.eq_2]; exact dif_pos k.isLt

set_option warn.classDefReducibility false in

@[sl_loop] def loopInvH2 (f₀ : Buf (Elt F) (arg4.view.loc (c : Thread nD τ))) :
    Idealize.ShloMosaic.LoopInv (M := 𝕄) Idealize.ShloMosaic.frame (wpE (defs₀ (F := F)) Variants.none (c : Thread nD τ) none) E
      k2_t1_loop.lb k2_t1_loop.ub k2_t1_loop.st k2_t1_ok ()
      (k2_t1_body (F := F) i arg1 harg1 arg2 harg2 arg3 harg3 arg4 harg4 v0 v2) where
  inv k _ := invH2 c arg2 arg4 g2 (invH2_at c arg2 arg4 v0 v2 g2 f₀ k)
  step k acc := by
    rw [invH2_at_succ]
    exact tripH2 c E i arg1 harg1 arg2 harg2 arg3 harg3 arg4 harg4 v0 v2 g2 k _

-- By induction on the trips: a trip stores the minimum of the row it read back and the chunk's column minima.
theorem invH2_at_read (f₀ : Buf (Elt F) (arg4.view.loc (c : Thread nD τ)))
    (h0 : arg4.view.read (Elt F) f₀ = k2_pay3) :
    ∀ n, n ≤ k2_t1_loop.trips →
      arg4.view.read (Elt F) (invH2_at c arg2 arg4 v0 v2 g2 f₀ n) = Val.acc2 v0 v2 (arg2.view.read (Elt F) g2) n
  | 0, _ => by rw [invH2_at, Val.acc2]; exact h0
  | n + 1, hn => by
    have hlt : n < k2_t1_loop.trips := hn
    have ih := invH2_at_read f₀ h0 n (Nat.le_of_lt hlt)
    have e : View.readAt (Elt F) arg4.view acc2_rect.toLoadRect (invH2_at c arg2 arg4 v0 v2 g2 f₀ n)
        = arg4.view.read (Elt F) (invH2_at c arg2 arg4 v0 v2 g2 f₀ n) :=
      (View.readAt_eq_ld _ _ _).trans (View.ld_unit_zero acc2_rect_zero _ _)
    rw [invH2_at_succ c arg2 arg4 v0 v2 g2 f₀ ⟨n, hlt⟩, tripH2_next, acc2_rect_stored, e, ih, Val.acc2, dif_pos hlt]
    rfl

end Trips

theorem sound_kernel2_value (c : Dev nD)
    (arg1 : Memref sig .tc .vmem S1x2x1000 .f32) (arg2 : Memref sig .tc .vmem S1x2048x2 .f32)
    (arg4 : Memref sig .tc .vmem S1x1000 .f32)
    (f1 : Buf (Elt F) (arg1.view.loc (c : Thread nD τ))) (f2 : Buf (Elt F) (arg2.view.loc (c : Thread nD τ)))
    (f₀ : Buf (Elt F) (arg4.view.loc (c : Thread nD τ))) (n : ℕ) (h0 : arg4.view.read (Elt F) f₀ = k2_pay3)
    (hn : n ≤ k2_t1_loop.trips) :
    k2_pay5 (View.readAt (Elt F) arg1.view Val.rowX2.toLoadRect f1) (View.readAt (Elt F) arg1.view Val.rowY2.toLoadRect f1)
        (View.readAt (Elt F) arg4.view acc2_rect.toLoadRect
          (invH2_at c arg2 arg4 (View.readAt (Elt F) arg1.view Val.rowX2.toLoadRect f1)
            (View.readAt (Elt F) arg1.view Val.rowY2.toLoadRect f1) f2 f₀ n))
      = k2_pay5 (View.ld (arg1.view.read (Elt F) f1) Val.rowX2) (View.ld (arg1.view.read (Elt F) f1) Val.rowY2)
          (Val.acc2 (View.ld (arg1.view.read (Elt F) f1) Val.rowX2) (View.ld (arg1.view.read (Elt F) f1) Val.rowY2)
            (arg2.view.read (Elt F) f2) n) := by
  rw [View.readAt_eq_ld _ _ acc2_rect, View.ld_unit_zero acc2_rect_zero,
    invH2_at_read c arg2 arg4 _ _ f2 f₀ h0 n hn]
  rfl

set_option maxHeartbeats 400000 in

theorem sound_kernel2 (c : Dev nD) (E : Set ℕ) (i : grid2.Coords)
    (arg1 : Memref sig .tc .vmem S1x2x1000 .f32) (harg1 : arg1.IsWhole)
    (arg2 : Memref sig .tc .vmem S1x2048x2 .f32) (harg2 : arg2.IsWhole)
    (arg3 : Memref sig .tc .vmem S1x1x1000 .f32) (harg3 : arg3.IsWhole)
    (arg4 : Memref sig .tc .vmem S1x1000 .f32) (harg4 : arg4.IsWhole)
    (x : Vec F S1x2x1000 .f32) (p : Vec F S1x2048x2 .f32) (K : PUnit → sProp 𝕄) :
    iprop(owns (c : Thread nD τ) arg1 fullShare x ∗ owns (c : Thread nD τ) arg2 fullShare p
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare p
            ∗ owns (c : Thread nD τ) arg3 fullShare (Val.out2 x p) ∗ (∃ d, owns (c : Thread nD τ) arg4 fullShare d)) -∗ K ⟨⟩))
      ⊢ wp frame (wpE (defs₀ (F := F)) Variants.none c none) E (cc2__chamfer_min_kernel i arg1 harg1 arg2 harg2 arg3 harg3 arg4 harg4) K := by
  simp only [cc2__chamfer_min_kernel_eq_skeleton]; unfold cc2__chamfer_min_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (out2_rect_stored arg3.view f3 _).trans ?_
    sl_unfold_run_names
    refine sound_kernel2_value c arg1 arg2 arg4 f1 f2 _ _ ?_ ?_
    · exact acc2_rect_stored arg4.view (arg4.view.writes (Elt F) arg4.view.junk []) k2_pay3
    · exact Nat.le_refl _
  iexists _, _; isplitr
  swap; · iexact H4
  ipureintro; rfl

section Body

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem scopedRest2_lend (c : Dev nD) :
    (Pipeline.scopedRest (Ix := Unit) (Name := ℕ) (U := UR sig nD τ) (Lvl := ℕ) (Val := Elt F) spec2 c : sProp 𝕄)
      = iprop((∃ d, owns (c : Thread nD τ) (Memref.whole cc2_scratch0) fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [owns_whole]
  rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = Pipeline.ΦA spec2 c from rfl,
    show (dat2 V c).Φ t.castSucc = Pipeline.ΦA spec2 c from rfl,
    show (dat2 V c).owesAt () t.succ = (dat2 V c).owesAt () t.castSucc from rfl,
    after2_0, after2_1, after2_2]
  unfold Pipeline.ΦA
  rw [scopedRest2_lend]
  iintro ⟨⟨⟨⟨%g4, H4⟩, Hrest⟩, Hr⟩, Ho, ⟨%d0, H0⟩, ⟨%d1, H1⟩, ⟨%d2, H2⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H4]
  · iexists g4; iexact H4
  iintro ⟨H0, H1, H2, ⟨%d4, H4⟩⟩
  isplitl [H4 Hrest Hr]
  · isplitr [Hr]
    · isplitl [H4]
      · iexists d4; iexact H4
      · iexact Hrest
    · iexact Hr
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Body

end Cert.KernelIdeal.Hand

end
-- ==== Proof.KI.Dat3.lean ====
import proofs.«423449_j63771674411371_3_alg».proof.Proof.Gen.KernelIdeal.Launch
import proofs.«423449_j63771674411371_3_alg».proof.Proof.Gen.KernelIdeal.Skeleton
import proofs.«423449_j63771674411371_3_alg».proof.Proof.Gen.KernelIdeal.Points
import proofs.«423449_j63771674411371_3_alg».proof.Proof.KI.Out2
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => Val.out2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = Val.out2 (iblk3 V c 0 t) (iblk3 V c 1 t) := by dsimp only [dat3]

end Cert.KernelIdeal.Hand

end
-- ==== Proof.KI.Body3.lean ====
import proofs.«423449_j63771674411371_3_alg».proof.Proof.KI.Dat3
import proofs.«423449_j63771674411371_3_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two regions with this vertex count run the same function text.
theorem cc3_eq : cc3__chamfer_min_kernel (F := F) = cc2__chamfer_min_kernel (F := F) := rfl

section Body

variable (V : (c : Dev nD) → (b : Ref sig .tc) → Buf (Elt F) ((c : Thread nD τ).loc b))

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem scopedRest3_lend (c : Dev nD) :
    (Pipeline.scopedRest (Ix := Unit) (Name := ℕ) (U := UR sig nD τ) (Lvl := ℕ) (Val := Elt F) spec3 c : sProp 𝕄)
      = iprop((∃ d, owns (c : Thread nD τ) (Memref.whole cc3_scratch0) fullShare d)
          ∗ Pipeline.scopedRestBut (Ix := Unit) (Name := ℕ) (U := UR sig nD τ) (Lvl := ℕ) (Val := Elt F) spec3 c [cc3_scratch0]) := by
  rw [Pipeline.scopedRest_split_of_list spec3 c [cc3_scratch0] (by decide) (by decide)]
  simp only [owns_whole]
  rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1]
  rw [show (dat3 V c).Φ t.succ = Pipeline.ΦA spec3 c from rfl,
    show (dat3 V c).Φ t.castSucc = Pipeline.ΦA spec3 c from rfl,
    show (dat3 V c).owesAt () t.succ = (dat3 V c).owesAt () t.castSucc from rfl,
    after3_0, after3_1, after3_2]
  unfold Pipeline.ΦA
  rw [scopedRest3_lend]
  iintro ⟨⟨⟨⟨%g4, H4⟩, Hrest⟩, Hr⟩, Ho, ⟨%d0, H0⟩, ⟨%d1, H1⟩, ⟨%d2, H2⟩⟩
  iapply (sound_kernel2 c Set.univ _ _ _ _ _ _ _ _ _ (iblk3 V c 0 t) (iblk3 V c 1 t) _)
  isplitl [H0]; · iexact H0
  isplitl [H1]; · iexact H1
  isplitl [H2]; · iexists _; iexact H2
  isplitl [H4]
  · iexists g4; iexact H4
  iintro ⟨H0, H1, H2, ⟨%d4, H4⟩⟩
  isplitl [H4 Hrest Hr]
  · isplitr [Hr]
    · isplitl [H4]
      · iexists d4; iexact H4
      · iexact Hrest
    · iexact Hr
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Body

end Cert.KernelIdeal.Hand

end
-- ==== Proof.KI.Run.lean ====
import proofs.«423449_j63771674411371_3_alg».proof.Proof.KI.Fold
import proofs.«423449_j63771674411371_3_alg».proof.Proof.KI.Body0
import proofs.«423449_j63771674411371_3_alg».proof.Proof.KI.Body1
import proofs.«423449_j63771674411371_3_alg».proof.Proof.KI.Body2
import proofs.«423449_j63771674411371_3_alg».proof.Proof.KI.Body3
import Idealize.ShloMosaic.Lib.Pipeline.FrameBody
import Idealize.ShloMosaic.Lib.Pipeline.RegionsLoop
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def oR0 (c : Dev nD) : Buf (Elt F) ((c : Thread nD τ).loc main_v95) :=
  (dat0 (fun c b => X6 m c b) c).arrAt 2 cfg0.N

def oR1 (c : Dev nD) : Buf (Elt F) ((c : Thread nD τ).loc main_v99) :=
  (dat1 (fun c b => X8 m (oR0 m) c b) c).arrAt 2 cfg1.N

def oR2 (c : Dev nD) : Buf (Elt F) ((c : Thread nD τ).loc main_v103) :=
  (dat2 (fun c b => X10 m (oR0 m) (oR1 m) c b) c).arrAt 2 cfg2.N

def oR3 (c : Dev nD) : Buf (Elt F) ((c : Thread nD τ).loc main_v107) :=
  (dat3 (fun c b => X13 m (oR0 m) (oR1 m) (oR2 m) c b) c).arrAt 2 cfg3.N

abbrev Xend (c : Dev nD) : Valuation τ sig (Elt F) := X15 m (oR0 m) (oR1 m) (oR2 m) (oR3 m) c

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (fun c b => X6 m c b) c
  | ⟨1, _⟩ => fun c => dat1 (fun c b => X8 m (oR0 m) c b) c
  | ⟨2, _⟩ => fun c => dat2 (fun c b => X10 m (oR0 m) (oR1 m) c b) c
  | ⟨3, _⟩ => fun c => dat3 (fun c b => X13 m (oR0 m) (oR1 m) (oR2 m) c b) c
  | ⟨_ + 4, h⟩ => absurd h (Nat.not_lt.2 (Nat.le_add_left _ _))

abbrev noVar : Variants := Variants.none

abbrev lvlSet : GSem nD τ sig → Finset Unit := fun _ => ∅
abbrev lvlOf : GSem nD τ sig → Unit → ℕ := fun _ _ => 0

abbrev rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar lvlSet lvlOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem main_part0_ops0_fresh : (main_part0_ops0 : List (HloOp τ sig (Elt F))).Forall fun op => op.fresh = ∅ := by
  simp only [List.Forall]; repeat' constructor

theorem main_part0_ops1_fresh : (main_part0_ops1 : List (HloOp τ sig (Elt F))).Forall fun op => op.fresh = ∅ := by
  simp only [List.Forall]; repeat' constructor

theorem main_part0_ops2_fresh : (main_part0_ops2 : List (HloOp τ sig (Elt F))).Forall fun op => op.fresh = ∅ := by
  simp only [List.Forall]; repeat' constructor

theorem main_part0_ops3_fresh : (main_part0_ops3 : List (HloOp τ sig (Elt F))).Forall fun op => op.fresh = ∅ := by
  simp only [List.Forall]; repeat' constructor

theorem main_part0_ops4_fresh : (main_part0_ops4 : List (HloOp τ sig (Elt F))).Forall fun op => op.fresh = ∅ := by
  simp only [List.Forall]; repeat' constructor

theorem main_part1_ops0_fresh : (main_part1_ops0 : List (HloOp τ sig (Elt F))).Forall fun op => op.fresh = ∅ := by
  simp only [List.Forall]; repeat' constructor

theorem main_part1_ops1_fresh : (main_part1_ops1 : List (HloOp τ sig (Elt F))).Forall fun op => op.fresh = ∅ := by
  simp only [List.Forall]; repeat' constructor

theorem main_part1_ops2_fresh : (main_part1_ops2 : List (HloOp τ sig (Elt F))).Forall fun op => op.fresh = ∅ := by
  simp only [List.Forall]; repeat' constructor

theorem main_part1_ops3_fresh : (main_part1_ops3 : List (HloOp τ sig (Elt F))).Forall fun op => op.fresh = ∅ := by
  simp only [List.Forall]; repeat' constructor

theorem main_part2_ops0_fresh : (main_part2_ops0 : List (HloOp τ sig (Elt F))).Forall fun op => op.fresh = ∅ := by
  simp only [List.Forall]; repeat' constructor

theorem main_part2_ops1_fresh : (main_part2_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (Xend m c) ∗ ∃ r, prngReg c r)

theorem hF0 (c : Dev nD) : ∀ w : Fin cfg0.W,
    (dat0 (fun c b => X6 m c b) c).arrAt w cfg0.N = X7 m (oR0 m) c (Proc.devRef .tc (Pipeline.arrRef spec0 w))
  | ⟨0, _⟩ => ((dat0 (fun c b => X6 m c b) c).arrAt_in 0 rfl _).trans
      ((A_eq0 (fun c b => X6 m c b) c 0).trans (X7_of m (oR0 m) c (Pipeline.arrRef spec0 0) (by decide)).symm)
  | ⟨1, _⟩ => ((dat0 (fun c b => X6 m c b) c).arrAt_in 1 rfl _).trans
      ((A_eq0 (fun c b => X6 m c b) c 1).trans (X7_of m (oR0 m) c (Pipeline.arrRef spec0 1) (by decide)).symm)
  | ⟨2, _⟩ => (X7_out m (oR0 m) c).symm

theorem hrest0 (c : Dev nD) : ∀ b : Ref sig .tc, b ∉ Finset.univ.image (Pipeline.arrRef spec0) →
    X7 m (oR0 m) c (Proc.devRef .tc b) = X6 m c (Proc.devRef .tc b) :=
  fun b hb => X7_of m (oR0 m) c b fun e =>
    hb (Finset.mem_image.mpr ⟨2, Finset.mem_univ _, (show Pipeline.arrRef spec0 2 = main_v95 from rfl).trans e.symm⟩)

set_option backward.isDefEq.respectTransparency.types false in

def reg0 : Pipeline.RegionSeg (pcfgs (F := F)) adm (pdats m) () defs₀ noVar lvlSet lvlOf 0 where
  win := launch0.win.to₀
  block_pos := launch0.block_pos
  stage_whole := launch0.stage_whole
  K := PEmpty
  osem k := k.elim
  ho := Pipeline.OwnSemFacts.none _
  hbody c := (body_obligation0 (fun c b => X6 m c b) c).loose
  hwaits := Pipeline.hwaits_of_owed_zero _ _ _ _ lvlSet lvlOf 0 fun _ _ => rfl
  pre c := iprop(StableHlo.held (c : Thread nD τ) (Pipeline.ucRefs τ sig) (X6 m c) ∗ rest c)
  post c := iprop(StableHlo.held (c : Thread nD τ) (Pipeline.ucRefs τ sig) (X7 m (oR0 m) c) ∗ rest c)
  X c := iprop(∃ r, prngReg c r)
  Y c := iprop(∃ r, prngReg c r)
  Z c := Pipeline.unscopedRest (Ix := Unit) (Name := ℕ) (U := UR sig nD τ) (Lvl := ℕ) spec0 c (fun b => X6 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X6 m c b) (fun b => X7 m (oR0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) : ∀ w : Fin cfg1.W,
    (dat1 (fun c b => X8 m (oR0 m) c b) c).arrAt w cfg1.N = X9 m (oR0 m) (oR1 m) c (Proc.devRef .tc (Pipeline.arrRef spec1 w))
  | ⟨0, _⟩ => ((dat1 (fun c b => X8 m (oR0 m) c b) c).arrAt_in 0 rfl _).trans
      ((A_eq1 (fun c b => X8 m (oR0 m) c b) c 0).trans (X9_of m (oR0 m) (oR1 m) c (Pipeline.arrRef spec1 0) (by decide)).symm)
  | ⟨1, _⟩ => ((dat1 (fun c b => X8 m (oR0 m) c b) c).arrAt_in 1 rfl _).trans
      ((A_eq1 (fun c b => X8 m (oR0 m) c b) c 1).trans (X9_of m (oR0 m) (oR1 m) c (Pipeline.arrRef spec1 1) (by decide)).symm)
  | ⟨2, _⟩ => (X9_out m (oR0 m) (oR1 m) c).symm

theorem hrest1 (c : Dev nD) : ∀ b : Ref sig .tc, b ∉ Finset.univ.image (Pipeline.arrRef spec1) →
    X9 m (oR0 m) (oR1 m) c (Proc.devRef .tc b) = X8 m (oR0 m) c (Proc.devRef .tc b) :=
  fun b hb => X9_of m (oR0 m) (oR1 m) c b fun e =>
    hb (Finset.mem_image.mpr ⟨2, Finset.mem_univ _, (show Pipeline.arrRef spec1 2 = main_v99 from rfl).trans e.symm⟩)

set_option backward.isDefEq.respectTransparency.types false in

def reg1 : Pipeline.RegionSeg (pcfgs (F := F)) adm (pdats m) () defs₀ noVar lvlSet lvlOf 1 where
  win := launch1.win.to₀
  block_pos := launch1.block_pos
  stage_whole := launch1.stage_whole
  K := PEmpty
  osem k := k.elim
  ho := Pipeline.OwnSemFacts.none _
  hbody c := (body_obligation1 (fun c b => X8 m (oR0 m) c b) c).loose
  hwaits := Pipeline.hwaits_of_owed_zero _ _ _ _ lvlSet lvlOf 1 fun _ _ => rfl
  pre c := iprop(StableHlo.held (c : Thread nD τ) (Pipeline.ucRefs τ sig) (X8 m (oR0 m) c) ∗ rest c)
  post c := iprop(StableHlo.held (c : Thread nD τ) (Pipeline.ucRefs τ sig) (X9 m (oR0 m) (oR1 m) c) ∗ rest c)
  X c := iprop(∃ r, prngReg c r)
  Y c := iprop(∃ r, prngReg c r)
  Z c := Pipeline.unscopedRest (Ix := Unit) (Name := ℕ) (U := UR sig nD τ) (Lvl := ℕ) spec1 c (fun b => X8 m (oR0 m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X8 m (oR0 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X8 m (oR0 m) c b) (fun b => X9 m (oR0 m) (oR1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w : Fin cfg2.W,
    (dat2 (fun c b => X10 m (oR0 m) (oR1 m) c b) c).arrAt w cfg2.N = X11 m (oR0 m) (oR1 m) (oR2 m) c (Proc.devRef .tc (Pipeline.arrRef spec2 w))
  | ⟨0, _⟩ => ((dat2 (fun c b => X10 m (oR0 m) (oR1 m) c b) c).arrAt_in 0 rfl _).trans
      ((A_eq2 (fun c b => X10 m (oR0 m) (oR1 m) c b) c 0).trans (X11_of m (oR0 m) (oR1 m) (oR2 m) c (Pipeline.arrRef spec2 0) (by decide)).symm)
  | ⟨1, _⟩ => ((dat2 (fun c b => X10 m (oR0 m) (oR1 m) c b) c).arrAt_in 1 rfl _).trans
      ((A_eq2 (fun c b => X10 m (oR0 m) (oR1 m) c b) c 1).trans (X11_of m (oR0 m) (oR1 m) (oR2 m) c (Pipeline.arrRef spec2 1) (by decide)).symm)
  | ⟨2, _⟩ => (X11_out m (oR0 m) (oR1 m) (oR2 m) c).symm

theorem hrest2 (c : Dev nD) : ∀ b : Ref sig .tc, b ∉ Finset.univ.image (Pipeline.arrRef spec2) →
    X11 m (oR0 m) (oR1 m) (oR2 m) c (Proc.devRef .tc b) = X10 m (oR0 m) (oR1 m) c (Proc.devRef .tc b) :=
  fun b hb => X11_of m (oR0 m) (oR1 m) (oR2 m) c b fun e =>
    hb (Finset.mem_image.mpr ⟨2, Finset.mem_univ _, (show Pipeline.arrRef spec2 2 = main_v103 from rfl).trans e.symm⟩)

set_option backward.isDefEq.respectTransparency.types false in

def reg2 : Pipeline.RegionSeg (pcfgs (F := F)) adm (pdats m) () defs₀ noVar lvlSet lvlOf 2 where
  win := launch2.win.to₀
  block_pos := launch2.block_pos
  stage_whole := launch2.stage_whole
  K := PEmpty
  osem k := k.elim
  ho := Pipeline.OwnSemFacts.none _
  hbody c := (body_obligation2 (fun c b => X10 m (oR0 m) (oR1 m) c b) c).loose
  hwaits := Pipeline.hwaits_of_owed_zero _ _ _ _ lvlSet lvlOf 2 fun _ _ => rfl
  pre c := iprop(StableHlo.held (c : Thread nD τ) (Pipeline.ucRefs τ sig) (X10 m (oR0 m) (oR1 m) c) ∗ rest c)
  post c := iprop(StableHlo.held (c : Thread nD τ) (Pipeline.ucRefs τ sig) (X11 m (oR0 m) (oR1 m) (oR2 m) c) ∗ rest c)
  X c := iprop(∃ r, prngReg c r)
  Y c := iprop(∃ r, prngReg c r)
  Z c := Pipeline.unscopedRest (Ix := Unit) (Name := ℕ) (U := UR sig nD τ) (Lvl := ℕ) spec2 c (fun b => X10 m (oR0 m) (oR1 m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => X10 m (oR0 m) (oR1 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => X10 m (oR0 m) (oR1 m) c b) (fun b => X11 m (oR0 m) (oR1 m) (oR2 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) : ∀ w : Fin cfg3.W,
    (dat3 (fun c b => X13 m (oR0 m) (oR1 m) (oR2 m) c b) c).arrAt w cfg3.N = X14 m (oR0 m) (oR1 m) (oR2 m) (oR3 m) c (Proc.devRef .tc (Pipeline.arrRef spec3 w))
  | ⟨0, _⟩ => ((dat3 (fun c b => X13 m (oR0 m) (oR1 m) (oR2 m) c b) c).arrAt_in 0 rfl _).trans
      ((A_eq3 (fun c b => X13 m (oR0 m) (oR1 m) (oR2 m) c b) c 0).trans (X14_of m (oR0 m) (oR1 m) (oR2 m) (oR3 m) c (Pipeline.arrRef spec3 0) (by decide)).symm)
  | ⟨1, _⟩ => ((dat3 (fun c b => X13 m (oR0 m) (oR1 m) (oR2 m) c b) c).arrAt_in 1 rfl _).trans
      ((A_eq3 (fun c b => X13 m (oR0 m) (oR1 m) (oR2 m) c b) c 1).trans (X14_of m (oR0 m) (oR1 m) (oR2 m) (oR3 m) c (Pipeline.arrRef spec3 1) (by decide)).symm)
  | ⟨2, _⟩ => (X14_out m (oR0 m) (oR1 m) (oR2 m) (oR3 m) c).symm

theorem hrest3 (c : Dev nD) : ∀ b : Ref sig .tc, b ∉ Finset.univ.image (Pipeline.arrRef spec3) →
    X14 m (oR0 m) (oR1 m) (oR2 m) (oR3 m) c (Proc.devRef .tc b) = X13 m (oR0 m) (oR1 m) (oR2 m) c (Proc.devRef .tc b) :=
  fun b hb => X14_of m (oR0 m) (oR1 m) (oR2 m) (oR3 m) c b fun e =>
    hb (Finset.mem_image.mpr ⟨2, Finset.mem_univ _, (show Pipeline.arrRef spec3 2 = main_v107 from rfl).trans e.symm⟩)

set_option backward.isDefEq.respectTransparency.types false in

def reg3 : Pipeline.RegionSeg (pcfgs (F := F)) adm (pdats m) () defs₀ noVar lvlSet lvlOf 3 where
  win := launch3.win.to₀
  block_pos := launch3.block_pos
  stage_whole := launch3.stage_whole
  K := PEmpty
  osem k := k.elim
  ho := Pipeline.OwnSemFacts.none _
  hbody c := (body_obligation3 (fun c b => X13 m (oR0 m) (oR1 m) (oR2 m) c b) c).loose
  hwaits := Pipeline.hwaits_of_owed_zero _ _ _ _ lvlSet lvlOf 3 fun _ _ => rfl
  pre c := iprop(StableHlo.held (c : Thread nD τ) (Pipeline.ucRefs τ sig) (X13 m (oR0 m) (oR1 m) (oR2 m) c) ∗ rest c)
  post c := iprop(StableHlo.held (c : Thread nD τ) (Pipeline.ucRefs τ sig) (X14 m (oR0 m) (oR1 m) (oR2 m) (oR3 m) c) ∗ rest c)
  X c := iprop(∃ r, prngReg c r)
  Y c := iprop(∃ r, prngReg c r)
  Z c := Pipeline.unscopedRest (Ix := Unit) (Name := ℕ) (U := UR sig nD τ) (Lvl := ℕ) spec3 c (fun b => X13 m (oR0 m) (oR1 m) (oR2 m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => X13 m (oR0 m) (oR1 m) (oR2 m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => X13 m (oR0 m) (oR1 m) (oR2 m) c b) (fun b => X14 m (oR0 m) (oR1 m) (oR2 m) (oR3 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ noVar lvlSet lvlOf) :=
  [ .host (hseg main_part0_ops0 main_part0_ops0_sub main_part0_ops0_fresh (X0 m)),
    .host (hseg main_part0_ops1 main_part0_ops1_sub main_part0_ops1_fresh (X1 m)),
    .host (hseg main_part0_ops2 main_part0_ops2_sub main_part0_ops2_fresh (X2 m)),
    .host (hseg main_part0_ops3 main_part0_ops3_sub main_part0_ops3_fresh (X3 m)),
    .host (hseg main_part0_ops4 main_part0_ops4_sub main_part0_ops4_fresh (X4 m)),
    .host (hseg main_part1_ops0 main_part1_ops0_sub main_part1_ops0_fresh (X5 m)),
    .region (reg0 m),
    .host (hseg main_part1_ops1 main_part1_ops1_sub main_part1_ops1_fresh (X7 m (oR0 m))),
    .region (reg1 m),
    .host (hseg main_part1_ops2 main_part1_ops2_sub main_part1_ops2_fresh (X9 m (oR0 m) (oR1 m))),
    .region (reg2 m),
    .host (hseg main_part1_ops3 main_part1_ops3_sub main_part1_ops3_fresh (X11 m (oR0 m) (oR1 m) (oR2 m))),
    .host (hseg main_part2_ops0 main_part2_ops0_sub main_part2_ops0_fresh (X12 m (oR0 m) (oR1 m) (oR2 m))),
    .region (reg3 m),
    .host (hseg main_part2_ops1 main_part2_ops1_sub main_part2_ops1_fresh (X14 m (oR0 m) (oR1 m) (oR2 m) (oR3 m))) ]

theorem main_run (c : Dev nD) : main (F := F) c = Pipeline.Seg.run (segs m) := (main_chain_windows c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Xend m c b) :=
  Pipeline.θ_run_regions_kit (pcfgs (F := F)) adm (pdats m) () cellOf_inj emb₁ defs₀ noVar lvlSet lvlOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ rest c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Xend m c) ∗ rest c)
          ⊢ iprop(Tend m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach lvlSet lvlOf fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Xend m c b)
    (hfin := fun c s' => by
      iintro ⟨⟨Hh, -⟩, HSI⟩
      unfold StableHlo.held
      imodintro
      iapply (pointsTo_read_all (Pipeline.ucRefs τ sig) (fun b => (((c : Thread nD τ)).1, b)) (Xend m c) s')
      isplitl [Hh] <;> iassumption)
    (hQ := fun s h c => h c)

theorem run_results (ρ : Dev nD → PrngReg) : θ_run defs (onTc (τ := τ) (main (F := F))) ⟨m, fun _ => 0, ρ⟩ (fun r => ∀ c : Dev nD,
      r.2.mem ((c.tc : Thread nD τ).loc main_v130) = Xend m c (Proc.devRef .tc main_v130)
      ∧ r.2.mem ((c.tc : Thread nD τ).loc main_v92) = Xend m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v130 (by decide)), h c _ (mem_uc main_v92 (by decide)),
     (h c _ (mem_uc main_arg0 (by decide))).trans (X15_main_arg0 m _ _ _ _ c),
     (h c _ (mem_uc main_arg1 (by decide))).trans (X15_main_arg1 m _ _ _ _ c),
     (h c _ (mem_uc main_arg2 (by decide))).trans (X15_main_arg2 m _ _ _ _ c),
     (h c _ (mem_uc main_arg3 (by decide))).trans (X15_main_arg3 m _ _ _ _ c),
     (h c _ (mem_uc main_arg4 (by decide))).trans (X15_main_arg4 m _ _ _ _ c),
     (h c _ (mem_uc main_arg5 (by decide))).trans (X15_main_arg5 m _ _ _ _ c),
     (h c _ (mem_uc main_arg6 (by decide))).trans (X15_main_arg6 m _ _ _ _ c),
     (h c _ (mem_uc main_arg7 (by decide))).trans (X15_main_arg7 m _ _ _ _ c),
     (h c _ (mem_uc main_arg8 (by decide))).trans (X15_main_arg8 m _ _ _ _ c),
     (h c _ (mem_uc main_arg9 (by decide))).trans (X15_main_arg9 m _ _ _ _ c)⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2) (run_results m ρ)

end Cert.KernelIdeal.Hand

end
-- ==== Proof.KernelSame.lean ====
/-
  The kernel as printed and its idealization are one text under two names: their definition tables and their main
  programs unfold to the same terms, so whatever holds of one at a number type holds of the other at that type.
-/
import proofs.«423449_j63771674411371_3_alg».proof.Defs
import proofs.«423449_j63771674411371_3_alg».proof.Proof.Gen.Kernel
import proofs.«423449_j63771674411371_3_alg».proof.Proof.Gen.Kernel.Launch
import proofs.«423449_j63771674411371_3_alg».proof.Proof.Gen.Pre_finite_inputs
import proofs.«423449_j63771674411371_3_alg».proof.Proof.KI.Run

noncomputable section

namespace Cert.KernelSame

open Idealize.ShloMosaic Idealize.SL.Sem

variable {F : FTy → Type} [FloatOps F]

-- Each label's entry is the same function called on the same arguments.
theorem body0_eq (a) : Cert.Kernel.defs₀ (F := F) .tc 0 a = Cert.KernelIdeal.defs₀ (F := F) .tc 0 a := by
  obtain ⟨t, s⟩ := a; rfl
theorem body1_eq (a) : Cert.Kernel.defs₀ (F := F) .tc 1 a = Cert.KernelIdeal.defs₀ (F := F) .tc 1 a := by
  obtain ⟨t, s⟩ := a; rfl
theorem body2_eq (a) : Cert.Kernel.defs₀ (F := F) .tc 2 a = Cert.KernelIdeal.defs₀ (F := F) .tc 2 a := by
  obtain ⟨t, s⟩ := a; rfl
theorem body3_eq (a) : Cert.Kernel.defs₀ (F := F) .tc 3 a = Cert.KernelIdeal.defs₀ (F := F) .tc 3 a := by
  obtain ⟨t, s⟩ := a; rfl

theorem defs₀_eq : Cert.Kernel.defs₀ (F := F) = Cert.KernelIdeal.defs₀ (F := F) := by
  funext p ℓ a
  match p, ℓ with
  | .tc, 0 => exact body0_eq a
  | .tc, 1 => exact body1_eq a
  | .tc, 2 => exact body2_eq a
  | .tc, 3 => exact body3_eq a
  | .tc, ⟨_ + 4, h⟩ => exact absurd h (Nat.not_lt.2 (Nat.le_add_left _ _))
  | .scScalar _, _ => rfl
  | .scVector _ _, _ => rfl

theorem defs_eq : Cert.Kernel.defs (F := F) = Cert.KernelIdeal.defs (F := F) :=
  congrArg (Pipeline.defs Cert.KernelIdeal.pcfgs) defs₀_eq

-- Both main programs are the same chain of host stretches and region calls.
theorem main_eq : Cert.Kernel.main (F := F) = Cert.KernelIdeal.main (F := F) :=
  funext fun c => (Cert.Kernel.Gen.main_chain_windows c).trans (Cert.KernelIdeal.Gen.main_chain_windows c).symm

theorem frame : Cert.frame_Kernel (hKernel := Cert.Kernel.Gen.facts) (hPre_finite_inputs := Cert.Pre_finite_inputs.Gen.facts) :=
  fun m ρ _ => by
    rw [defs_eq, main_eq]
    exact Cert.KernelIdeal.Hand.frame (F := Bits) m ρ

end Cert.KernelSame

end
-- ==== Proof.Ref.Ops.lean ====
import proofs.«423449_j63771674411371_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in

abbrev opsA : List (HloOp τ sig (Elt F)) :=
  [ StableHlo.nullary main_cst (fun i => FloatOps.ofBits .f32 (lit0 (S4.rowMajor i))),
    StableHlo.nullary main_c (constantI S_ 32 0#32),
    StableHlo.unary main_c main_v0 (broadcastInDim S2000 ![] bcast_S_S2000 : (⟨S_, .i32⟩ : BufTy).Contents (Elt F) → (⟨S2000, .i32⟩ : BufTy).Contents (Elt F)),
    StableHlo.binary main_arg6 main_v0 main_v1 (cmpi .slt : (⟨S2000, .i32⟩ : BufTy).Contents (Elt F) → (⟨S2000, .i32⟩ : BufTy).Contents (Elt F) → (⟨S2000, .i1⟩ : BufTy).Contents (Elt F)),
    StableHlo.nullary main_c_0 (constantI S_ 32 8000#32),
    StableHlo.unary main_c_0 main_v2 (broadcastInDim S2000 ![] bcast_S_S2000 : (⟨S_, .i32⟩ : BufTy).Contents (Elt F) → (⟨S2000, .i32⟩ : BufTy).Contents (Elt F)),
    StableHlo.binary main_arg6 main_v2 main_v3 (addi : (⟨S2000, .i32⟩ : BufTy).Contents (Elt F) → (⟨S2000, .i32⟩ : BufTy).Contents (Elt F) → (⟨S2000, .i32⟩ : BufTy).Contents (Elt F)),
    StableHlo.ternary main_v1 main_v3 main_arg6 main_v4 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v4 main_v5 (broadcastInDim S2000x1 ![0] bcast_S2000_S2000x1_0 : (⟨S2000, .i32⟩ : BufTy).Contents (Elt F) → (⟨S2000x1, .i32⟩ : BufTy).Contents (Elt F)),
    StableHlo.binary main_arg4 main_v5 main_v6 ((fun x i => Host.gather gather_S16x8000x3_S2000x1_S16x2000x3_02_1_n_n_1_1_1613 x i) : (⟨S16x8000x3, .f32⟩ : BufTy).Contents (Elt F) → (⟨S2000x1, .i32⟩ : BufTy).Contents (Elt F) → (⟨S16x2000x3, .f32⟩ : BufTy).Contents (Elt F)),
    StableHlo.nullary main_c_1 (constantI S_ 32 0#32),
    StableHlo.unary main_c_1 main_v7 (broadcastInDim S2000 ![] bcast_S_S2000 : (⟨S_, .i32⟩ : BufTy).Contents (Elt F) → (⟨S2000, .i32⟩ : BufTy).Contents (Elt F)),
    StableHlo.binary main_arg7 main_v7 main_v8 (cmpi .slt : (⟨S2000, .i32⟩ : BufTy).Contents (Elt F) → (⟨S2000, .i32⟩ : BufTy).Contents (Elt F) → (⟨S2000, .i1⟩ : BufTy).Contents (Elt F)),
    StableHlo.nullary main_c_2 (constantI S_ 32 8000#32),
    StableHlo.unary main_c_2 main_v9 (broadcastInDim S2000 ![] bcast_S_S2000 : (⟨S_, .i32⟩ : BufTy).Contents (Elt F) → (⟨S2000, .i32⟩ : BufTy).Contents (Elt F)),
    StableHlo.binary main_arg7 main_v9 main_v10 (addi : (⟨S2000, .i32⟩ : BufTy).Contents (Elt F) → (⟨S2000, .i32⟩ : BufTy).Contents (Elt F) → (⟨S2000, .i32⟩ : BufTy).Contents (Elt F)),
    StableHlo.ternary main_v8 main_v10 main_arg7 main_v11 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v11 main_v12 (broadcastInDim S2000x1 ![0] bcast_S2000_S2000x1_0 : (⟨S2000, .i32⟩ : BufTy).Contents (Elt F) → (⟨S2000x1, .i32⟩ : BufTy).Contents (Elt F)),
    StableHlo.binary main_arg4 main_v12 main_v13 ((fun x i => Host.gather gather_S16x8000x3_S2000x1_S16x2000x3_02_1_n_n_1_1_1613 x i) : (⟨S16x8000x3, .f32⟩ : BufTy).Contents (Elt F) → (⟨S2000x1, .i32⟩ : BufTy).Contents (Elt F) → (⟨S16x2000x3, .f32⟩ : BufTy).Contents (Elt F)),
    StableHlo.nullary main_c_3 (constantI S_ 32 0#32),
    StableHlo.unary main_c_3 main_v14 (broadcastInDim S1000 ![] bcast_S_S1000 : (⟨S_, .i32⟩ : BufTy).Contents (Elt F) → (⟨S1000, .i32⟩ : BufTy).Contents (Elt F)),
    StableHlo.binary main_arg8 main_v14 main_v15 (cmpi .slt : (⟨S1000, .i32⟩ : BufTy).Contents (Elt F) → (⟨S1000, .i32⟩ : BufTy).Contents (Elt F) → (⟨S1000, .i1⟩ : BufTy).Contents (Elt F)),
    StableHlo.nullary main_c_4 (constantI S_ 32 8000#32),
    StableHlo.unary main_c_4 main_v16 (broadcastInDim S1000 ![] bcast_S_S1000 : (⟨S_, .i32⟩ : BufTy).Contents (Elt F) → (⟨S1000, .i32⟩ : BufTy).Contents (Elt F)),
    StableHlo.binary main_arg8 main_v16 main_v17 (addi : (⟨S1000, .i32⟩ : BufTy).Contents (Elt F) → (⟨S1000, .i32⟩ : BufTy).Contents (Elt F) → (⟨S1000, .i32⟩ : BufTy).Contents (Elt F)),
    StableHlo.ternary main_v15 main_v17 main_arg8 main_v18 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v18 main_v19 (broadcastInDim S1000x1 ![0] bcast_S1000_S1000x1_0 : (⟨S1000, .i32⟩ : BufTy).Contents (Elt F) → (⟨S1000x1, .i32⟩ : BufTy).Contents (Elt F)),
    StableHlo.binary main_arg4 main_v19 main_v20 ((fun x i => Host.gather gather_S16x8000x3_S1000x1_S16x1000x3_02_1_n_n_1_1_1613 x i) : (⟨S16x8000x3, .f32⟩ : BufTy).Contents (Elt F) → (⟨S1000x1, .i32⟩ : BufTy).Contents (Elt F) → (⟨S16x1000x3, .f32⟩ : BufTy).Contents (Elt F)),
    StableHlo.nullary main_c_5 (constantI S_ 32 0#32),
    StableHlo.unary main_c_5 main_v21 (broadcastInDim S1000 ![] bcast_S_S1000 : (⟨S_, .i32⟩ : BufTy).Contents (Elt F) → (⟨S1000, .i32⟩ : BufTy).Contents (Elt F)),
    StableHlo.binary main_arg9 main_v21 main_v22 (cmpi .slt : (⟨S1000, .i32⟩ : BufTy).Contents (Elt F) → (⟨S1000, .i32⟩ : BufTy).Contents (Elt F) → (⟨S1000, .i1⟩ : BufTy).Contents (Elt F)),
    StableHlo.nullary main_c_6 (constantI S_ 32 8000#32),
    StableHlo.unary main_c_6 main_v23 (broadcastInDim S1000 ![] bcast_S_S1000 : (⟨S_, .i32⟩ : BufTy).Contents (Elt F) → (⟨S1000, .i32⟩ : BufTy).Contents (Elt F)),
    StableHlo.binary main_arg9 main_v23 main_v24 (addi : (⟨S1000, .i32⟩ : BufTy).Contents (Elt F) → (⟨S1000, .i32⟩ : BufTy).Contents (Elt F) → (⟨S1000, .i32⟩ : BufTy).Contents (Elt F)),
    StableHlo.ternary main_v22 main_v24 main_arg9 main_v25 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v25 main_v26 (broadcastInDim S1000x1 ![0] bcast_S1000_S1000x1_0 : (⟨S1000, .i32⟩ : BufTy).Contents (Elt F) → (⟨S1000x1, .i32⟩ : BufTy).Contents (Elt F)),
    StableHlo.binary main_arg4 main_v26 main_v27 ((fun x i => Host.gather gather_S16x8000x3_S1000x1_S16x1000x3_02_1_n_n_1_1_1613 x i) : (⟨S16x8000x3, .f32⟩ : BufTy).Contents (Elt F) → (⟨S1000x1, .i32⟩ : BufTy).Contents (Elt F) → (⟨S16x1000x3, .f32⟩ : BufTy).Contents (Elt F)) ]

abbrev opsA_W : List (Ref sig .tc) := [main_cst, main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27]

set_option maxHeartbeats 2000000 in

abbrev opsB : List (HloOp τ sig (Elt F)) :=
  [ StableHlo.nary ![main_v6, main_v13, main_v20, main_v27] main_v28 (fun u => concatenate S16x6000x3 1 [⟨S16x2000x3, u 0⟩, ⟨S16x2000x3, u 1⟩, ⟨S16x1000x3, u 2⟩, ⟨S16x1000x3, u 3⟩] concatenates_S16x2000x3_S16x2000x3_S16x1000x3_S16x1000x3_S16x6000x3_d1),
    StableHlo.unary main_arg5 main_v29 ((extractStridedSlice S16x1 ![0, 0] · slices_S16x7_S16x1_0_0) : (⟨S16x7, .f32⟩ : BufTy).Contents (Elt F) → (⟨S16x1, .f32⟩ : BufTy).Contents (Elt F)),
    StableHlo.unary main_arg5 main_v30 ((extractStridedSlice S16x2 ![0, 1] · slices_S16x7_S16x2_0_1) : (⟨S16x7, .f32⟩ : BufTy).Contents (Elt F) → (⟨S16x2, .f32⟩ : BufTy).Contents (Elt F)),
    StableHlo.unary main_arg5 main_v31 ((extractStridedSlice S16x4 ![0, 3] · slices_S16x7_S16x4_0_3) : (⟨S16x7, .f32⟩ : BufTy).Contents (Elt F) → (⟨S16x4, .f32⟩ : BufTy).Contents (Elt F)),
    StableHlo.TRef.binary (.of main_v31) (.of main_v31) main_call0.v0 mulf,
    StableHlo.TRef.nullary main_call0.cst (constant S_ .f32 0x00000000#32),
    StableHlo.TRef.binary main_call0.v0 main_call0.cst main_call0.v1 (fun x v => Host.reduceAdd x v reducesTo_S16x4_S16_d1 h_S_),
    StableHlo.TRef.unary main_call0.v1 main_call0.v2 (broadcastInDim S16x1 ![0] bcast_S16_S16x1_0),
    StableHlo.TRef.unary main_call0.v2 main_call0.v3 Host.sqrt,
    StableHlo.nullary main_cst_7 (constant S_ .f32 0x322BCC77#32),
    StableHlo.unary main_cst_7 main_v33 (broadcastInDim S16x1 ![] bcast_S_S16x1 : (⟨S_, .f32⟩ : BufTy).Contents (Elt F) → (⟨S16x1, .f32⟩ : BufTy).Contents (Elt F)),
    StableHlo.binary main_v32 main_v33 main_v34 (addf : (⟨S16x1, .f32⟩ : BufTy).Contents (Elt F) → (⟨S16x1, .f32⟩ : BufTy).Contents (Elt F) → (⟨S16x1, .f32⟩ : BufTy).Contents (Elt F)),
    StableHlo.unary main_v34 main_v35 (broadcastInDim S16x4 ![0, 1] bcast_S16x1_S16x4_0_1 : (⟨S16x1, .f32⟩ : BufTy).Contents (Elt F) → (⟨S16x4, .f32⟩ : BufTy).Contents (Elt F)),
    StableHlo.binary main_v31 main_v35 main_v36 (Host.divf : (⟨S16x4, .f32⟩ : BufTy).Contents (Elt F) → (⟨S16x4, .f32⟩ : BufTy).Contents (Elt F) → (⟨S16x4, .f32⟩ : BufTy).Contents (Elt F)),
    StableHlo.unary main_v36 main_v37 ((extractStridedSlice S16x1 ![0, 0] · slices_S16x4_S16x1_0_0) : (⟨S16x4, .f32⟩ : BufTy).Contents (Elt F) → (⟨S16x1, .f32⟩ : BufTy).Contents (Elt F)),
    StableHlo.reshape main_v37 main_v38 rfl shapeCasts_S16x1_S16,
    StableHlo.unary main_v36 main_v39 ((extractStridedSlice S16x1 ![0, 1] · slices_S16x4_S16x1_0_1) : (⟨S16x4, .f32⟩ : BufTy).Contents (Elt F) → (⟨S16x1, .f32⟩ : BufTy).Contents (Elt F)),
    StableHlo.reshape main_v39 main_v40 rfl shapeCasts_S16x1_S16,
    StableHlo.unary main_v36 main_v41 ((extractStridedSlice S16x1 ![0, 2] · slices_S16x4_S16x1_0_2) : (⟨S16x4, .f32⟩ : BufTy).Contents (Elt F) → (⟨S16x1, .f32⟩ : BufTy).Contents (Elt F)),
    StableHlo.reshape main_v41 main_v42 rfl shapeCasts_S16x1_S16,
    StableHlo.unary main_v36 main_v43 ((extractStridedSlice S16x1 ![0, 3] · slices_S16x4_S16x1_0_3) : (⟨S16x4, .f32⟩ : BufTy).Contents (Elt F) → (⟨S16x1, .f32⟩ : BufTy).Contents (Elt F)),
    StableHlo.reshape main_v43 main_v44 rfl shapeCasts_S16x1_S16,
    StableHlo.binary main_v42 main_v42 main_v45 (mulf : (⟨S16, .f32⟩ : BufTy).Contents (Elt F) → (⟨S16, .f32⟩ : BufTy).Contents (Elt F) → (⟨S16, .f32⟩ : BufTy).Contents (Elt F)),
    StableHlo.binary main_v44 main_v44 main_v46 (mulf : (⟨S16, .f32⟩ : BufTy).Contents (Elt F) → (⟨S16, .f32⟩ : BufTy).Contents (Elt F) → (⟨S16, .f32⟩ : BufTy).Contents (Elt F)),
    StableHlo.binary main_v45 main_v46 main_v47 (addf : (⟨S16, .f32⟩ : BufTy).Contents (Elt F) → (⟨S16, .f32⟩ : BufTy).Contents (Elt F) → (⟨S16, .f32⟩ : BufTy).Contents (Elt F)),
    StableHlo.nullary main_cst_8 (constant S_ .f32 0x40000000#32),
    StableHlo.unary main_cst_8 main_v48 (broadcastInDim S16 ![] bcast_S_S16 : (⟨S_, .f32⟩ : BufTy).Contents (Elt F) → (⟨S16, .f32⟩ : BufTy).Contents (Elt F)) ]

abbrev opsB_W : List (Ref sig .tc) := [main_v28, main_v29, main_v30, main_v31, main_call0_v0, main_call0_cst, main_call0_v1, main_call0_v2, main_v32, main_cst_7, main_v33, main_v34, main_v35, main_v36, main_v37, main_v38, main_v39, main_v40, main_v41, main_v42, main_v43, main_v44, main_v45, main_v46, main_v47, main_cst_8, main_v48]

abbrev opsC : List (HloOp τ sig (Elt F)) :=
  [ StableHlo.binary main_v48 main_v47 main_v49 (mulf : (⟨S16, .f32⟩ : BufTy).Contents (Elt F) → (⟨S16, .f32⟩ : BufTy).Contents (Elt F) → (⟨S16, .f32⟩ : BufTy).Contents (Elt F)),
    StableHlo.nullary main_cst_9 (constant S_ .f32 0x3F800000#32),
    StableHlo.unary main_cst_9 main_v50 (broadcastInDim S16 ![] bcast_S_S16 : (⟨S_, .f32⟩ : BufTy).Contents (Elt F) → (⟨S16, .f32⟩ : BufTy).Contents (Elt F)),
    StableHlo.binary main_v50 main_v49 main_v51 (subf : (⟨S16, .f32⟩ : BufTy).Contents (Elt F) → (⟨S16, .f32⟩ : BufTy).Contents (Elt F) → (⟨S16, .f32⟩ : BufTy).Contents (Elt F)),
    StableHlo.binary main_v40 main_v42 main_v52 (mulf : (⟨S16, .f32⟩ : BufTy).Contents (Elt F) → (⟨S16, .f32⟩ : BufTy).Contents (Elt F) → (⟨S16, .f32⟩ : BufTy).Contents (Elt F)),
    StableHlo.binary main_v38 main_v44 main_v53 (mulf : (⟨S16, .f32⟩ : BufTy).Contents (Elt F) → (⟨S16, .f32⟩ : BufTy).Contents (Elt F) → (⟨S16, .f32⟩ : BufTy).Contents (Elt F)),
    StableHlo.binary main_v52 main_v53 main_v54 (subf : (⟨S16, .f32⟩ : BufTy).Contents (Elt F) → (⟨S16, .f32⟩ : BufTy).Contents (Elt F) → (⟨S16, .f32⟩ : BufTy).Contents (Elt F)),
    StableHlo.nullary main_cst_10 (constant S_ .f32 0x40000000#32),
    StableHlo.unary main_cst_10 main_v55 (broadcastInDim S16 ![] bcast_S_S16 : (⟨S_, .f32⟩ : BufTy).Contents (Elt F) → (⟨S16, .f32⟩ : BufTy).Contents (Elt F)),
    StableHlo.binary main_v55 main_v54 main_v56 (mulf : (⟨S16, .f32⟩ : BufTy).Contents (Elt F) → (⟨S16, .f32⟩ : BufTy).Contents (Elt F) → (⟨S16, .f32⟩ : BufTy).Contents (Elt F)),
    StableHlo.binary main_v40 main_v44 main_v57 (mulf : (⟨S16, .f32⟩ : BufTy).Contents (Elt F) → (⟨S16, .f32⟩ : BufTy).Contents (Elt F) → (⟨S16, .f32⟩ : BufTy).Contents (Elt F)),
    StableHlo.binary main_v38 main_v42 main_v58 (mulf : (⟨S16, .f32⟩ : BufTy).Contents (Elt F) → (⟨S16, .f32⟩ : BufTy).Contents (Elt F) → (⟨S16, .f32⟩ : BufTy).Contents (Elt F)),
    StableHlo.binary main_v57 main_v58 main_v59 (addf : (⟨S16, .f32⟩ : BufTy).Contents (Elt F) → (⟨S16, .f32⟩ : BufTy).Contents (Elt F) → (⟨S16, .f32⟩ : BufTy).Contents (Elt F)),
    StableHlo.nullary main_cst_11 (constant S_ .f32 0x40000000#32),
    StableHlo.unary main_cst_11 main_v60 (broadcastInDim S16 ![] bcast_S_S16 : (⟨S_, .f32⟩ : BufTy).Contents (Elt F) → (⟨S16, .f32⟩ : BufTy).Contents (Elt F)),
    StableHlo.binary main_v60 main_v59 main_v61 (mulf : (⟨S16, .f32⟩ : BufTy).Contents (Elt F) → (⟨S16, .f32⟩ : BufTy).Contents (Elt F) → (⟨S16, .f32⟩ : BufTy).Contents (Elt F)),
    StableHlo.unary main_v51 main_v62 (broadcastInDim S16x1 ![0] bcast_S16_S16x1_0 : (⟨S16, .f32⟩ : BufTy).Contents (Elt F) → (⟨S16x1, .f32⟩ : BufTy).Contents (Elt F)),
    StableHlo.unary main_v56 main_v63 (broadcastInDim S16x1 ![0] bcast_S16_S16x1_0 : (⟨S16, .f32⟩ : BufTy).Contents (Elt F) → (⟨S16x1, .f32⟩ : BufTy).Contents (Elt F)),
    StableHlo.unary main_v61 main_v64 (broadcastInDim S16x1 ![0] bcast_S16_S16x1_0 : (⟨S16, .f32⟩ : BufTy).Contents (Elt F) → (⟨S16x1, .f32⟩ : BufTy).Contents (Elt F)) ]

abbrev opsC_W : List (Ref sig .tc) := [main_v49, main_cst_9, main_v50, main_v51, main_v52, main_v53, main_v54, main_cst_10, main_v55, main_v56, main_v57, main_v58, main_v59, main_cst_11, main_v60, main_v61, main_v62, main_v63, main_v64]

set_option maxHeartbeats 2000000 in

abbrev opsD : List (HloOp τ sig (Elt F)) :=
  [ StableHlo.nary ![main_v62, main_v63, main_v64] main_v65 (fun u => concatenate S16x3 1 [⟨S16x1, u 0⟩, ⟨S16x1, u 1⟩, ⟨S16x1, u 2⟩] concatenates_S16x1_S16x1_S16x1_S16x3_d1),
    StableHlo.binary main_v40 main_v42 main_v66 (mulf : (⟨S16, .f32⟩ : BufTy).Contents (Elt F) → (⟨S16, .f32⟩ : BufTy).Contents (Elt F) → (⟨S16, .f32⟩ : BufTy).Contents (Elt F)),
    StableHlo.binary main_v38 main_v44 main_v67 (mulf : (⟨S16, .f32⟩ : BufTy).Contents (Elt F) → (⟨S16, .f32⟩ : BufTy).Contents (Elt F) → (⟨S16, .f32⟩ : BufTy).Contents (Elt F)),
    StableHlo.binary main_v66 main_v67 main_v68 (addf : (⟨S16, .f32⟩ : BufTy).Contents (Elt F) → (⟨S16, .f32⟩ : BufTy).Contents (Elt F) → (⟨S16, .f32⟩ : BufTy).Contents (Elt F)),
    StableHlo.nullary main_cst_12 (constant S_ .f32 0x40000000#32),
    StableHlo.unary main_cst_12 main_v69 (broadcastInDim S16 ![] bcast_S_S16 : (⟨S_, .f32⟩ : BufTy).Contents (Elt F) → (⟨S16, .f32⟩ : BufTy).Contents (Elt F)),
    StableHlo.binary main_v69 main_v68 main_v70 (mulf : (⟨S16, .f32⟩ : BufTy).Contents (Elt F) → (⟨S16, .f32⟩ : BufTy).Contents (Elt F) → (⟨S16, .f32⟩ : BufTy).Contents (Elt F)),
    StableHlo.binary main_v40 main_v40 main_v71 (mulf : (⟨S16, .f32⟩ : BufTy).Contents (Elt F) → (⟨S16, .f32⟩ : BufTy).Contents (Elt F) → (⟨S16, .f32⟩ : BufTy).Contents (Elt F)),
    StableHlo.binary main_v44 main_v44 main_v72 (mulf : (⟨S16, .f32⟩ : BufTy).Contents (Elt F) → (⟨S16, .f32⟩ : BufTy).Contents (Elt F) → (⟨S16, .f32⟩ : BufTy).Contents (Elt F)),
    StableHlo.binary main_v71 main_v72 main_v73 (addf : (⟨S16, .f32⟩ : BufTy).Contents (Elt F) → (⟨S16, .f32⟩ : BufTy).Contents (Elt F) → (⟨S16, .f32⟩ : BufTy).Contents (Elt F)),
    StableHlo.nullary main_cst_13 (constant S_ .f32 0x40000000#32),
    StableHlo.unary main_cst_13 main_v74 (broadcastInDim S16 ![] bcast_S_S16 : (⟨S_, .f32⟩ : BufTy).Contents (Elt F) → (⟨S16, .f32⟩ : BufTy).Contents (Elt F)),
    StableHlo.binary main_v74 main_v73 main_v75 (mulf : (⟨S16, .f32⟩ : BufTy).Contents (Elt F) → (⟨S16, .f32⟩ : BufTy).Contents (Elt F) → (⟨S16, .f32⟩ : BufTy).Contents (Elt F)),
    StableHlo.nullary main_cst_14 (constant S_ .f32 0x3F800000#32),
    StableHlo.unary main_cst_14 main_v76 (broadcastInDim S16 ![] bcast_S_S16 : (⟨S_, .f32⟩ : BufTy).Contents (Elt F) → (⟨S16, .f32⟩ : BufTy).Contents (Elt F)),
    StableHlo.binary main_v76 main_v75 main_v77 (subf : (⟨S16, .f32⟩ : BufTy).Contents (Elt F) → (⟨S16, .f32⟩ : BufTy).Contents (Elt F) → (⟨S16, .f32⟩ : BufTy).Contents (Elt F)),
    StableHlo.binary main_v42 main_v44 main_v78 (mulf : (⟨S16, .f32⟩ : BufTy).Contents (Elt F) → (⟨S16, .f32⟩ : BufTy).Contents (Elt F) → (⟨S16, .f32⟩ : BufTy).Contents (Elt F)),
    StableHlo.binary main_v38 main_v40 main_v79 (mulf : (⟨S16, .f32⟩ : BufTy).Contents (Elt F) → (⟨S16, .f32⟩ : BufTy).Contents (Elt F) → (⟨S16, .f32⟩ : BufTy).Contents (Elt F)),
    StableHlo.binary main_v78 main_v79 main_v80 (subf : (⟨S16, .f32⟩ : BufTy).Contents (Elt F) → (⟨S16, .f32⟩ : BufTy).Contents (Elt F) → (⟨S16, .f32⟩ : BufTy).Contents (Elt F)),
    StableHlo.nullary main_cst_15 (constant S_ .f32 0x40000000#32),
    StableHlo.unary main_cst_15 main_v81 (broadcastInDim S16 ![] bcast_S_S16 : (⟨S_, .f32⟩ : BufTy).Contents (Elt F) → (⟨S16, .f32⟩ : BufTy).Contents (Elt F)),
    StableHlo.binary main_v81 main_v80 main_v82 (mulf : (⟨S16, .f32⟩ : BufTy).Contents (Elt F) → (⟨S16, .f32⟩ : BufTy).Contents (Elt F) → (⟨S16, .f32⟩ : BufTy).Contents (Elt F)),
    StableHlo.unary main_v70 main_v83 (broadcastInDim S16x1 ![0] bcast_S16_S16x1_0 : (⟨S16, .f32⟩ : BufTy).Contents (Elt F) → (⟨S16x1, .f32⟩ : BufTy).Contents (Elt F)),
    StableHlo.unary main_v77 main_v84 (broadcastInDim S16x1 ![0] bcast_S16_S16x1_0 : (⟨S16, .f32⟩ : BufTy).Contents (Elt F) → (⟨S16x1, .f32⟩ : BufTy).Contents (Elt F)),
    StableHlo.unary main_v82 main_v85 (broadcastInDim S16x1 ![0] bcast_S16_S16x1_0 : (⟨S16, .f32⟩ : BufTy).Contents (Elt F) → (⟨S16x1, .f32⟩ : BufTy).Contents (Elt F)) ]

abbrev opsD_W : List (Ref sig .tc) := [main_v65, main_v66, main_v67, main_v68, main_cst_12, main_v69, main_v70, main_v71, main_v72, main_v73, main_cst_13, main_v74, main_v75, main_cst_14, main_v76, main_v77, main_v78, main_v79, main_v80, main_cst_15, main_v81, main_v82, main_v83, main_v84, main_v85]

abbrev opsE : List (HloOp τ sig (Elt F)) :=
  [ StableHlo.nary ![main_v83, main_v84, main_v85] main_v86 (fun u => concatenate S16x3 1 [⟨S16x1, u 0⟩, ⟨S16x1, u 1⟩, ⟨S16x1, u 2⟩] concatenates_S16x1_S16x1_S16x1_S16x3_d1),
    StableHlo.binary main_v40 main_v44 main_v87 (mulf : (⟨S16, .f32⟩ : BufTy).Contents (Elt F) → (⟨S16, .f32⟩ : BufTy).Contents (Elt F) → (⟨S16, .f32⟩ : BufTy).Contents (Elt F)),
    StableHlo.binary main_v38 main_v42 main_v88 (mulf : (⟨S16, .f32⟩ : BufTy).Contents (Elt F) → (⟨S16, .f32⟩ : BufTy).Contents (Elt F) → (⟨S16, .f32⟩ : BufTy).Contents (Elt F)),
    StableHlo.binary main_v87 main_v88 main_v89 (subf : (⟨S16, .f32⟩ : BufTy).Contents (Elt F) → (⟨S16, .f32⟩ : BufTy).Contents (Elt F) → (⟨S16, .f32⟩ : BufTy).Contents (Elt F)),
    StableHlo.nullary main_cst_16 (constant S_ .f32 0x40000000#32),
    StableHlo.unary main_cst_16 main_v90 (broadcastInDim S16 ![] bcast_S_S16 : (⟨S_, .f32⟩ : BufTy).Contents (Elt F) → (⟨S16, .f32⟩ : BufTy).Contents (Elt F)),
    StableHlo.binary main_v90 main_v89 main_v91 (mulf : (⟨S16, .f32⟩ : BufTy).Contents (Elt F) → (⟨S16, .f32⟩ : BufTy).Contents (Elt F) → (⟨S16, .f32⟩ : BufTy).Contents (Elt F)),
    StableHlo.binary main_v42 main_v44 main_v92 (mulf : (⟨S16, .f32⟩ : BufTy).Contents (Elt F) → (⟨S16, .f32⟩ : BufTy).Contents (Elt F) → (⟨S16, .f32⟩ : BufTy).Contents (Elt F)),
    StableHlo.binary main_v38 main_v40 main_v93 (mulf : (⟨S16, .f32⟩ : BufTy).Contents (Elt F) → (⟨S16, .f32⟩ : BufTy).Contents (Elt F) → (⟨S16, .f32⟩ : BufTy).Contents (Elt F)),
    StableHlo.binary main_v92 main_v93 main_v94 (addf : (⟨S16, .f32⟩ : BufTy).Contents (Elt F) → (⟨S16, .f32⟩ : BufTy).Contents (Elt F) → (⟨S16, .f32⟩ : BufTy).Contents (Elt F)),
    StableHlo.nullary main_cst_17 (constant S_ .f32 0x40000000#32),
    StableHlo.unary main_cst_17 main_v95 (broadcastInDim S16 ![] bcast_S_S16 : (⟨S_, .f32⟩ : BufTy).Contents (Elt F) → (⟨S16, .f32⟩ : BufTy).Contents (Elt F)),
    StableHlo.binary main_v95 main_v94 main_v96 (mulf : (⟨S16, .f32⟩ : BufTy).Contents (Elt F) → (⟨S16, .f32⟩ : BufTy).Contents (Elt F) → (⟨S16, .f32⟩ : BufTy).Contents (Elt F)),
    StableHlo.binary main_v40 main_v40 main_v97 (mulf : (⟨S16, .f32⟩ : BufTy).Contents (Elt F) → (⟨S16, .f32⟩ : BufTy).Contents (Elt F) → (⟨S16, .f32⟩ : BufTy).Contents (Elt F)),
    StableHlo.binary main_v42 main_v42 main_v98 (mulf : (⟨S16, .f32⟩ : BufTy).Contents (Elt F) → (⟨S16, .f32⟩ : BufTy).Contents (Elt F) → (⟨S16, .f32⟩ : BufTy).Contents (Elt F)),
    StableHlo.binary main_v97 main_v98 main_v99 (addf : (⟨S16, .f32⟩ : BufTy).Contents (Elt F) → (⟨S16, .f32⟩ : BufTy).Contents (Elt F) → (⟨S16, .f32⟩ : BufTy).Contents (Elt F)) ]

abbrev opsE_W : List (Ref sig .tc) := [main_v86, main_v87, main_v88, main_v89, main_cst_16, main_v90, main_v91, main_v92, main_v93, main_v94, main_cst_17, main_v95, main_v96, main_v97, main_v98, main_v99]

abbrev opsF : List (HloOp τ sig (Elt F)) :=
  [ StableHlo.nullary main_cst_18 (constant S_ .f32 0x40000000#32),
    StableHlo.unary main_cst_18 main_v100 (broadcastInDim S16 ![] bcast_S_S16 : (⟨S_, .f32⟩ : BufTy).Contents (Elt F) → (⟨S16, .f32⟩ : BufTy).Contents (Elt F)),
    StableHlo.binary main_v100 main_v99 main_v101 (mulf : (⟨S16, .f32⟩ : BufTy).Contents (Elt F) → (⟨S16, .f32⟩ : BufTy).Contents (Elt F) → (⟨S16, .f32⟩ : BufTy).Contents (Elt F)),
    StableHlo.nullary main_cst_19 (constant S_ .f32 0x3F800000#32),
    StableHlo.unary main_cst_19 main_v102 (broadcastInDim S16 ![] bcast_S_S16 : (⟨S_, .f32⟩ : BufTy).Contents (Elt F) → (⟨S16, .f32⟩ : BufTy).Contents (Elt F)),
    StableHlo.binary main_v102 main_v101 main_v103 (subf : (⟨S16, .f32⟩ : BufTy).Contents (Elt F) → (⟨S16, .f32⟩ : BufTy).Contents (Elt F) → (⟨S16, .f32⟩ : BufTy).Contents (Elt F)),
    StableHlo.unary main_v91 main_v104 (broadcastInDim S16x1 ![0] bcast_S16_S16x1_0 : (⟨S16, .f32⟩ : BufTy).Contents (Elt F) → (⟨S16x1, .f32⟩ : BufTy).Contents (Elt F)),
    StableHlo.unary main_v96 main_v105 (broadcastInDim S16x1 ![0] bcast_S16_S16x1_0 : (⟨S16, .f32⟩ : BufTy).Contents (Elt F) → (⟨S16x1, .f32⟩ : BufTy).Contents (Elt F)),
    StableHlo.unary main_v103 main_v106 (broadcastInDim S16x1 ![0] bcast_S16_S16x1_0 : (⟨S16, .f32⟩ : BufTy).Contents (Elt F) → (⟨S16x1, .f32⟩ : BufTy).Contents (Elt F)) ]

abbrev opsF_W : List (Ref sig .tc) := [main_cst_18, main_v100, main_v101, main_cst_19, main_v102, main_v103, main_v104, main_v105, main_v106]

abbrev opsG : List (HloOp τ sig (Elt F)) :=
  [ StableHlo.nary ![main_v104, main_v105, main_v106] main_v107 (fun u => concatenate S16x3 1 [⟨S16x1, u 0⟩, ⟨S16x1, u 1⟩, ⟨S16x1, u 2⟩] concatenates_S16x1_S16x1_S16x1_S16x3_d1),
    StableHlo.unary main_v65 main_v108 (broadcastInDim S16x1x3 ![0, 2] bcast_S16x3_S16x1x3_0_2 : (⟨S16x3, .f32⟩ : BufTy).Contents (Elt F) → (⟨S16x1x3, .f32⟩ : BufTy).Contents (Elt F)),
    StableHlo.unary main_v86 main_v109 (broadcastInDim S16x1x3 ![0, 2] bcast_S16x3_S16x1x3_0_2 : (⟨S16x3, .f32⟩ : BufTy).Contents (Elt F) → (⟨S16x1x3, .f32⟩ : BufTy).Contents (Elt F)),
    StableHlo.unary main_v107 main_v110 (broadcastInDim S16x1x3 ![0, 2] bcast_S16x3_S16x1x3_0_2 : (⟨S16x3, .f32⟩ : BufTy).Contents (Elt F) → (⟨S16x1x3, .f32⟩ : BufTy).Contents (Elt F)) ]

abbrev opsG_W : List (Ref sig .tc) := [main_v107, main_v108, main_v109, main_v110]

set_option maxHeartbeats 2000000 in

abbrev opsH : List (HloOp τ sig (Elt F)) :=
  [ StableHlo.nary ![main_v108, main_v109, main_v110] main_v111 (fun u => concatenate S16x3x3 1 [⟨S16x1x3, u 0⟩, ⟨S16x1x3, u 1⟩, ⟨S16x1x3, u 2⟩] concatenates_S16x1x3_S16x1x3_S16x1x3_S16x3x3_d1),
    StableHlo.binary main_v28 main_v111 main_v112 ((fun l r => Host.dotGeneral dot_S16x6000x3_S16x3x3_S16x6000x3_2_2_1_1_0_0 none l r) : (⟨S16x6000x3, .f32⟩ : BufTy).Contents (Elt F) → (⟨S16x3x3, .f32⟩ : BufTy).Contents (Elt F) → (⟨S16x6000x3, .f32⟩ : BufTy).Contents (Elt F)),
    StableHlo.unary main_v29 main_v113 (broadcastInDim S16x1x1 ![0, 1] bcast_S16x1_S16x1x1_0_1 : (⟨S16x1, .f32⟩ : BufTy).Contents (Elt F) → (⟨S16x1x1, .f32⟩ : BufTy).Contents (Elt F)),
    StableHlo.unary main_v112 main_v114 ((extractStridedSlice S16x6000x2 ![0, 0, 0] · slices_S16x6000x3_S16x6000x2_0_0_0) : (⟨S16x6000x3, .f32⟩ : BufTy).Contents (Elt F) → (⟨S16x6000x2, .f32⟩ : BufTy).Contents (Elt F)),
    StableHlo.unary main_v113 main_v115 (broadcastInDim S16x6000x2 ![0, 1, 2] bcast_S16x1x1_S16x6000x2_0_1_2 : (⟨S16x1x1, .f32⟩ : BufTy).Contents (Elt F) → (⟨S16x6000x2, .f32⟩ : BufTy).Contents (Elt F)),
    StableHlo.binary main_v115 main_v114 main_v116 (mulf : (⟨S16x6000x2, .f32⟩ : BufTy).Contents (Elt F) → (⟨S16x6000x2, .f32⟩ : BufTy).Contents (Elt F) → (⟨S16x6000x2, .f32⟩ : BufTy).Contents (Elt F)),
    StableHlo.unary main_v30 main_v117 (broadcastInDim S16x1x2 ![0, 2] bcast_S16x2_S16x1x2_0_2 : (⟨S16x2, .f32⟩ : BufTy).Contents (Elt F) → (⟨S16x1x2, .f32⟩ : BufTy).Contents (Elt F)),
    StableHlo.unary main_v117 main_v118 (broadcastInDim S16x6000x2 ![0, 1, 2] bcast_S16x1x2_S16x6000x2_0_1_2 : (⟨S16x1x2, .f32⟩ : BufTy).Contents (Elt F) → (⟨S16x6000x2, .f32⟩ : BufTy).Contents (Elt F)),
    StableHlo.binary main_v116 main_v118 main_v119 (addf : (⟨S16x6000x2, .f32⟩ : BufTy).Contents (Elt F) → (⟨S16x6000x2, .f32⟩ : BufTy).Contents (Elt F) → (⟨S16x6000x2, .f32⟩ : BufTy).Contents (Elt F)),
    StableHlo.unary main_v119 main_v120 ((extractStridedSlice S16x2000x2 ![0, 0, 0] · slices_S16x6000x2_S16x2000x2_0_0_0) : (⟨S16x6000x2, .f32⟩ : BufTy).Contents (Elt F) → (⟨S16x2000x2, .f32⟩ : BufTy).Contents (Elt F)),
    StableHlo.binary main_v120 main_v120 main_v121 (mulf : (⟨S16x2000x2, .f32⟩ : BufTy).Contents (Elt F) → (⟨S16x2000x2, .f32⟩ : BufTy).Contents (Elt F) → (⟨S16x2000x2, .f32⟩ : BufTy).Contents (Elt F)),
    StableHlo.nullary main_cst_20 (constant S_ .f32 0x00000000#32),
    StableHlo.binary main_v121 main_cst_20 main_v122 ((fun x v => Host.reduceAdd x v reducesTo_S16x2000x2_S16x2000_d2 h_S_) : (⟨S16x2000x2, .f32⟩ : BufTy).Contents (Elt F) → (⟨S_, .f32⟩ : BufTy).Contents (Elt F) → (⟨S16x2000, .f32⟩ : BufTy).Contents (Elt F)),
    StableHlo.binary main_arg0 main_arg0 main_v123 (mulf : (⟨S16x2048x2, .f32⟩ : BufTy).Contents (Elt F) → (⟨S16x2048x2, .f32⟩ : BufTy).Contents (Elt F) → (⟨S16x2048x2, .f32⟩ : BufTy).Contents (Elt F)),
    StableHlo.nullary main_cst_21 (constant S_ .f32 0x00000000#32),
    StableHlo.binary main_v123 main_cst_21 main_v124 ((fun x v => Host.reduceAdd x v reducesTo_S16x2048x2_S16x2048_d2 h_S_) : (⟨S16x2048x2, .f32⟩ : BufTy).Contents (Elt F) → (⟨S_, .f32⟩ : BufTy).Contents (Elt F) → (⟨S16x2048, .f32⟩ : BufTy).Contents (Elt F)),
    StableHlo.binary main_v120 main_arg0 main_v125 ((fun l r => Host.dotGeneral dot_S16x2000x2_S16x2048x2_S16x2000x2048_2_2_1_1_0_0 none l r) : (⟨S16x2000x2, .f32⟩ : BufTy).Contents (Elt F) → (⟨S16x2048x2, .f32⟩ : BufTy).Contents (Elt F) → (⟨S16x2000x2048, .f32⟩ : BufTy).Contents (Elt F)),
    StableHlo.unary main_v122 main_v126 (broadcastInDim S16x2000x1 ![0, 1] bcast_S16x2000_S16x2000x1_0_1 : (⟨S16x2000, .f32⟩ : BufTy).Contents (Elt F) → (⟨S16x2000x1, .f32⟩ : BufTy).Contents (Elt F)),
    StableHlo.unary main_v124 main_v127 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v126 main_v128 (broadcastInDim S16x2000x2048 ![0, 1, 2] bcast_S16x2000x1_S16x2000x2048_0_1_2 : (⟨S16x2000x1, .f32⟩ : BufTy).Contents (Elt F) → (⟨S16x2000x2048, .f32⟩ : BufTy).Contents (Elt F)),
    StableHlo.unary main_v127 main_v129 (broadcastInDim S16x2000x2048 ![0, 1, 2] bcast_S16x1x2048_S16x2000x2048_0_1_2 : (⟨S16x1x2048, .f32⟩ : BufTy).Contents (Elt F) → (⟨S16x2000x2048, .f32⟩ : BufTy).Contents (Elt F)),
    StableHlo.binary main_v128 main_v129 main_v130 (addf : (⟨S16x2000x2048, .f32⟩ : BufTy).Contents (Elt F) → (⟨S16x2000x2048, .f32⟩ : BufTy).Contents (Elt F) → (⟨S16x2000x2048, .f32⟩ : BufTy).Contents (Elt F)),
    StableHlo.nullary main_cst_22 (constant S_ .f32 0x40000000#32),
    StableHlo.unary main_cst_22 main_v131 (broadcastInDim S16x2000x2048 ![] bcast_S_S16x2000x2048 : (⟨S_, .f32⟩ : BufTy).Contents (Elt F) → (⟨S16x2000x2048, .f32⟩ : BufTy).Contents (Elt F)),
    StableHlo.binary main_v131 main_v125 main_v132 (mulf : (⟨S16x2000x2048, .f32⟩ : BufTy).Contents (Elt F) → (⟨S16x2000x2048, .f32⟩ : BufTy).Contents (Elt F) → (⟨S16x2000x2048, .f32⟩ : BufTy).Contents (Elt F)),
    StableHlo.binary main_v130 main_v132 main_v133 (subf : (⟨S16x2000x2048, .f32⟩ : BufTy).Contents (Elt F) → (⟨S16x2000x2048, .f32⟩ : BufTy).Contents (Elt F) → (⟨S16x2000x2048, .f32⟩ : BufTy).Contents (Elt F)),
    StableHlo.nullary main_cst_23 (constant S_ .f32 0x7F800000#32),
    StableHlo.binary main_v133 main_cst_23 main_v134 ((fun x v => Host.reduce FloatOps.minimumf x v reducesTo_S16x2000x2048_S16x2000_d2 h_S_) : (⟨S16x2000x2048, .f32⟩ : BufTy).Contents (Elt F) → (⟨S_, .f32⟩ : BufTy).Contents (Elt F) → (⟨S16x2000, .f32⟩ : BufTy).Contents (Elt F)),
    StableHlo.unary main_cst main_v135 ((extractStridedSlice S1 ![0] · slices_S4_S1_0) : (⟨S4, .f32⟩ : BufTy).Contents (Elt F) → (⟨S1, .f32⟩ : BufTy).Contents (Elt F)),
    StableHlo.reshape main_v135 main_v136 rfl shapeCasts_S1_S_,
    StableHlo.unary main_v136 main_v137 (broadcastInDim S16x2000 ![] bcast_S_S16x2000 : (⟨S_, .f32⟩ : BufTy).Contents (Elt F) → (⟨S16x2000, .f32⟩ : BufTy).Contents (Elt F)),
    StableHlo.binary main_v134 main_v137 main_v138 (mulf : (⟨S16x2000, .f32⟩ : BufTy).Contents (Elt F) → (⟨S16x2000, .f32⟩ : BufTy).Contents (Elt F) → (⟨S16x2000, .f32⟩ : BufTy).Contents (Elt F)),
    StableHlo.unary main_v119 main_v139 ((extractStridedSlice S16x2000x2 ![0, 2000, 0] · slices_S16x6000x2_S16x2000x2_0_2000_0) : (⟨S16x6000x2, .f32⟩ : BufTy).Contents (Elt F) → (⟨S16x2000x2, .f32⟩ : BufTy).Contents (Elt F)),
    StableHlo.binary main_v139 main_v139 main_v140 (mulf : (⟨S16x2000x2, .f32⟩ : BufTy).Contents (Elt F) → (⟨S16x2000x2, .f32⟩ : BufTy).Contents (Elt F) → (⟨S16x2000x2, .f32⟩ : BufTy).Contents (Elt F)),
    StableHlo.nullary main_cst_24 (constant S_ .f32 0x00000000#32),
    StableHlo.binary main_v140 main_cst_24 main_v141 ((fun x v => Host.reduceAdd x v reducesTo_S16x2000x2_S16x2000_d2 h_S_) : (⟨S16x2000x2, .f32⟩ : BufTy).Contents (Elt F) → (⟨S_, .f32⟩ : BufTy).Contents (Elt F) → (⟨S16x2000, .f32⟩ : BufTy).Contents (Elt F)),
    StableHlo.binary main_arg1 main_arg1 main_v142 (mulf : (⟨S16x2048x2, .f32⟩ : BufTy).Contents (Elt F) → (⟨S16x2048x2, .f32⟩ : BufTy).Contents (Elt F) → (⟨S16x2048x2, .f32⟩ : BufTy).Contents (Elt F)),
    StableHlo.nullary main_cst_25 (constant S_ .f32 0x00000000#32),
    StableHlo.binary main_v142 main_cst_25 main_v143 ((fun x v => Host.reduceAdd x v reducesTo_S16x2048x2_S16x2048_d2 h_S_) : (⟨S16x2048x2, .f32⟩ : BufTy).Contents (Elt F) → (⟨S_, .f32⟩ : BufTy).Contents (Elt F) → (⟨S16x2048, .f32⟩ : BufTy).Contents (Elt F)),
    StableHlo.binary main_v139 main_arg1 main_v144 ((fun l r => Host.dotGeneral dot_S16x2000x2_S16x2048x2_S16x2000x2048_2_2_1_1_0_0 none l r) : (⟨S16x2000x2, .f32⟩ : BufTy).Contents (Elt F) → (⟨S16x2048x2, .f32⟩ : BufTy).Contents (Elt F) → (⟨S16x2000x2048, .f32⟩ : BufTy).Contents (Elt F)),
    StableHlo.unary main_v141 main_v145 (broadcastInDim S16x2000x1 ![0, 1] bcast_S16x2000_S16x2000x1_0_1 : (⟨S16x2000, .f32⟩ : BufTy).Contents (Elt F) → (⟨S16x2000x1, .f32⟩ : BufTy).Contents (Elt F)),
    StableHlo.unary main_v143 main_v146 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v145 main_v147 (broadcastInDim S16x2000x2048 ![0, 1, 2] bcast_S16x2000x1_S16x2000x2048_0_1_2 : (⟨S16x2000x1, .f32⟩ : BufTy).Contents (Elt F) → (⟨S16x2000x2048, .f32⟩ : BufTy).Contents (Elt F)),
    StableHlo.unary main_v146 main_v148 (broadcastInDim S16x2000x2048 ![0, 1, 2] bcast_S16x1x2048_S16x2000x2048_0_1_2 : (⟨S16x1x2048, .f32⟩ : BufTy).Contents (Elt F) → (⟨S16x2000x2048, .f32⟩ : BufTy).Contents (Elt F)),
    StableHlo.binary main_v147 main_v148 main_v149 (addf : (⟨S16x2000x2048, .f32⟩ : BufTy).Contents (Elt F) → (⟨S16x2000x2048, .f32⟩ : BufTy).Contents (Elt F) → (⟨S16x2000x2048, .f32⟩ : BufTy).Contents (Elt F)),
    StableHlo.nullary main_cst_26 (constant S_ .f32 0x40000000#32),
    StableHlo.unary main_cst_26 main_v150 (broadcastInDim S16x2000x2048 ![] bcast_S_S16x2000x2048 : (⟨S_, .f32⟩ : BufTy).Contents (Elt F) → (⟨S16x2000x2048, .f32⟩ : BufTy).Contents (Elt F)) ]

abbrev opsH_W : List (Ref sig .tc) := [main_v111, main_v112, main_v113, main_v114, main_v115, main_v116, main_v117, main_v118, main_v119, main_v120, main_v121, main_cst_20, main_v122, main_v123, main_cst_21, main_v124, main_v125, main_v126, main_v127, main_v128, main_v129, main_v130, main_cst_22, main_v131, main_v132, main_v133, main_cst_23, main_v134, main_v135, main_v136, main_v137, main_v138, main_v139, main_v140, main_cst_24, main_v141, main_v142, main_cst_25, main_v143, main_v144, main_v145, main_v146, main_v147, main_v148, main_v149, main_cst_26, main_v150]

set_option maxHeartbeats 2000000 in

abbrev opsI : List (HloOp τ sig (Elt F)) :=
  [ StableHlo.binary main_v150 main_v144 main_v151 (mulf : (⟨S16x2000x2048, .f32⟩ : BufTy).Contents (Elt F) → (⟨S16x2000x2048, .f32⟩ : BufTy).Contents (Elt F) → (⟨S16x2000x2048, .f32⟩ : BufTy).Contents (Elt F)),
    StableHlo.binary main_v149 main_v151 main_v152 (subf : (⟨S16x2000x2048, .f32⟩ : BufTy).Contents (Elt F) → (⟨S16x2000x2048, .f32⟩ : BufTy).Contents (Elt F) → (⟨S16x2000x2048, .f32⟩ : BufTy).Contents (Elt F)),
    StableHlo.nullary main_cst_27 (constant S_ .f32 0x7F800000#32),
    StableHlo.binary main_v152 main_cst_27 main_v153 ((fun x v => Host.reduce FloatOps.minimumf x v reducesTo_S16x2000x2048_S16x2000_d2 h_S_) : (⟨S16x2000x2048, .f32⟩ : BufTy).Contents (Elt F) → (⟨S_, .f32⟩ : BufTy).Contents (Elt F) → (⟨S16x2000, .f32⟩ : BufTy).Contents (Elt F)),
    StableHlo.unary main_cst main_v154 ((extractStridedSlice S1 ![1] · slices_S4_S1_1) : (⟨S4, .f32⟩ : BufTy).Contents (Elt F) → (⟨S1, .f32⟩ : BufTy).Contents (Elt F)),
    StableHlo.reshape main_v154 main_v155 rfl shapeCasts_S1_S_,
    StableHlo.unary main_v155 main_v156 (broadcastInDim S16x2000 ![] bcast_S_S16x2000 : (⟨S_, .f32⟩ : BufTy).Contents (Elt F) → (⟨S16x2000, .f32⟩ : BufTy).Contents (Elt F)),
    StableHlo.binary main_v153 main_v156 main_v157 (mulf : (⟨S16x2000, .f32⟩ : BufTy).Contents (Elt F) → (⟨S16x2000, .f32⟩ : BufTy).Contents (Elt F) → (⟨S16x2000, .f32⟩ : BufTy).Contents (Elt F)),
    StableHlo.unary main_v119 main_v158 ((extractStridedSlice S16x1000x2 ![0, 4000, 0] · slices_S16x6000x2_S16x1000x2_0_4000_0) : (⟨S16x6000x2, .f32⟩ : BufTy).Contents (Elt F) → (⟨S16x1000x2, .f32⟩ : BufTy).Contents (Elt F)),
    StableHlo.binary main_v158 main_v158 main_v159 (mulf : (⟨S16x1000x2, .f32⟩ : BufTy).Contents (Elt F) → (⟨S16x1000x2, .f32⟩ : BufTy).Contents (Elt F) → (⟨S16x1000x2, .f32⟩ : BufTy).Contents (Elt F)),
    StableHlo.nullary main_cst_28 (constant S_ .f32 0x00000000#32),
    StableHlo.binary main_v159 main_cst_28 main_v160 ((fun x v => Host.reduceAdd x v reducesTo_S16x1000x2_S16x1000_d2 h_S_) : (⟨S16x1000x2, .f32⟩ : BufTy).Contents (Elt F) → (⟨S_, .f32⟩ : BufTy).Contents (Elt F) → (⟨S16x1000, .f32⟩ : BufTy).Contents (Elt F)),
    StableHlo.binary main_arg2 main_arg2 main_v161 (mulf : (⟨S16x2048x2, .f32⟩ : BufTy).Contents (Elt F) → (⟨S16x2048x2, .f32⟩ : BufTy).Contents (Elt F) → (⟨S16x2048x2, .f32⟩ : BufTy).Contents (Elt F)),
    StableHlo.nullary main_cst_29 (constant S_ .f32 0x00000000#32),
    StableHlo.binary main_v161 main_cst_29 main_v162 ((fun x v => Host.reduceAdd x v reducesTo_S16x2048x2_S16x2048_d2 h_S_) : (⟨S16x2048x2, .f32⟩ : BufTy).Contents (Elt F) → (⟨S_, .f32⟩ : BufTy).Contents (Elt F) → (⟨S16x2048, .f32⟩ : BufTy).Contents (Elt F)),
    StableHlo.binary main_v158 main_arg2 main_v163 ((fun l r => Host.dotGeneral dot_S16x1000x2_S16x2048x2_S16x1000x2048_2_2_1_1_0_0 none l r) : (⟨S16x1000x2, .f32⟩ : BufTy).Contents (Elt F) → (⟨S16x2048x2, .f32⟩ : BufTy).Contents (Elt F) → (⟨S16x1000x2048, .f32⟩ : BufTy).Contents (Elt F)),
    StableHlo.unary main_v160 main_v164 (broadcastInDim S16x1000x1 ![0, 1] bcast_S16x1000_S16x1000x1_0_1 : (⟨S16x1000, .f32⟩ : BufTy).Contents (Elt F) → (⟨S16x1000x1, .f32⟩ : BufTy).Contents (Elt F)),
    StableHlo.unary main_v162 main_v165 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v164 main_v166 (broadcastInDim S16x1000x2048 ![0, 1, 2] bcast_S16x1000x1_S16x1000x2048_0_1_2 : (⟨S16x1000x1, .f32⟩ : BufTy).Contents (Elt F) → (⟨S16x1000x2048, .f32⟩ : BufTy).Contents (Elt F)),
    StableHlo.unary main_v165 main_v167 (broadcastInDim S16x1000x2048 ![0, 1, 2] bcast_S16x1x2048_S16x1000x2048_0_1_2 : (⟨S16x1x2048, .f32⟩ : BufTy).Contents (Elt F) → (⟨S16x1000x2048, .f32⟩ : BufTy).Contents (Elt F)),
    StableHlo.binary main_v166 main_v167 main_v168 (addf : (⟨S16x1000x2048, .f32⟩ : BufTy).Contents (Elt F) → (⟨S16x1000x2048, .f32⟩ : BufTy).Contents (Elt F) → (⟨S16x1000x2048, .f32⟩ : BufTy).Contents (Elt F)),
    StableHlo.nullary main_cst_30 (constant S_ .f32 0x40000000#32),
    StableHlo.unary main_cst_30 main_v169 (broadcastInDim S16x1000x2048 ![] bcast_S_S16x1000x2048 : (⟨S_, .f32⟩ : BufTy).Contents (Elt F) → (⟨S16x1000x2048, .f32⟩ : BufTy).Contents (Elt F)),
    StableHlo.binary main_v169 main_v163 main_v170 (mulf : (⟨S16x1000x2048, .f32⟩ : BufTy).Contents (Elt F) → (⟨S16x1000x2048, .f32⟩ : BufTy).Contents (Elt F) → (⟨S16x1000x2048, .f32⟩ : BufTy).Contents (Elt F)),
    StableHlo.binary main_v168 main_v170 main_v171 (subf : (⟨S16x1000x2048, .f32⟩ : BufTy).Contents (Elt F) → (⟨S16x1000x2048, .f32⟩ : BufTy).Contents (Elt F) → (⟨S16x1000x2048, .f32⟩ : BufTy).Contents (Elt F)),
    StableHlo.nullary main_cst_31 (constant S_ .f32 0x7F800000#32),
    StableHlo.binary main_v171 main_cst_31 main_v172 ((fun x v => Host.reduce FloatOps.minimumf x v reducesTo_S16x1000x2048_S16x1000_d2 h_S_) : (⟨S16x1000x2048, .f32⟩ : BufTy).Contents (Elt F) → (⟨S_, .f32⟩ : BufTy).Contents (Elt F) → (⟨S16x1000, .f32⟩ : BufTy).Contents (Elt F)),
    StableHlo.unary main_cst main_v173 ((extractStridedSlice S1 ![2] · slices_S4_S1_2) : (⟨S4, .f32⟩ : BufTy).Contents (Elt F) → (⟨S1, .f32⟩ : BufTy).Contents (Elt F)),
    StableHlo.reshape main_v173 main_v174 rfl shapeCasts_S1_S_,
    StableHlo.unary main_v174 main_v175 (broadcastInDim S16x1000 ![] bcast_S_S16x1000 : (⟨S_, .f32⟩ : BufTy).Contents (Elt F) → (⟨S16x1000, .f32⟩ : BufTy).Contents (Elt F)),
    StableHlo.binary main_v172 main_v175 main_v176 (mulf : (⟨S16x1000, .f32⟩ : BufTy).Contents (Elt F) → (⟨S16x1000, .f32⟩ : BufTy).Contents (Elt F) → (⟨S16x1000, .f32⟩ : BufTy).Contents (Elt F)),
    StableHlo.unary main_v119 main_v177 ((extractStridedSlice S16x1000x2 ![0, 5000, 0] · slices_S16x6000x2_S16x1000x2_0_5000_0) : (⟨S16x6000x2, .f32⟩ : BufTy).Contents (Elt F) → (⟨S16x1000x2, .f32⟩ : BufTy).Contents (Elt F)),
    StableHlo.binary main_v177 main_v177 main_v178 (mulf : (⟨S16x1000x2, .f32⟩ : BufTy).Contents (Elt F) → (⟨S16x1000x2, .f32⟩ : BufTy).Contents (Elt F) → (⟨S16x1000x2, .f32⟩ : BufTy).Contents (Elt F)),
    StableHlo.nullary main_cst_32 (constant S_ .f32 0x00000000#32),
    StableHlo.binary main_v178 main_cst_32 main_v179 ((fun x v => Host.reduceAdd x v reducesTo_S16x1000x2_S16x1000_d2 h_S_) : (⟨S16x1000x2, .f32⟩ : BufTy).Contents (Elt F) → (⟨S_, .f32⟩ : BufTy).Contents (Elt F) → (⟨S16x1000, .f32⟩ : BufTy).Contents (Elt F)),
    StableHlo.binary main_arg3 main_arg3 main_v180 (mulf : (⟨S16x2048x2, .f32⟩ : BufTy).Contents (Elt F) → (⟨S16x2048x2, .f32⟩ : BufTy).Contents (Elt F) → (⟨S16x2048x2, .f32⟩ : BufTy).Contents (Elt F)),
    StableHlo.nullary main_cst_33 (constant S_ .f32 0x00000000#32),
    StableHlo.binary main_v180 main_cst_33 main_v181 ((fun x v => Host.reduceAdd x v reducesTo_S16x2048x2_S16x2048_d2 h_S_) : (⟨S16x2048x2, .f32⟩ : BufTy).Contents (Elt F) → (⟨S_, .f32⟩ : BufTy).Contents (Elt F) → (⟨S16x2048, .f32⟩ : BufTy).Contents (Elt F)),
    StableHlo.binary main_v177 main_arg3 main_v182 ((fun l r => Host.dotGeneral dot_S16x1000x2_S16x2048x2_S16x1000x2048_2_2_1_1_0_0 none l r) : (⟨S16x1000x2, .f32⟩ : BufTy).Contents (Elt F) → (⟨S16x2048x2, .f32⟩ : BufTy).Contents (Elt F) → (⟨S16x1000x2048, .f32⟩ : BufTy).Contents (Elt F)),
    StableHlo.unary main_v179 main_v183 (broadcastInDim S16x1000x1 ![0, 1] bcast_S16x1000_S16x1000x1_0_1 : (⟨S16x1000, .f32⟩ : BufTy).Contents (Elt F) → (⟨S16x1000x1, .f32⟩ : BufTy).Contents (Elt F)),
    StableHlo.unary main_v181 main_v184 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v183 main_v185 (broadcastInDim S16x1000x2048 ![0, 1, 2] bcast_S16x1000x1_S16x1000x2048_0_1_2 : (⟨S16x1000x1, .f32⟩ : BufTy).Contents (Elt F) → (⟨S16x1000x2048, .f32⟩ : BufTy).Contents (Elt F)),
    StableHlo.unary main_v184 main_v186 (broadcastInDim S16x1000x2048 ![0, 1, 2] bcast_S16x1x2048_S16x1000x2048_0_1_2 : (⟨S16x1x2048, .f32⟩ : BufTy).Contents (Elt F) → (⟨S16x1000x2048, .f32⟩ : BufTy).Contents (Elt F)),
    StableHlo.binary main_v185 main_v186 main_v187 (addf : (⟨S16x1000x2048, .f32⟩ : BufTy).Contents (Elt F) → (⟨S16x1000x2048, .f32⟩ : BufTy).Contents (Elt F) → (⟨S16x1000x2048, .f32⟩ : BufTy).Contents (Elt F)),
    StableHlo.nullary main_cst_34 (constant S_ .f32 0x40000000#32),
    StableHlo.unary main_cst_34 main_v188 (broadcastInDim S16x1000x2048 ![] bcast_S_S16x1000x2048 : (⟨S_, .f32⟩ : BufTy).Contents (Elt F) → (⟨S16x1000x2048, .f32⟩ : BufTy).Contents (Elt F)),
    StableHlo.binary main_v188 main_v182 main_v189 (mulf : (⟨S16x1000x2048, .f32⟩ : BufTy).Contents (Elt F) → (⟨S16x1000x2048, .f32⟩ : BufTy).Contents (Elt F) → (⟨S16x1000x2048, .f32⟩ : BufTy).Contents (Elt F)),
    StableHlo.binary main_v187 main_v189 main_v190 (subf : (⟨S16x1000x2048, .f32⟩ : BufTy).Contents (Elt F) → (⟨S16x1000x2048, .f32⟩ : BufTy).Contents (Elt F) → (⟨S16x1000x2048, .f32⟩ : BufTy).Contents (Elt F)),
    StableHlo.nullary main_cst_35 (constant S_ .f32 0x7F800000#32),
    StableHlo.binary main_v190 main_cst_35 main_v191 ((fun x v => Host.reduce FloatOps.minimumf x v reducesTo_S16x1000x2048_S16x1000_d2 h_S_) : (⟨S16x1000x2048, .f32⟩ : BufTy).Contents (Elt F) → (⟨S_, .f32⟩ : BufTy).Contents (Elt F) → (⟨S16x1000, .f32⟩ : BufTy).Contents (Elt F)),
    StableHlo.unary main_cst main_v192 ((extractStridedSlice S1 ![3] · slices_S4_S1_3) : (⟨S4, .f32⟩ : BufTy).Contents (Elt F) → (⟨S1, .f32⟩ : BufTy).Contents (Elt F)),
    StableHlo.reshape main_v192 main_v193 rfl shapeCasts_S1_S_,
    StableHlo.unary main_v193 main_v194 (broadcastInDim S16x1000 ![] bcast_S_S16x1000 : (⟨S_, .f32⟩ : BufTy).Contents (Elt F) → (⟨S16x1000, .f32⟩ : BufTy).Contents (Elt F)),
    StableHlo.binary main_v191 main_v194 main_v195 (mulf : (⟨S16x1000, .f32⟩ : BufTy).Contents (Elt F) → (⟨S16x1000, .f32⟩ : BufTy).Contents (Elt F) → (⟨S16x1000, .f32⟩ : BufTy).Contents (Elt F)) ]

abbrev opsI_W : List (Ref sig .tc) := [main_v151, main_v152, main_cst_27, main_v153, main_v154, main_v155, main_v156, main_v157, main_v158, main_v159, main_cst_28, main_v160, main_v161, main_cst_29, main_v162, main_v163, main_v164, main_v165, main_v166, main_v167, main_v168, main_cst_30, main_v169, main_v170, main_v171, main_cst_31, main_v172, main_v173, main_v174, main_v175, main_v176, main_v177, main_v178, main_cst_32, main_v179, main_v180, main_cst_33, main_v181, main_v182, main_v183, main_v184, main_v185, main_v186, main_v187, main_cst_34, main_v188, main_v189, main_v190, main_cst_35, main_v191, main_v192, main_v193, main_v194, main_v195]

abbrev opsJ : List (HloOp τ sig (Elt F)) :=
  [ StableHlo.nary ![main_v138, main_v157, main_v176, main_v195] main_v196 (fun u => concatenate S16x6000 1 [⟨S16x2000, u 0⟩, ⟨S16x2000, u 1⟩, ⟨S16x1000, u 2⟩, ⟨S16x1000, u 3⟩] concatenates_S16x2000_S16x2000_S16x1000_S16x1000_S16x6000_d1),
    StableHlo.nullary main_cst_36 (constant S_ .f32 0x00000000#32),
    StableHlo.binary main_v196 main_cst_36 main_v197 ((fun x v => Host.reduceAdd x v reducesTo_S16x6000_S16_d1 h_S_) : (⟨S16x6000, .f32⟩ : BufTy).Contents (Elt F) → (⟨S_, .f32⟩ : BufTy).Contents (Elt F) → (⟨S16, .f32⟩ : BufTy).Contents (Elt F)),
    StableHlo.nullary main_cst_37 (constant S_ .f32 0x45BB8000#32),
    StableHlo.unary main_cst_37 main_v198 (broadcastInDim S16 ![] bcast_S_S16 : (⟨S_, .f32⟩ : BufTy).Contents (Elt F) → (⟨S16, .f32⟩ : BufTy).Contents (Elt F)),
    StableHlo.binary main_v197 main_v198 main_v199 (Host.divf : (⟨S16, .f32⟩ : BufTy).Contents (Elt F) → (⟨S16, .f32⟩ : BufTy).Contents (Elt F) → (⟨S16, .f32⟩ : BufTy).Contents (Elt F)) ]

abbrev opsJ_W : List (Ref sig .tc) := [main_v196, main_cst_36, main_v197, main_cst_37, main_v198, main_v199]

abbrev opsK : List (HloOp τ sig (Elt F)) :=
  [ StableHlo.nullary main_cst_38 (constant S_ .f32 0x00000000#32),
    StableHlo.binary main_v199 main_cst_38 main_v200 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_39 (constant S_ .f32 0x41800000#32),
    StableHlo.binary main_v200 main_cst_39 main_v201 (Host.divf : (⟨S_, .f32⟩ : BufTy).Contents (Elt F) → (⟨S_, .f32⟩ : BufTy).Contents (Elt F) → (⟨S_, .f32⟩ : BufTy).Contents (Elt F)) ]

abbrev opsK_W : List (Ref sig .tc) := [main_cst_38, main_v200, main_cst_39, main_v201]

abbrev ops : List (HloOp τ sig (Elt F)) := opsA ++ opsB ++ opsC ++ opsD ++ opsE ++ opsF ++ opsG ++ opsH ++ opsI ++ opsJ ++ opsK

abbrev Y (m : (ℓ : Loc nD τ sig) → Buf (Elt F) ℓ) (c : Dev nD) : Valuation τ sig (Elt F) :=
  StableHlo.after ops (fun b => m (c, b))

theorem main_part0_eq (c : Dev nD) : main_part0 (F := F) c = seq (opsA ++ opsB) := rfl
theorem main_part1_eq (c : Dev nD) : main_part1 (F := F) c = seq (opsC ++ opsD ++ opsE) := rfl
theorem main_part2_eq (c : Dev nD) : main_part2 (F := F) c = seq (opsF ++ opsG ++ opsH) := rfl
theorem main_part3_eq (c : Dev nD) : main_part3 (F := F) c = seq (opsI ++ opsJ) := rfl
theorem main_part4_eq (c : Dev nD) : main_part4 (F := F) c = seq opsK := rfl

theorem ops_windows :
    (ops : List (HloOp τ sig (Elt F)))
      = (opsA ++ opsB) ++ ((opsC ++ opsD ++ opsE) ++ ((opsF ++ opsG ++ opsH) ++ ((opsI ++ opsJ) ++ opsK))) := by
  simp only [ops, List.append_assoc]

theorem main_eq (c : Dev nD) : main (F := F) c = seq ops := by
  rw [ops_windows, seq_append (opsA ++ opsB), seq_append (opsC ++ opsD ++ opsE), seq_append (opsF ++ opsG ++ opsH),
    seq_append (opsI ++ opsJ), ← main_part0_eq c, ← main_part1_eq c, ← main_part2_eq c, ← main_part3_eq c,
    ← main_part4_eq c]
  rfl

end Cert.ReferenceIdeal.Hand

end
-- ==== Proof.Ref.Run.lean ====
import proofs.«423449_j63771674411371_3_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem writes_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

theorem opsA_sub : (opsA : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩
set_option maxHeartbeats 2000000 in

theorem opsA_writes : (opsA : List (HloOp τ sig (Elt F))).Forall fun op =>
    op.writes ⊆ (opsA_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide)⟩

theorem opsB_sub : (opsB : List (HloOp τ sig (Elt F))).Forall fun op => op.bufs ⊆ tcRefs τ sig :=
  ⟨nary_bufs_sub .., unary_bufs_sub .., unary_bufs_sub .., unary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., reshape_bufs_sub .., unary_bufs_sub .., reshape_bufs_sub ..,
    unary_bufs_sub .., reshape_bufs_sub .., unary_bufs_sub .., reshape_bufs_sub .., binary_bufs_sub .., binary_bufs_sub ..,
    binary_bufs_sub .., nullary_bufs_sub .., unary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
set_option maxHeartbeats 2000000 in

theorem opsB_writes : (opsB : List (HloOp τ sig (Elt F))).Forall fun op =>
    op.writes ⊆ (opsB_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide)⟩

theorem opsC_sub : (opsC : List (HloOp τ sig (Elt F))).Forall fun op => op.bufs ⊆ tcRefs τ sig :=
  ⟨binary_bufs_sub .., nullary_bufs_sub .., unary_bufs_sub .., binary_bufs_sub .., binary_bufs_sub .., binary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., unary_bufs_sub .., unary_bufs_sub ..,
    unary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsC_writes : (opsC : List (HloOp τ sig (Elt F))).Forall fun op =>
    op.writes ⊆ (opsC_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide)⟩

theorem opsD_sub : (opsD : List (HloOp τ sig (Elt F))).Forall fun op => op.bufs ⊆ tcRefs τ sig :=
  ⟨nary_bufs_sub .., binary_bufs_sub .., binary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., unary_bufs_sub .., unary_bufs_sub ..,
    unary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩
set_option maxHeartbeats 2000000 in

theorem opsD_writes : (opsD : List (HloOp τ sig (Elt F))).Forall fun op =>
    op.writes ⊆ (opsD_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide)⟩

theorem opsE_sub : (opsE : List (HloOp τ sig (Elt F))).Forall fun op => op.bufs ⊆ tcRefs τ sig :=
  ⟨nary_bufs_sub .., binary_bufs_sub .., binary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., binary_bufs_sub .., binary_bufs_sub .., binary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl⟩

theorem opsE_writes : (opsE : List (HloOp τ sig (Elt F))).Forall fun op =>
    op.writes ⊆ (opsE_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide)⟩

theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., unary_bufs_sub ..⟩

theorem opsF_fresh : (opsF : List (HloOp τ sig (Elt F))).Forall fun op => op.fresh = ∅ :=
  ⟨rfl, rfl, rfl, rfl, rfl, rfl, rfl, rfl, rfl⟩

theorem opsF_writes : (opsF : List (HloOp τ sig (Elt F))).Forall fun op =>
    op.writes ⊆ (opsF_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide)⟩

theorem opsG_sub : (opsG : List (HloOp τ sig (Elt F))).Forall fun op => op.bufs ⊆ tcRefs τ sig :=
  ⟨nary_bufs_sub .., unary_bufs_sub .., unary_bufs_sub .., unary_bufs_sub ..⟩

theorem opsG_fresh : (opsG : List (HloOp τ sig (Elt F))).Forall fun op => op.fresh = ∅ :=
  ⟨rfl, rfl, rfl, rfl⟩

theorem opsG_writes : (opsG : List (HloOp τ sig (Elt F))).Forall fun op =>
    op.writes ⊆ (opsG_W.map (Proc.devRef (τ := τ) .tc)).toFinset := by
  simp only [List.Forall]
  exact ⟨writes_mem rfl (by decide), writes_mem rfl (by decide), writes_mem rfl (by decide), writes_mem rfl (by decide)⟩

theorem opsH_sub : (opsH : List (HloOp τ sig (Elt F))).Forall fun op => op.bufs ⊆ tcRefs τ sig :=
  ⟨nary_bufs_sub .., binary_bufs_sub .., unary_bufs_sub .., unary_bufs_sub .., unary_bufs_sub .., binary_bufs_sub ..,
    unary_bufs_sub .., unary_bufs_sub .., binary_bufs_sub .., unary_bufs_sub .., binary_bufs_sub .., nullary_bufs_sub ..,
    binary_bufs_sub .., binary_bufs_sub .., nullary_bufs_sub .., binary_bufs_sub .., binary_bufs_sub .., unary_bufs_sub ..,
    unary_bufs_sub .., unary_bufs_sub .., unary_bufs_sub .., binary_bufs_sub .., nullary_bufs_sub .., unary_bufs_sub ..,
    binary_bufs_sub .., binary_bufs_sub .., nullary_bufs_sub .., binary_bufs_sub .., unary_bufs_sub .., reshape_bufs_sub ..,
    unary_bufs_sub .., binary_bufs_sub .., unary_bufs_sub .., binary_bufs_sub .., nullary_bufs_sub .., binary_bufs_sub ..,
    binary_bufs_sub .., nullary_bufs_sub .., binary_bufs_sub .., binary_bufs_sub .., unary_bufs_sub .., unary_bufs_sub ..,
    unary_bufs_sub .., unary_bufs_sub .., binary_bufs_sub .., nullary_bufs_sub .., unary_bufs_sub ..⟩

theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩
set_option maxHeartbeats 2000000 in

theorem opsH_writes : (opsH : List (HloOp τ sig (Elt F))).Forall fun op =>
    op.writes ⊆ (opsH_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide)⟩

theorem opsI_sub : (opsI : List (HloOp τ sig (Elt F))).Forall fun op => op.bufs ⊆ tcRefs τ sig :=
  ⟨binary_bufs_sub .., binary_bufs_sub .., nullary_bufs_sub .., binary_bufs_sub .., unary_bufs_sub .., reshape_bufs_sub ..,
    unary_bufs_sub .., binary_bufs_sub .., unary_bufs_sub .., binary_bufs_sub .., nullary_bufs_sub .., binary_bufs_sub ..,
    binary_bufs_sub .., nullary_bufs_sub .., binary_bufs_sub .., binary_bufs_sub .., unary_bufs_sub .., unary_bufs_sub ..,
    unary_bufs_sub .., unary_bufs_sub .., binary_bufs_sub .., nullary_bufs_sub .., unary_bufs_sub .., binary_bufs_sub ..,
    binary_bufs_sub .., nullary_bufs_sub .., binary_bufs_sub .., unary_bufs_sub .., reshape_bufs_sub .., unary_bufs_sub ..,
    binary_bufs_sub .., unary_bufs_sub .., binary_bufs_sub .., nullary_bufs_sub .., binary_bufs_sub .., binary_bufs_sub ..,
    nullary_bufs_sub .., binary_bufs_sub .., binary_bufs_sub .., unary_bufs_sub .., unary_bufs_sub .., unary_bufs_sub ..,
    unary_bufs_sub .., binary_bufs_sub .., nullary_bufs_sub .., unary_bufs_sub .., binary_bufs_sub .., binary_bufs_sub ..,
    nullary_bufs_sub .., binary_bufs_sub .., unary_bufs_sub .., reshape_bufs_sub .., unary_bufs_sub .., binary_bufs_sub ..⟩

theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
set_option maxHeartbeats 2000000 in

theorem opsI_writes : (opsI : List (HloOp τ sig (Elt F))).Forall fun op =>
    op.writes ⊆ (opsI_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide)⟩

theorem opsJ_sub : (opsJ : List (HloOp τ sig (Elt F))).Forall fun op => op.bufs ⊆ tcRefs τ sig :=
  ⟨nary_bufs_sub .., nullary_bufs_sub .., binary_bufs_sub .., nullary_bufs_sub .., unary_bufs_sub .., binary_bufs_sub ..⟩

theorem opsJ_fresh : (opsJ : List (HloOp τ sig (Elt F))).Forall fun op => op.fresh = ∅ :=
  ⟨rfl, rfl, rfl, rfl, rfl, rfl⟩

theorem opsJ_writes : (opsJ : List (HloOp τ sig (Elt F))).Forall fun op =>
    op.writes ⊆ (opsJ_W.map (Proc.devRef (τ := τ) .tc)).toFinset := by
  simp only [List.Forall]
  exact ⟨writes_mem rfl (by decide), writes_mem rfl (by decide), writes_mem rfl (by decide), writes_mem rfl (by decide),
    writes_mem rfl (by decide), writes_mem rfl (by decide)⟩

theorem opsK_sub : (opsK : List (HloOp τ sig (Elt F))).Forall fun op => op.bufs ⊆ tcRefs τ sig :=
  ⟨nullary_bufs_sub .., binary_bufs_sub .., nullary_bufs_sub .., binary_bufs_sub ..⟩

theorem opsK_fresh : (opsK : List (HloOp τ sig (Elt F))).Forall fun op => op.fresh = ∅ :=
  ⟨rfl, rfl, rfl, rfl⟩

theorem opsK_writes : (opsK : List (HloOp τ sig (Elt F))).Forall fun op =>
    op.writes ⊆ (opsK_W.map (Proc.devRef (τ := τ) .tc)).toFinset := by
  simp only [List.Forall]
  exact ⟨writes_mem rfl (by decide), writes_mem rfl (by decide), writes_mem rfl (by decide), writes_mem rfl (by decide)⟩

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h,
      List.forall_iff_forall_mem.mp opsG_sub op h, List.forall_iff_forall_mem.mp opsH_sub op h,
      List.forall_iff_forall_mem.mp opsI_sub op h, List.forall_iff_forall_mem.mp opsJ_sub op h,
      List.forall_iff_forall_mem.mp opsK_sub op h]

theorem ops_fresh : ∀ op ∈ (ops : List (HloOp τ sig (Elt F))), op.fresh = ∅ := fun op h => by
  simp only [ops, List.mem_append, or_assoc] at h
  rcases h with h | h | h | h | h | h | h | h | h | h | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h, List.forall_iff_forall_mem.mp opsF_fresh op h,
    List.forall_iff_forall_mem.mp opsG_fresh op h, List.forall_iff_forall_mem.mp opsH_fresh op h,
    List.forall_iff_forall_mem.mp opsI_fresh op h, List.forall_iff_forall_mem.mp opsJ_fresh op h,
    List.forall_iff_forall_mem.mp opsK_fresh op h]

theorem keep (V : Valuation τ sig (Elt F)) (r : Ref sig .tc)
    (hA : r ∉ opsA_W) (hB : r ∉ opsB_W) (hC : r ∉ opsC_W) (hD : r ∉ opsD_W) (hE : r ∉ opsE_W) (hF : r ∉ opsF_W)
    (hG : r ∉ opsG_W) (hH : r ∉ opsH_W) (hI : r ∉ opsI_W) (hJ : r ∉ opsJ_W) (hK : r ∉ opsK_W) :
    after ops V (Proc.devRef .tc r) = V (Proc.devRef .tc r) := by
  simp only [ops, StableHlo.after_append]
  rw [after_of_writes_sub opsK _ opsK_writes hK, after_of_writes_sub opsJ _ opsJ_writes hJ,
    after_of_writes_sub opsI _ opsI_writes hI, after_of_writes_sub opsH _ opsH_writes hH,
    after_of_writes_sub opsG _ opsG_writes hG, after_of_writes_sub opsF _ opsF_writes hF,
    after_of_writes_sub opsE _ opsE_writes hE, after_of_writes_sub opsD _ opsD_writes hD,
    after_of_writes_sub opsC _ opsC_writes hC, after_of_writes_sub opsB _ opsB_writes hB,
    after_of_writes_sub opsA _ opsA_writes hA]

theorem keep_arg (V : Valuation τ sig (Elt F)) (r : Ref sig .tc)
    (h : r ∈ [main_arg0, main_arg1, main_arg2, main_arg3, main_arg4, main_arg5, main_arg6, main_arg7, main_arg8, main_arg9]) :
    after ops V (Proc.devRef .tc r) = V (Proc.devRef .tc r) := by
  simp only [List.mem_cons, List.not_mem_nil, or_false] at h
  rcases h with rfl | rfl | rfl | rfl | rfl | rfl | rfl | rfl | rfl | rfl <;>
    exact keep V _ (by decide) (by decide) (by decide) (by decide) (by decide) (by decide) (by decide) (by decide)
      (by decide) (by decide) (by decide)

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v201) = Y m c (Proc.devRef .tc main_v201)
      ∧ r.2.mem ((c.tc : Thread nD τ).loc main_v119) = Y m c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v201, h c main_v119,
      (h c main_arg0).trans (keep_arg _ main_arg0 (by decide)),
      (h c main_arg1).trans (keep_arg _ main_arg1 (by decide)),
      (h c main_arg2).trans (keep_arg _ main_arg2 (by decide)),
      (h c main_arg3).trans (keep_arg _ main_arg3 (by decide)),
      (h c main_arg4).trans (keep_arg _ main_arg4 (by decide)),
      (h c main_arg5).trans (keep_arg _ main_arg5 (by decide)),
      (h c main_arg6).trans (keep_arg _ main_arg6 (by decide)),
      (h c main_arg7).trans (keep_arg _ main_arg7 (by decide)),
      (h c main_arg8).trans (keep_arg _ main_arg8 (by decide)),
      (h c main_arg9).trans (keep_arg _ main_arg9 (by decide))⟩)
    (run_seq scopedRefs_eq scopedSems_eq defs main (fun _ => ops) main_eq (fun _ => ops_sub) m ρ (fun _ => ops_fresh))

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2) (run m ρ)

end Cert.ReferenceIdeal.Hand

end
-- ==== Proof.Ref.StageDefs.lean ====
import proofs.«423449_j63771674411371_3_alg».proof.Proof.Gen.ReferenceIdeal
import Idealize.ShloMosaic.PureOps

set_option synthInstance.maxSize 4096

noncomputable section

namespace Cert.ReferenceIdeal.Hand

open Idealize.ShloMosaic Cert.ReferenceIdeal Cert.ReferenceIdeal.Facts₀

variable {F : FTy → Type} [FloatOps F]

def gathR (verts : FVec F S16x8000x3 .f32) (i6 i7 : IVec S2000 32) (i8 i9 : IVec S1000 32) : FVec F S16x6000x3 .f32 :=
  have c : IVec S_ 32 := constantI S_ 32 0#32
  have v0 : IVec S2000 32 := broadcastInDim S2000 ![] bcast_S_S2000 c
  have v1 : IVec S2000 1 := cmpi .slt i6 v0
  have c_0 : IVec S_ 32 := constantI S_ 32 8000#32
  have v2 : IVec S2000 32 := broadcastInDim S2000 ![] bcast_S_S2000 c_0
  have v3 : IVec S2000 32 := addi i6 v2
  have v4 : IVec S2000 32 := select v1 v3 i6
  have v5 : IVec S2000x1 32 := broadcastInDim S2000x1 ![0] bcast_S2000_S2000x1_0 v4
  have v6 : FVec F S16x2000x3 .f32 := Host.gather gather_S16x8000x3_S2000x1_S16x2000x3_02_1_n_n_1_1_1613 verts v5
  have c_1 : IVec S_ 32 := constantI S_ 32 0#32
  have v7 : IVec S2000 32 := broadcastInDim S2000 ![] bcast_S_S2000 c_1
  have v8 : IVec S2000 1 := cmpi .slt i7 v7
  have c_2 : IVec S_ 32 := constantI S_ 32 8000#32
  have v9 : IVec S2000 32 := broadcastInDim S2000 ![] bcast_S_S2000 c_2
  have v10 : IVec S2000 32 := addi i7 v9
  have v11 : IVec S2000 32 := select v8 v10 i7
  have v12 : IVec S2000x1 32 := broadcastInDim S2000x1 ![0] bcast_S2000_S2000x1_0 v11
  have v13 : FVec F S16x2000x3 .f32 := Host.gather gather_S16x8000x3_S2000x1_S16x2000x3_02_1_n_n_1_1_1613 verts v12
  have c_3 : IVec S_ 32 := constantI S_ 32 0#32
  have v14 : IVec S1000 32 := broadcastInDim S1000 ![] bcast_S_S1000 c_3
  have v15 : IVec S1000 1 := cmpi .slt i8 v14
  have c_4 : IVec S_ 32 := constantI S_ 32 8000#32
  have v16 : IVec S1000 32 := broadcastInDim S1000 ![] bcast_S_S1000 c_4
  have v17 : IVec S1000 32 := addi i8 v16
  have v18 : IVec S1000 32 := select v15 v17 i8
  have v19 : IVec S1000x1 32 := broadcastInDim S1000x1 ![0] bcast_S1000_S1000x1_0 v18
  have v20 : FVec F S16x1000x3 .f32 := Host.gather gather_S16x8000x3_S1000x1_S16x1000x3_02_1_n_n_1_1_1613 verts v19
  have c_5 : IVec S_ 32 := constantI S_ 32 0#32
  have v21 : IVec S1000 32 := broadcastInDim S1000 ![] bcast_S_S1000 c_5
  have v22 : IVec S1000 1 := cmpi .slt i9 v21
  have c_6 : IVec S_ 32 := constantI S_ 32 8000#32
  have v23 : IVec S1000 32 := broadcastInDim S1000 ![] bcast_S_S1000 c_6
  have v24 : IVec S1000 32 := addi i9 v23
  have v25 : IVec S1000 32 := select v22 v24 i9
  have v26 : IVec S1000x1 32 := broadcastInDim S1000x1 ![0] bcast_S1000_S1000x1_0 v25
  have v27 : FVec F S16x1000x3 .f32 := Host.gather gather_S16x8000x3_S1000x1_S16x1000x3_02_1_n_n_1_1_1613 verts v26
  have v28 : FVec F S16x6000x3 .f32 := concatenate S16x6000x3 1 [⟨S16x2000x3, v6⟩, ⟨S16x2000x3, v13⟩, ⟨S16x1000x3, v20⟩, ⟨S16x1000x3, v27⟩] concatenates_S16x2000x3_S16x2000x3_S16x1000x3_S16x1000x3_S16x6000x3_d1
  v28

def projR (vc : FVec F S16x6000x3 .f32) (cams : FVec F S16x7 .f32) : FVec F S16x6000x2 .f32 :=
  have v29 : FVec F S16x1 .f32 := extractStridedSlice S16x1 ![0, 0] cams slices_S16x7_S16x1_0_0
  have v30 : FVec F S16x2 .f32 := extractStridedSlice S16x2 ![0, 1] cams slices_S16x7_S16x2_0_1
  have v31 : FVec F S16x4 .f32 := extractStridedSlice S16x4 ![0, 3] cams slices_S16x7_S16x4_0_3
  have call0_v0 : FVec F S16x4 .f32 := mulf v31 v31
  have call0_cst : FVec F S_ .f32 := constant (F := F) S_ .f32 0x00000000#32
  have call0_v1 : FVec F S16 .f32 := Host.reduceAdd call0_v0 call0_cst reducesTo_S16x4_S16_d1 h_S_
  have call0_v2 : FVec F S16x1 .f32 := broadcastInDim S16x1 ![0] bcast_S16_S16x1_0 call0_v1
  have v32 : FVec F S16x1 .f32 := Host.sqrt call0_v2
  have cst_7 : FVec F S_ .f32 := constant (F := F) S_ .f32 0x322BCC77#32
  have v33 : FVec F S16x1 .f32 := broadcastInDim S16x1 ![] bcast_S_S16x1 cst_7
  have v34 : FVec F S16x1 .f32 := addf v32 v33
  have v35 : FVec F S16x4 .f32 := broadcastInDim S16x4 ![0, 1] bcast_S16x1_S16x4_0_1 v34
  have v36 : FVec F S16x4 .f32 := Host.divf v31 v35
  have v37 : FVec F S16x1 .f32 := extractStridedSlice S16x1 ![0, 0] v36 slices_S16x4_S16x1_0_0
  have v38 : FVec F S16 .f32 := shapeCast S16 v37 shapeCasts_S16x1_S16
  have v39 : FVec F S16x1 .f32 := extractStridedSlice S16x1 ![0, 1] v36 slices_S16x4_S16x1_0_1
  have v40 : FVec F S16 .f32 := shapeCast S16 v39 shapeCasts_S16x1_S16
  have v41 : FVec F S16x1 .f32 := extractStridedSlice S16x1 ![0, 2] v36 slices_S16x4_S16x1_0_2
  have v42 : FVec F S16 .f32 := shapeCast S16 v41 shapeCasts_S16x1_S16
  have v43 : FVec F S16x1 .f32 := extractStridedSlice S16x1 ![0, 3] v36 slices_S16x4_S16x1_0_3
  have v44 : FVec F S16 .f32 := shapeCast S16 v43 shapeCasts_S16x1_S16
  have v45 : FVec F S16 .f32 := mulf v42 v42
  have v46 : FVec F S16 .f32 := mulf v44 v44
  have v47 : FVec F S16 .f32 := addf v45 v46
  have cst_8 : FVec F S_ .f32 := constant (F := F) S_ .f32 0x40000000#32
  have v48 : FVec F S16 .f32 := broadcastInDim S16 ![] bcast_S_S16 cst_8
  have v49 : FVec F S16 .f32 := mulf v48 v47
  have cst_9 : FVec F S_ .f32 := constant (F := F) S_ .f32 0x3F800000#32
  have v50 : FVec F S16 .f32 := broadcastInDim S16 ![] bcast_S_S16 cst_9
  have v51 : FVec F S16 .f32 := subf v50 v49
  have v52 : FVec F S16 .f32 := mulf v40 v42
  have v53 : FVec F S16 .f32 := mulf v38 v44
  have v54 : FVec F S16 .f32 := subf v52 v53
  have cst_10 : FVec F S_ .f32 := constant (F := F) S_ .f32 0x40000000#32
  have v55 : FVec F S16 .f32 := broadcastInDim S16 ![] bcast_S_S16 cst_10
  have v56 : FVec F S16 .f32 := mulf v55 v54
  have v57 : FVec F S16 .f32 := mulf v40 v44
  have v58 : FVec F S16 .f32 := mulf v38 v42
  have v59 : FVec F S16 .f32 := addf v57 v58
  have cst_11 : FVec F S_ .f32 := constant (F := F) S_ .f32 0x40000000#32
  have v60 : FVec F S16 .f32 := broadcastInDim S16 ![] bcast_S_S16 cst_11
  have v61 : FVec F S16 .f32 := mulf v60 v59
  have v62 : FVec F S16x1 .f32 := broadcastInDim S16x1 ![0] bcast_S16_S16x1_0 v51
  have v63 : FVec F S16x1 .f32 := broadcastInDim S16x1 ![0] bcast_S16_S16x1_0 v56
  have v64 : FVec F S16x1 .f32 := broadcastInDim S16x1 ![0] bcast_S16_S16x1_0 v61
  have v65 : FVec F S16x3 .f32 := concatenate S16x3 1 [⟨S16x1, v62⟩, ⟨S16x1, v63⟩, ⟨S16x1, v64⟩] concatenates_S16x1_S16x1_S16x1_S16x3_d1
  have v66 : FVec F S16 .f32 := mulf v40 v42
  have v67 : FVec F S16 .f32 := mulf v38 v44
  have v68 : FVec F S16 .f32 := addf v66 v67
  have cst_12 : FVec F S_ .f32 := constant (F := F) S_ .f32 0x40000000#32
  have v69 : FVec F S16 .f32 := broadcastInDim S16 ![] bcast_S_S16 cst_12
  have v70 : FVec F S16 .f32 := mulf v69 v68
  have v71 : FVec F S16 .f32 := mulf v40 v40
  have v72 : FVec F S16 .f32 := mulf v44 v44
  have v73 : FVec F S16 .f32 := addf v71 v72
  have cst_13 : FVec F S_ .f32 := constant (F := F) S_ .f32 0x40000000#32
  have v74 : FVec F S16 .f32 := broadcastInDim S16 ![] bcast_S_S16 cst_13
  have v75 : FVec F S16 .f32 := mulf v74 v73
  have cst_14 : FVec F S_ .f32 := constant (F := F) S_ .f32 0x3F800000#32
  have v76 : FVec F S16 .f32 := broadcastInDim S16 ![] bcast_S_S16 cst_14
  have v77 : FVec F S16 .f32 := subf v76 v75
  have v78 : FVec F S16 .f32 := mulf v42 v44
  have v79 : FVec F S16 .f32 := mulf v38 v40
  have v80 : FVec F S16 .f32 := subf v78 v79
  have cst_15 : FVec F S_ .f32 := constant (F := F) S_ .f32 0x40000000#32
  have v81 : FVec F S16 .f32 := broadcastInDim S16 ![] bcast_S_S16 cst_15
  have v82 : FVec F S16 .f32 := mulf v81 v80
  have v83 : FVec F S16x1 .f32 := broadcastInDim S16x1 ![0] bcast_S16_S16x1_0 v70
  have v84 : FVec F S16x1 .f32 := broadcastInDim S16x1 ![0] bcast_S16_S16x1_0 v77
  have v85 : FVec F S16x1 .f32 := broadcastInDim S16x1 ![0] bcast_S16_S16x1_0 v82
  have v86 : FVec F S16x3 .f32 := concatenate S16x3 1 [⟨S16x1, v83⟩, ⟨S16x1, v84⟩, ⟨S16x1, v85⟩] concatenates_S16x1_S16x1_S16x1_S16x3_d1
  have v87 : FVec F S16 .f32 := mulf v40 v44
  have v88 : FVec F S16 .f32 := mulf v38 v42
  have v89 : FVec F S16 .f32 := subf v87 v88
  have cst_16 : FVec F S_ .f32 := constant (F := F) S_ .f32 0x40000000#32
  have v90 : FVec F S16 .f32 := broadcastInDim S16 ![] bcast_S_S16 cst_16
  have v91 : FVec F S16 .f32 := mulf v90 v89
  have v92 : FVec F S16 .f32 := mulf v42 v44
  have v93 : FVec F S16 .f32 := mulf v38 v40
  have v94 : FVec F S16 .f32 := addf v92 v93
  have cst_17 : FVec F S_ .f32 := constant (F := F) S_ .f32 0x40000000#32
  have v95 : FVec F S16 .f32 := broadcastInDim S16 ![] bcast_S_S16 cst_17
  have v96 : FVec F S16 .f32 := mulf v95 v94
  have v97 : FVec F S16 .f32 := mulf v40 v40
  have v98 : FVec F S16 .f32 := mulf v42 v42
  have v99 : FVec F S16 .f32 := addf v97 v98
  have cst_18 : FVec F S_ .f32 := constant (F := F) S_ .f32 0x40000000#32
  have v100 : FVec F S16 .f32 := broadcastInDim S16 ![] bcast_S_S16 cst_18
  have v101 : FVec F S16 .f32 := mulf v100 v99
  have cst_19 : FVec F S_ .f32 := constant (F := F) S_ .f32 0x3F800000#32
  have v102 : FVec F S16 .f32 := broadcastInDim S16 ![] bcast_S_S16 cst_19
  have v103 : FVec F S16 .f32 := subf v102 v101
  have v104 : FVec F S16x1 .f32 := broadcastInDim S16x1 ![0] bcast_S16_S16x1_0 v91
  have v105 : FVec F S16x1 .f32 := broadcastInDim S16x1 ![0] bcast_S16_S16x1_0 v96
  have v106 : FVec F S16x1 .f32 := broadcastInDim S16x1 ![0] bcast_S16_S16x1_0 v103
  have v107 : FVec F S16x3 .f32 := concatenate S16x3 1 [⟨S16x1, v104⟩, ⟨S16x1, v105⟩, ⟨S16x1, v106⟩] concatenates_S16x1_S16x1_S16x1_S16x3_d1
  have v108 : FVec F S16x1x3 .f32 := broadcastInDim S16x1x3 ![0, 2] bcast_S16x3_S16x1x3_0_2 v65
  have v109 : FVec F S16x1x3 .f32 := broadcastInDim S16x1x3 ![0, 2] bcast_S16x3_S16x1x3_0_2 v86
  have v110 : FVec F S16x1x3 .f32 := broadcastInDim S16x1x3 ![0, 2] bcast_S16x3_S16x1x3_0_2 v107
  have v111 : FVec F S16x3x3 .f32 := concatenate S16x3x3 1 [⟨S16x1x3, v108⟩, ⟨S16x1x3, v109⟩, ⟨S16x1x3, v110⟩] concatenates_S16x1x3_S16x1x3_S16x1x3_S16x3x3_d1
  have v112 : FVec F S16x6000x3 .f32 := Host.dotGeneral dot_S16x6000x3_S16x3x3_S16x6000x3_2_2_1_1_0_0 none vc v111
  have v113 : FVec F S16x1x1 .f32 := broadcastInDim S16x1x1 ![0, 1] bcast_S16x1_S16x1x1_0_1 v29
  have v114 : FVec F S16x6000x2 .f32 := extractStridedSlice S16x6000x2 ![0, 0, 0] v112 slices_S16x6000x3_S16x6000x2_0_0_0
  have v115 : FVec F S16x6000x2 .f32 := broadcastInDim S16x6000x2 ![0, 1, 2] bcast_S16x1x1_S16x6000x2_0_1_2 v113
  have v116 : FVec F S16x6000x2 .f32 := mulf v115 v114
  have v117 : FVec F S16x1x2 .f32 := broadcastInDim S16x1x2 ![0, 2] bcast_S16x2_S16x1x2_0_2 v30
  have v118 : FVec F S16x6000x2 .f32 := broadcastInDim S16x6000x2 ![0, 1, 2] bcast_S16x1x2_S16x6000x2_0_1_2 v117
  have v119 : FVec F S16x6000x2 .f32 := addf v116 v118
  v119

def sl0 (v2d : FVec F S16x6000x2 .f32) : FVec F S16x2000x2 .f32 :=
  have v120 : FVec F S16x2000x2 .f32 := extractStridedSlice S16x2000x2 ![0, 0, 0] v2d slices_S16x6000x2_S16x2000x2_0_0_0
  v120

def sl1 (v2d : FVec F S16x6000x2 .f32) : FVec F S16x2000x2 .f32 :=
  have v139 : FVec F S16x2000x2 .f32 := extractStridedSlice S16x2000x2 ![0, 2000, 0] v2d slices_S16x6000x2_S16x2000x2_0_2000_0
  v139

def sl2 (v2d : FVec F S16x6000x2 .f32) : FVec F S16x1000x2 .f32 :=
  have v158 : FVec F S16x1000x2 .f32 := extractStridedSlice S16x1000x2 ![0, 4000, 0] v2d slices_S16x6000x2_S16x1000x2_0_4000_0
  v158

def sl3 (v2d : FVec F S16x6000x2 .f32) : FVec F S16x1000x2 .f32 :=
  have v177 : FVec F S16x1000x2 .f32 := extractStridedSlice S16x1000x2 ![0, 5000, 0] v2d slices_S16x6000x2_S16x1000x2_0_5000_0
  v177

def chamR2000 (x : FVec F S16x2000x2 .f32) (y : FVec F S16x2048x2 .f32) : FVec F S16x2000 .f32 :=
  have v121 : FVec F S16x2000x2 .f32 := mulf x x
  have cst_20 : FVec F S_ .f32 := constant (F := F) S_ .f32 0x00000000#32
  have v122 : FVec F S16x2000 .f32 := Host.reduceAdd v121 cst_20 reducesTo_S16x2000x2_S16x2000_d2 h_S_
  have v123 : FVec F S16x2048x2 .f32 := mulf y y
  have cst_21 : FVec F S_ .f32 := constant (F := F) S_ .f32 0x00000000#32
  have v124 : FVec F S16x2048 .f32 := Host.reduceAdd v123 cst_21 reducesTo_S16x2048x2_S16x2048_d2 h_S_
  have v125 : FVec F S16x2000x2048 .f32 := Host.dotGeneral dot_S16x2000x2_S16x2048x2_S16x2000x2048_2_2_1_1_0_0 none x y
  have v126 : FVec F S16x2000x1 .f32 := broadcastInDim S16x2000x1 ![0, 1] bcast_S16x2000_S16x2000x1_0_1 v122
  have v127 : FVec F S16x1x2048 .f32 := broadcastInDim S16x1x2048 ![0, 2] bcast_S16x2048_S16x1x2048_0_2 v124
  have v128 : FVec F S16x2000x2048 .f32 := broadcastInDim S16x2000x2048 ![0, 1, 2] bcast_S16x2000x1_S16x2000x2048_0_1_2 v126
  have v129 : FVec F S16x2000x2048 .f32 := broadcastInDim S16x2000x2048 ![0, 1, 2] bcast_S16x1x2048_S16x2000x2048_0_1_2 v127
  have v130 : FVec F S16x2000x2048 .f32 := addf v128 v129
  have cst_22 : FVec F S_ .f32 := constant (F := F) S_ .f32 0x40000000#32
  have v131 : FVec F S16x2000x2048 .f32 := broadcastInDim S16x2000x2048 ![] bcast_S_S16x2000x2048 cst_22
  have v132 : FVec F S16x2000x2048 .f32 := mulf v131 v125
  have v133 : FVec F S16x2000x2048 .f32 := subf v130 v132
  have cst_23 : FVec F S_ .f32 := constant (F := F) S_ .f32 0x7F800000#32
  have v134 : FVec F S16x2000 .f32 := Host.reduce FloatOps.minimumf v133 cst_23 reducesTo_S16x2000x2048_S16x2000_d2 h_S_
  v134

def chamR1000 (x : FVec F S16x1000x2 .f32) (y : FVec F S16x2048x2 .f32) : FVec F S16x1000 .f32 :=
  have v159 : FVec F S16x1000x2 .f32 := mulf x x
  have cst_28 : FVec F S_ .f32 := constant (F := F) S_ .f32 0x00000000#32
  have v160 : FVec F S16x1000 .f32 := Host.reduceAdd v159 cst_28 reducesTo_S16x1000x2_S16x1000_d2 h_S_
  have v161 : FVec F S16x2048x2 .f32 := mulf y y
  have cst_29 : FVec F S_ .f32 := constant (F := F) S_ .f32 0x00000000#32
  have v162 : FVec F S16x2048 .f32 := Host.reduceAdd v161 cst_29 reducesTo_S16x2048x2_S16x2048_d2 h_S_
  have v163 : FVec F S16x1000x2048 .f32 := Host.dotGeneral dot_S16x1000x2_S16x2048x2_S16x1000x2048_2_2_1_1_0_0 none x y
  have v164 : FVec F S16x1000x1 .f32 := broadcastInDim S16x1000x1 ![0, 1] bcast_S16x1000_S16x1000x1_0_1 v160
  have v165 : FVec F S16x1x2048 .f32 := broadcastInDim S16x1x2048 ![0, 2] bcast_S16x2048_S16x1x2048_0_2 v162
  have v166 : FVec F S16x1000x2048 .f32 := broadcastInDim S16x1000x2048 ![0, 1, 2] bcast_S16x1000x1_S16x1000x2048_0_1_2 v164
  have v167 : FVec F S16x1000x2048 .f32 := broadcastInDim S16x1000x2048 ![0, 1, 2] bcast_S16x1x2048_S16x1000x2048_0_1_2 v165
  have v168 : FVec F S16x1000x2048 .f32 := addf v166 v167
  have cst_30 : FVec F S_ .f32 := constant (F := F) S_ .f32 0x40000000#32
  have v169 : FVec F S16x1000x2048 .f32 := broadcastInDim S16x1000x2048 ![] bcast_S_S16x1000x2048 cst_30
  have v170 : FVec F S16x1000x2048 .f32 := mulf v169 v163
  have v171 : FVec F S16x1000x2048 .f32 := subf v168 v170
  have cst_31 : FVec F S_ .f32 := constant (F := F) S_ .f32 0x7F800000#32
  have v172 : FVec F S16x1000 .f32 := Host.reduce FloatOps.minimumf v171 cst_31 reducesTo_S16x1000x2048_S16x1000_d2 h_S_
  v172

def tailR (d0 d1 : FVec F S16x2000 .f32) (d2 d3 : FVec F S16x1000 .f32) : FVec F S_ .f32 :=
  have cst : FVec F S4 .f32 := fun i => FloatOps.ofBits .f32 (lit0 (S4.rowMajor i))
  have v135 : FVec F S1 .f32 := extractStridedSlice S1 ![0] cst slices_S4_S1_0
  have v136 : FVec F S_ .f32 := shapeCast S_ v135 shapeCasts_S1_S_
  have v137 : FVec F S16x2000 .f32 := broadcastInDim S16x2000 ![] bcast_S_S16x2000 v136
  have v138 : FVec F S16x2000 .f32 := mulf d0 v137
  have v154 : FVec F S1 .f32 := extractStridedSlice S1 ![1] cst slices_S4_S1_1
  have v155 : FVec F S_ .f32 := shapeCast S_ v154 shapeCasts_S1_S_
  have v156 : FVec F S16x2000 .f32 := broadcastInDim S16x2000 ![] bcast_S_S16x2000 v155
  have v157 : FVec F S16x2000 .f32 := mulf d1 v156
  have v173 : FVec F S1 .f32 := extractStridedSlice S1 ![2] cst slices_S4_S1_2
  have v174 : FVec F S_ .f32 := shapeCast S_ v173 shapeCasts_S1_S_
  have v175 : FVec F S16x1000 .f32 := broadcastInDim S16x1000 ![] bcast_S_S16x1000 v174
  have v176 : FVec F S16x1000 .f32 := mulf d2 v175
  have v192 : FVec F S1 .f32 := extractStridedSlice S1 ![3] cst slices_S4_S1_3
  have v193 : FVec F S_ .f32 := shapeCast S_ v192 shapeCasts_S1_S_
  have v194 : FVec F S16x1000 .f32 := broadcastInDim S16x1000 ![] bcast_S_S16x1000 v193
  have v195 : FVec F S16x1000 .f32 := mulf d3 v194
  have v196 : FVec F S16x6000 .f32 := concatenate S16x6000 1 [⟨S16x2000, v138⟩, ⟨S16x2000, v157⟩, ⟨S16x1000, v176⟩, ⟨S16x1000, v195⟩] concatenates_S16x2000_S16x2000_S16x1000_S16x1000_S16x6000_d1
  have cst_36 : FVec F S_ .f32 := constant (F := F) S_ .f32 0x00000000#32
  have v197 : FVec F S16 .f32 := Host.reduceAdd v196 cst_36 reducesTo_S16x6000_S16_d1 h_S_
  have cst_37 : FVec F S_ .f32 := constant (F := F) S_ .f32 0x45BB8000#32
  have v198 : FVec F S16 .f32 := broadcastInDim S16 ![] bcast_S_S16 cst_37
  have v199 : FVec F S16 .f32 := Host.divf v197 v198
  have cst_38 : FVec F S_ .f32 := constant (F := F) S_ .f32 0x00000000#32
  have v200 : FVec F S_ .f32 := Host.reduceAdd v199 cst_38 reducesTo_S16_S_d0 h_S_
  have cst_39 : FVec F S_ .f32 := constant (F := F) S_ .f32 0x41800000#32
  have v201 : FVec F S_ .f32 := Host.divf v200 cst_39
  v201

end Cert.ReferenceIdeal.Hand

end
-- ==== Proof.KI.Stages.lean ====
import proofs.«423449_j63771674411371_3_alg».proof.Proof.Gen.KernelIdeal
import proofs.«423449_j63771674411371_3_alg».proof.Proof.Ref.StageDefs
import Idealize.ShloMosaic.PureOps

set_option synthInstance.maxSize 4096

noncomputable section

namespace Cert.KernelIdeal.Hand

open Idealize.ShloMosaic Idealize.SL.Sem
open Cert.KernelIdeal Cert.KernelIdeal.Gen

variable {F : FTy → Type} [FloatOps F]

def takeK (verts : FVec F S16x8000x3 .f32) (i6 i7 : IVec S2000 32) (i8 i9 : IVec S1000 32) : FVec F S16x6000x3 .f32 :=
  have v0 : IVec S6000 32 := concatenate S6000 0 [⟨S2000, i6⟩, ⟨S2000, i7⟩, ⟨S1000, i8⟩, ⟨S1000, i9⟩] concatenates_S2000_S2000_S1000_S1000_S6000_d0
  have t_c : IVec S_ 32 := constantI S_ 32 0#32
  have t_v0 : IVec S6000 32 := broadcastInDim S6000 ![] bcast_S_S6000 t_c
  have t_v1 : IVec S6000 1 := cmpi .slt v0 t_v0
  have t_c_0 : IVec S_ 32 := constantI S_ 32 8000#32
  have t_v2 : IVec S6000 32 := broadcastInDim S6000 ![] bcast_S_S6000 t_c_0
  have t_v3 : IVec S6000 32 := addi v0 t_v2
  have t_v4 : IVec S6000 32 := select t_v1 t_v3 v0
  have t_v5 : IVec S6000x1 32 := broadcastInDim S6000x1 ![0] bcast_S6000_S6000x1_0 t_v4
  have t_c_1 : IVec S1 32 := constantI S1 32 7999#32
  have t_c_2 : IVec S_ 32 := constantI S_ 32 0#32
  have t_v6 : IVec S6000x1 32 := broadcastInDim S6000x1 ![] bcast_S_S6000x1 t_c_2
  have t_v7 : IVec S6000x1 1 := cmpi .sge t_v5 t_v6
  have t_v8 : IVec S1x1 32 := broadcastInDim S1x1 ![1] bcast_S1_S1x1_1 t_c_1
  have t_v9 : IVec S6000x1 32 := broadcastInDim S6000x1 ![0, 1] bcast_S1x1_S6000x1_0_1 t_v8
  have t_v10 : IVec S6000x1 1 := cmpi .sle t_v5 t_v9
  have t_v11 : IVec S6000x1 1 := andi t_v7 t_v10
  have t_c_3 : IVec S_ 1 := constantI S_ 1 1#1
  have t_v12 : IVec S6000 1 := Host.reduce IntOp.andi t_v11 t_c_3 reducesTo_S6000x1_S6000_d1 h_S_
  have t_v13 : FVec F S16x6000x3 .f32 := Host.gather gather_S16x8000x3_S6000x1_S16x6000x3_02_1_n_n_1_1_1613 verts t_v5
  have t_v14 : IVec S16x6000x3 1 := broadcastInDim S16x6000x3 ![1] bcast_S6000_S16x6000x3_1 t_v12
  have t_cst : FVec F S_ .f32 := constant S_ .f32 0x7FC00000#32
  have t_v15 : FVec F S16x6000x3 .f32 := broadcastInDim S16x6000x3 ![] bcast_S_S16x6000x3 t_cst
  have v1 : FVec F S16x6000x3 .f32 := select t_v14 t_v13 t_v15
  v1

def xT0 (v2d : FVec F S16x6000x2 .f32) : FVec F S16x2x2000 .f32 :=
  have v93 : FVec F S16x2000x2 .f32 := extractStridedSlice S16x2000x2 ![0, 0, 0] v2d slices_S16x6000x2_S16x2000x2_0_0_0
  have v94 : FVec F S16x2x2000 .f32 := transpose S16x2x2000 [0, 2, 1] v93 transposes_S16x2000x2_S16x2x2000_0_2_1
  v94

def xT1 (v2d : FVec F S16x6000x2 .f32) : FVec F S16x2x2000 .f32 :=
  have v97 : FVec F S16x2000x2 .f32 := extractStridedSlice S16x2000x2 ![0, 2000, 0] v2d slices_S16x6000x2_S16x2000x2_0_2000_0
  have v98 : FVec F S16x2x2000 .f32 := transpose S16x2x2000 [0, 2, 1] v97 transposes_S16x2000x2_S16x2x2000_0_2_1
  v98

def xT2 (v2d : FVec F S16x6000x2 .f32) : FVec F S16x2x1000 .f32 :=
  have v101 : FVec F S16x1000x2 .f32 := extractStridedSlice S16x1000x2 ![0, 4000, 0] v2d slices_S16x6000x2_S16x1000x2_0_4000_0
  have v102 : FVec F S16x2x1000 .f32 := transpose S16x2x1000 [0, 2, 1] v101 transposes_S16x1000x2_S16x2x1000_0_2_1
  v102

def xT3 (v2d : FVec F S16x6000x2 .f32) : FVec F S16x2x1000 .f32 :=
  have v105 : FVec F S16x1000x2 .f32 := extractStridedSlice S16x1000x2 ![0, 5000, 0] v2d slices_S16x6000x2_S16x1000x2_0_5000_0
  have v106 : FVec F S16x2x1000 .f32 := transpose S16x2x1000 [0, 2, 1] v105 transposes_S16x1000x2_S16x2x1000_0_2_1
  v106

def sqK2000 (d : FVec F S16x1x2000 .f32) : FVec F S16x2000 .f32 :=
  have v96 : FVec F S16x2000 .f32 := shapeCast S16x2000 d shapeCasts_S16x1x2000_S16x2000
  v96

def sqK1000 (d : FVec F S16x1x1000 .f32) : FVec F S16x1000 .f32 :=
  have v104 : FVec F S16x1000 .f32 := shapeCast S16x1000 d shapeCasts_S16x1x1000_S16x1000
  v104

def tailK (d0 d1 : FVec F S16x1x2000 .f32) (d2 d3 : FVec F S16x1x1000 .f32) : FVec F S_ .f32 :=
  Cert.ReferenceIdeal.Hand.tailR (sqK2000 d0) (sqK2000 d1) (sqK1000 d2) (sqK1000 d3)

end Cert.KernelIdeal.Hand

end
-- ==== Proof.KI.HostValue.lean ====
import proofs.«423449_j63771674411371_3_alg».proof.Proof.KI.Stages
import proofs.«423449_j63771674411371_3_alg».proof.Proof.KI.Fold

set_option maxRecDepth 4096

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]

theorem take_v1 (W : Valuation τ sig (Elt F)) :
    after main_part0_ops1 (after main_part0_ops0 W) (Proc.devRef .tc main_v1)
      = takeK (W (Proc.devRef .tc main_arg4)) (W (Proc.devRef .tc main_arg6)) (W (Proc.devRef .tc main_arg7)) (W (Proc.devRef .tc main_arg8)) (W (Proc.devRef .tc main_arg9)) := by
  chain_rfl

theorem proj_v92 (W : Valuation τ sig (Elt F)) :
    after main_part1_ops0 (after main_part0_ops4 (after main_part0_ops3 (after main_part0_ops2 W))) (Proc.devRef .tc main_v92)
      = Cert.ReferenceIdeal.Hand.projR (W (Proc.devRef .tc main_v1)) (W (Proc.devRef .tc main_arg5)) := by
  chain_rfl

theorem part1_ops0_v94 (W : Valuation τ sig (Elt F)) :
    after main_part1_ops0 W (Proc.devRef .tc main_v94) = xT0 (after main_part1_ops0 W (Proc.devRef .tc main_v92)) := by
  chain_rfl

theorem part1_ops1_v98 (W : Valuation τ sig (Elt F)) :
    after main_part1_ops1 W (Proc.devRef .tc main_v98) = xT1 (W (Proc.devRef .tc main_v92)) := by
  chain_rfl

theorem part1_ops2_v102 (W : Valuation τ sig (Elt F)) :
    after main_part1_ops2 W (Proc.devRef .tc main_v102) = xT2 (W (Proc.devRef .tc main_v92)) := by
  chain_rfl

theorem part2_ops0_v106 (W : Valuation τ sig (Elt F)) :
    after main_part2_ops0 (after main_part1_ops3 W) (Proc.devRef .tc main_v106) = xT3 (W (Proc.devRef .tc main_v92)) := by
  chain_rfl

variable (m : (ℓ : Loc nD τ sig) → Buf (Elt F) ℓ)

theorem X2_v1 (c : Dev nD) : X2 m c (Proc.devRef .tc main_v1) = takeK (m ((c : Thread nD τ).loc main_arg4)) (m ((c : Thread nD τ).loc main_arg6)) (m ((c : Thread nD τ).loc main_arg7)) (m ((c : Thread nD τ).loc main_arg8)) (m ((c : Thread nD τ).loc main_arg9)) :=
  take_v1 (X0 m c)

theorem X2_arg5 (c : Dev nD) : X2 m c (Proc.devRef .tc main_arg5) = m ((c : Thread nD τ).loc main_arg5) :=
  (X2_of m c main_arg5 (by decide : _ ∉ (main_part0_ops1_W : List (Ref sig .tc)))).trans <|
    (X1_of m c main_arg5 (by decide : _ ∉ (main_part0_ops0_W : List (Ref sig .tc)))).trans <|
    rfl

theorem X6_v92 (c : Dev nD) : X6 m c (Proc.devRef .tc main_v92) = Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5)) :=
  (proj_v92 (X2 m c)).trans (congrArg₂ Cert.ReferenceIdeal.Hand.projR (X2_v1 m c) (X2_arg5 m c))

theorem X6_v94 (c : Dev nD) : X6 m c (Proc.devRef .tc main_v94) = xT0 (Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (part1_ops0_v94 (X5 m c)).trans (congrArg xT0 (X6_v92 m c))

theorem X6_arg0 (c : Dev nD) : X6 m c (Proc.devRef .tc main_arg0) = m ((c : Thread nD τ).loc main_arg0) :=
  (X6_of m c main_arg0 (by decide : _ ∉ (main_part1_ops0_W : List (Ref sig .tc)))).trans <|
    (X5_of m c main_arg0 (by decide : _ ∉ (main_part0_ops4_W : List (Ref sig .tc)))).trans <|
    (X4_of m c main_arg0 (by decide : _ ∉ (main_part0_ops3_W : List (Ref sig .tc)))).trans <|
    (X3_of m c main_arg0 (by decide : _ ∉ (main_part0_ops2_W : List (Ref sig .tc)))).trans <|
    (X2_of m c main_arg0 (by decide : _ ∉ (main_part0_ops1_W : List (Ref sig .tc)))).trans <|
    (X1_of m c main_arg0 (by decide : _ ∉ (main_part0_ops0_W : List (Ref sig .tc)))).trans <|
    rfl

theorem X8_v92
    (o0 : (c : Dev nD) → Buf (Elt F) ((c : Thread nD τ).loc main_v95))
    (c : Dev nD) : X8 m o0 c (Proc.devRef .tc main_v92) = Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5)) :=
  (X8_of m o0 c main_v92 (by decide : _ ∉ (main_part1_ops1_W : List (Ref sig .tc)))).trans <|
    (X7_of m o0 c main_v92 (by decide : main_v92 ≠ main_v95)).trans <|
    X6_v92 m c

theorem X8_v98
    (o0 : (c : Dev nD) → Buf (Elt F) ((c : Thread nD τ).loc main_v95))
    (c : Dev nD) : X8 m o0 c (Proc.devRef .tc main_v98) = xT1 (Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (part1_ops1_v98 (X7 m o0 c)).trans (congrArg xT1 ((X7_of m o0 c main_v92 (by decide : main_v92 ≠ main_v95)).trans <|
    X6_v92 m c))

theorem X8_arg1
    (o0 : (c : Dev nD) → Buf (Elt F) ((c : Thread nD τ).loc main_v95))
    (c : Dev nD) : X8 m o0 c (Proc.devRef .tc main_arg1) = m ((c : Thread nD τ).loc main_arg1) :=
  (X8_of m o0 c main_arg1 (by decide : _ ∉ (main_part1_ops1_W : List (Ref sig .tc)))).trans <|
    (X7_of m o0 c main_arg1 (by decide : main_arg1 ≠ main_v95)).trans <|
    (X6_of m c main_arg1 (by decide : _ ∉ (main_part1_ops0_W : List (Ref sig .tc)))).trans <|
    (X5_of m c main_arg1 (by decide : _ ∉ (main_part0_ops4_W : List (Ref sig .tc)))).trans <|
    (X4_of m c main_arg1 (by decide : _ ∉ (main_part0_ops3_W : List (Ref sig .tc)))).trans <|
    (X3_of m c main_arg1 (by decide : _ ∉ (main_part0_ops2_W : List (Ref sig .tc)))).trans <|
    (X2_of m c main_arg1 (by decide : _ ∉ (main_part0_ops1_W : List (Ref sig .tc)))).trans <|
    (X1_of m c main_arg1 (by decide : _ ∉ (main_part0_ops0_W : List (Ref sig .tc)))).trans <|
    rfl

theorem X10_v92
    (o0 : (c : Dev nD) → Buf (Elt F) ((c : Thread nD τ).loc main_v95))
    (o1 : (c : Dev nD) → Buf (Elt F) ((c : Thread nD τ).loc main_v99))
    (c : Dev nD) : X10 m o0 o1 c (Proc.devRef .tc main_v92) = Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5)) :=
  (X10_of m o0 o1 c main_v92 (by decide : _ ∉ (main_part1_ops2_W : List (Ref sig .tc)))).trans <|
    (X9_of m o0 o1 c main_v92 (by decide : main_v92 ≠ main_v99)).trans <|
    X8_v92 m o0 c

theorem X10_v102
    (o0 : (c : Dev nD) → Buf (Elt F) ((c : Thread nD τ).loc main_v95))
    (o1 : (c : Dev nD) → Buf (Elt F) ((c : Thread nD τ).loc main_v99))
    (c : Dev nD) : X10 m o0 o1 c (Proc.devRef .tc main_v102) = xT2 (Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (part1_ops2_v102 (X9 m o0 o1 c)).trans (congrArg xT2 ((X9_of m o0 o1 c main_v92 (by decide : main_v92 ≠ main_v99)).trans <|
    X8_v92 m o0 c))

theorem X10_arg2
    (o0 : (c : Dev nD) → Buf (Elt F) ((c : Thread nD τ).loc main_v95))
    (o1 : (c : Dev nD) → Buf (Elt F) ((c : Thread nD τ).loc main_v99))
    (c : Dev nD) : X10 m o0 o1 c (Proc.devRef .tc main_arg2) = m ((c : Thread nD τ).loc main_arg2) :=
  (X10_of m o0 o1 c main_arg2 (by decide : _ ∉ (main_part1_ops2_W : List (Ref sig .tc)))).trans <|
    (X9_of m o0 o1 c main_arg2 (by decide : main_arg2 ≠ main_v99)).trans <|
    (X8_of m o0 c main_arg2 (by decide : _ ∉ (main_part1_ops1_W : List (Ref sig .tc)))).trans <|
    (X7_of m o0 c main_arg2 (by decide : main_arg2 ≠ main_v95)).trans <|
    (X6_of m c main_arg2 (by decide : _ ∉ (main_part1_ops0_W : List (Ref sig .tc)))).trans <|
    (X5_of m c main_arg2 (by decide : _ ∉ (main_part0_ops4_W : List (Ref sig .tc)))).trans <|
    (X4_of m c main_arg2 (by decide : _ ∉ (main_part0_ops3_W : List (Ref sig .tc)))).trans <|
    (X3_of m c main_arg2 (by decide : _ ∉ (main_part0_ops2_W : List (Ref sig .tc)))).trans <|
    (X2_of m c main_arg2 (by decide : _ ∉ (main_part0_ops1_W : List (Ref sig .tc)))).trans <|
    (X1_of m c main_arg2 (by decide : _ ∉ (main_part0_ops0_W : List (Ref sig .tc)))).trans <|
    rfl

theorem X13_v92
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) : X13 m o0 o1 o2 c (Proc.devRef .tc main_v92) = Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5)) :=
  (X13_of m o0 o1 o2 c main_v92 (by decide : _ ∉ (main_part2_ops0_W : List (Ref sig .tc)))).trans <|
    (X12_of m o0 o1 o2 c main_v92 (by decide : _ ∉ (main_part1_ops3_W : List (Ref sig .tc)))).trans <|
    (X11_of m o0 o1 o2 c main_v92 (by decide : main_v92 ≠ main_v103)).trans <|
    X10_v92 m o0 o1 c

theorem X13_v106
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) : X13 m o0 o1 o2 c (Proc.devRef .tc main_v106) = xT3 (Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (part2_ops0_v106 (X11 m o0 o1 o2 c)).trans (congrArg xT3 ((X11_of m o0 o1 o2 c main_v92 (by decide : main_v92 ≠ main_v103)).trans <|
    X10_v92 m o0 o1 c))

theorem X13_arg3
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (c : Dev nD) : X13 m o0 o1 o2 c (Proc.devRef .tc main_arg3) = m ((c : Thread nD τ).loc main_arg3) :=
  (X13_of m o0 o1 o2 c main_arg3 (by decide : _ ∉ (main_part2_ops0_W : List (Ref sig .tc)))).trans <|
    (X12_of m o0 o1 o2 c main_arg3 (by decide : _ ∉ (main_part1_ops3_W : List (Ref sig .tc)))).trans <|
    (X11_of m o0 o1 o2 c main_arg3 (by decide : main_arg3 ≠ main_v103)).trans <|
    (X10_of m o0 o1 c main_arg3 (by decide : _ ∉ (main_part1_ops2_W : List (Ref sig .tc)))).trans <|
    (X9_of m o0 o1 c main_arg3 (by decide : main_arg3 ≠ main_v99)).trans <|
    (X8_of m o0 c main_arg3 (by decide : _ ∉ (main_part1_ops1_W : List (Ref sig .tc)))).trans <|
    (X7_of m o0 c main_arg3 (by decide : main_arg3 ≠ main_v95)).trans <|
    (X6_of m c main_arg3 (by decide : _ ∉ (main_part1_ops0_W : List (Ref sig .tc)))).trans <|
    (X5_of m c main_arg3 (by decide : _ ∉ (main_part0_ops4_W : List (Ref sig .tc)))).trans <|
    (X4_of m c main_arg3 (by decide : _ ∉ (main_part0_ops3_W : List (Ref sig .tc)))).trans <|
    (X3_of m c main_arg3 (by decide : _ ∉ (main_part0_ops2_W : List (Ref sig .tc)))).trans <|
    (X2_of m c main_arg3 (by decide : _ ∉ (main_part0_ops1_W : List (Ref sig .tc)))).trans <|
    (X1_of m c main_arg3 (by decide : _ ∉ (main_part0_ops0_W : List (Ref sig .tc)))).trans <|
    rfl

theorem X15_v92
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_v92) = Cert.ReferenceIdeal.Hand.projR (takeK (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5)) :=
  (X15_of m o0 o1 o2 o3 c main_v92 (by decide : _ ∉ (main_part2_ops1_W : List (Ref sig .tc)))).trans <|
    (X14_of m o0 o1 o2 o3 c main_v92 (by decide : main_v92 ≠ main_v107)).trans <|
    X13_v92 m o0 o1 o2 c

theorem X15_v130
    (o0 : (c : Dev nD) → Buf (Elt F) ((c : Thread nD τ).loc main_v95))
    (o1 : (c : Dev nD) → Buf (Elt F) ((c : Thread nD τ).loc main_v99))
    (o2 : (c : Dev nD) → Buf (Elt F) ((c : Thread nD τ).loc main_v103))
    (o3 : (c : Dev nD) → Buf (Elt F) ((c : Thread nD τ).loc main_v107))
    (c : Dev nD) : X15 m o0 o1 o2 o3 c (Proc.devRef .tc main_v130) = tailK (o0 c) (o1 c) (o2 c) (o3 c) := by
  chain_rfl

end Cert.KernelIdeal.Hand

end
-- ==== Proof.KI.ValLib.lean ====
import Idealize.ShloMosaic.Lib.ValueLayout
import Idealize.ShloMosaic.PureOps.Ideal.Laws

namespace Cert.KernelIdeal.Hand

open Idealize.ShloMosaic Idealize.ShloMosaic.ValueIdx

noncomputable abbrev c2 : EReal := Ideal.ofBits .f32 0xC0000000#32

theorem ofBits_posInf : Ideal.ofBits .f32 0x7F800000#32 = (⊤ : EReal) := by simp [Ideal.ofBits, Ideal.ieee]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowsMin_apply {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (n : Fin b) :
    multiReduction (F := Ideal) .minimumf [0] ⟨1, ![b]⟩ src 0x7F800000#32 h hφ hacc (ix1 n)
      = Finset.univ.inf (fun r : Fin a => src (ix2 r n)) := by
  rw [multiReduction_minimumf_eq_fold, h.fold_filter_drop_single]
  have e : (src ∘ h.lift (ix1 n)) = fun r : Fin a => src (ix2 r n) :=
    funext fun r => congrArg src (funext fun c => Fin.ext (by
      match c with
      | ⟨0, _⟩ => rfl
      | ⟨1, _⟩ => rfl))
  rw [e]
  show Finset.fold min (Ideal.ofBits .f32 0x7F800000#32) _ _ = _
  rw [ofBits_posInf]
  rfl

theorem inf_chunk_step {M L : ℕ} (f : Fin M → EReal) (k : ℕ) (hk : L * (k + 1) ≤ M) :
    min ((Finset.univ.filter (fun mm : Fin M => mm.val < L * k)).inf f)
        (Finset.univ.inf (fun r : Fin L => f ⟨L * k + r.val, by have := r.isLt; rw [Nat.mul_succ] at hk; omega⟩))
      = (Finset.univ.filter (fun mm : Fin M => mm.val < L * (k + 1))).inf f := by
  refine eq_of_forall_le_iff fun z => ?_
  rw [le_min_iff, Finset.le_inf_iff, Finset.le_inf_iff, Finset.le_inf_iff]
  constructor
  · rintro ⟨h1, h2⟩ mm hmm
    have hlt : mm.val < L * (k + 1) := (Finset.mem_filter.1 hmm).2
    by_cases hc : mm.val < L * k
    · exact h1 mm (Finset.mem_filter.2 ⟨Finset.mem_univ _, hc⟩)
    · have hr : mm.val - L * k < L := by rw [Nat.mul_succ] at hlt; omega
      have := h2 ⟨mm.val - L * k, hr⟩ (Finset.mem_univ _)
      have e : (⟨L * k + (mm.val - L * k), by omega⟩ : Fin M) = mm := Fin.ext (by show L * k + (mm.val - L * k) = mm.val; omega)
      rw [e] at this
      exact this
  · intro h
    refine ⟨fun mm hmm => h mm (Finset.mem_filter.2 ⟨Finset.mem_univ _, ?_⟩), fun r _ => h _ (Finset.mem_filter.2 ⟨Finset.mem_univ _, ?_⟩)⟩
    · have := (Finset.mem_filter.1 hmm).2; rw [Nat.mul_succ]; omega
    · show L * k + r.val < L * (k + 1)
      have := r.isLt; rw [Nat.mul_succ]; omega

end Cert.KernelIdeal.Hand
-- ==== Proof.KI.RegVal0.lean ====
import proofs.«423449_j63771674411371_3_alg».proof.Proof.KI.Out0
import proofs.«423449_j63771674411371_3_alg».proof.Proof.KI.ValLib
import proofs.«423449_j63771674411371_3_alg».proof.Proof.KI.Dat0
import Idealize.ShloMosaic.Lib.Pipeline.Value

noncomputable section

namespace Cert.KernelIdeal.Hand

open Idealize.ShloMosaic Idealize.ShloMosaic.ValueIdx Cert.KernelIdeal Cert.KernelIdeal.Gen

private theorem trips_eq : k0_t1_loop.trips = 8 := by decide

private theorem col_apply {α : Type} (q : S1x256x2.Idx → α) (o : ℕ) (h : S256x2.Slices ![0, o] S256x1) (r : Fin 256)
    (c : Fin 2) (hc : c.val = o + (0 : Fin 1).val) :
    extractStridedSlice S256x1 ![0, o] (shapeCast S256x2 q shapeCasts_S1x256x2_S256x2) h (ix2 r (0 : Fin 1))
      = q (ix3 (0 : Fin 1) r c) :=
  (slice2_axis1_apply o _ h r (0 : Fin 1) c hc).trans (shapeCast_1ab_ab_apply q shapeCasts_S1x256x2_S256x2 r c)

private theorem pay4_apply (v0 v2 : Vec Ideal S1x1x2000 .f32) (q : Vec Ideal S1x256x2 .f32) (a : Vec Ideal S1x2000 .f32)
    (n : Fin 2000) :
    k0_pay4 (F := Ideal) v0 v2 q a (ix2 (0 : Fin 1) n)
      = min (a (ix2 (0 : Fin 1) n)) (Finset.univ.inf fun r : Fin 256 =>
          (c2 * q (ix3 (0 : Fin 1) r 0)) * v0 (ix3 (0 : Fin 1) (0 : Fin 1) n)
            + (c2 * q (ix3 (0 : Fin 1) r 1)) * v2 (ix3 (0 : Fin 1) (0 : Fin 1) n)
            + (q (ix3 (0 : Fin 1) r 0) * q (ix3 (0 : Fin 1) r 0) + q (ix3 (0 : Fin 1) r 1) * q (ix3 (0 : Fin 1) r 1))) := by
  unfold k0_pay4 k0_pay1 k0_pay2
  refine (congrFun (shapeCast_self _ _) _).trans ?_
  refine congrArg (min (a (ix2 (0 : Fin 1) n))) ?_
  refine (shapeCast_a_1a_apply _ _ (0 : Fin 1) n).trans ?_
  refine (rowsMin_apply _ _ _ _ n).trans ?_
  refine Finset.inf_congr rfl fun r _ => ?_
  have hx := col_apply q 0 slices_S256x2_o0_0_S256x1 r 0 rfl
  have hy := col_apply q 1 slices_S256x2_o0_1_S256x1 r 1 rfl
  refine congrArg₂ (· + ·) (congrArg₂ (· + ·) (congrArg₂ (· * ·) ?_ ?_) (congrArg₂ (· * ·) ?_ ?_)) ?_
  · exact (broadcastTo_a1_ab_apply _ _ r n).trans (congrArg (c2 * ·) hx)
  · exact (broadcastTo_1b_ab_apply _ _ r n).trans (shapeCast_1ab_ab_apply v0 _ (0 : Fin 1) n)
  · exact (broadcastTo_a1_ab_apply _ _ r n).trans (congrArg (c2 * ·) hy)
  · exact (broadcastTo_1b_ab_apply _ _ r n).trans (shapeCast_1ab_ab_apply v2 _ (0 : Fin 1) n)
  · exact (broadcastTo_a1_ab_apply _ _ r n).trans (congrArg₂ (· + ·) (congrArg₂ (· * ·) hx hx) (congrArg₂ (· * ·) hy hy))

private theorem pay3_apply (n : Fin 2000) : k0_pay3 (F := Ideal) (ix2 (0 : Fin 1) n) = ⊤ := by
  unfold k0_pay3
  refine (congrFun (shapeCast_self _ _) _).trans ?_
  exact ofBits_posInf

private theorem ld_chunk {α : Type} (p : S1x2048x2.Idx → α) (kk : Fin k0_t1_loop.trips) (r : Fin 256) (c : Fin 2) (mm : Fin 2048)
    (hm : mm.val = 256 * kk.val + r.val) :
    (fun y : S1x256x2.Idx => p ((Val.chunk0 kk).idx y)) (ix3 (0 : Fin 1) r c) = p (ix3 (0 : Fin 1) mm c) := by
  refine congrArg p (funext fun a => Fin.ext ?_)
  show (k0_off1 kk) a + 1 * (ix3 (0 : Fin 1) r c a).val = (ix3 (0 : Fin 1) mm c a).val
  rw [k0_off1_eq]
  match a with
  | ⟨0, _⟩ => rfl
  | ⟨1, _⟩ => show 256 * kk.val + 1 * r.val = mm.val; omega
  | ⟨2, _⟩ => show 0 + 1 * c.val = c.val; omega

-- After k chunks the running minimum is the minimum over the first 256 k landmarks.
theorem acc0_apply (v0 v2 : Vec Ideal S1x1x2000 .f32) (p : Vec Ideal S1x2048x2 .f32) (k : ℕ) (hk : k ≤ 8) (n : Fin 2000) :
    Val.acc0 (F := Ideal) v0 v2 p k (ix2 0 n)
      = (Finset.univ.filter (fun mm : Fin 2048 => mm.val < 256 * k)).inf (fun mm =>
          (c2 * p (ix3 0 mm 0)) * v0 (ix3 0 0 n) + (c2 * p (ix3 0 mm 1)) * v2 (ix3 0 0 n)
            + (p (ix3 0 mm 0) * p (ix3 0 mm 0) + p (ix3 0 mm 1) * p (ix3 0 mm 1))) := by
  induction k with
  | zero =>
    rw [Val.acc0, pay3_apply, Finset.filter_false_of_mem (fun mm _ => by omega), Finset.inf_empty]
  | succ k ih =>
    have hlt : k < k0_t1_loop.trips := by rw [trips_eq]; omega
    rw [Val.acc0, dif_pos hlt, pay4_apply, ih (by omega)]
    refine Eq.trans ?_ (inf_chunk_step (M := 2048) (L := 256) _ k (by omega))
    refine congrArg (min _) (Finset.inf_congr rfl fun r _ => ?_)
    have ea := ld_chunk p ⟨k, hlt⟩ r 0 ⟨256 * k + r.val, by have := r.isLt; omega⟩ rfl
    have eb := ld_chunk p ⟨k, hlt⟩ r 1 ⟨256 * k + r.val, by have := r.isLt; omega⟩ rfl
    exact congrArg₂ (· + ·) (congrArg₂ (· + ·) (congrArg (c2 * · * _) ea) (congrArg (c2 * · * _) eb))
      (congrArg₂ (· + ·) (congrArg₂ (· * ·) ea ea) (congrArg₂ (· * ·) eb eb))

private theorem ld_rowX {α : Type} (x : S1x2x2000.Idx → α) (n : Fin 2000) :
    (fun y : S1x1x2000.Idx => x (Val.rowX0.idx y)) (ix3 (0 : Fin 1) (0 : Fin 1) n) = x (ix3 (0 : Fin 1) (0 : Fin 2) n) :=
  congrArg x (funext fun a => Fin.ext (by
    match a with
    | ⟨0, _⟩ => rfl
    | ⟨1, _⟩ => rfl
    | ⟨2, _⟩ => show 0 + 1 * n.val = n.val; omega))

private theorem ld_rowY {α : Type} (x : S1x2x2000.Idx → α) (n : Fin 2000) :
    (fun y : S1x1x2000.Idx => x (Val.rowY0.idx y)) (ix3 (0 : Fin 1) (0 : Fin 1) n) = x (ix3 (0 : Fin 1) (1 : Fin 2) n) :=
  congrArg x (funext fun a => Fin.ext (by
    match a with
    | ⟨0, _⟩ => rfl
    | ⟨1, _⟩ => rfl
    | ⟨2, _⟩ => show 0 + 1 * n.val = n.val; omega))

-- Read at a vertex v: |v|² plus the minimum over all 2048 landmarks p of (-2 p) · v + |p|².
theorem out0_apply (x : Vec Ideal S1x2x2000 .f32) (p : Vec Ideal S1x2048x2 .f32) (n : Fin 2000) :
    Val.out0 (F := Ideal) x p (ix3 0 0 n)
      = (x (ix3 0 0 n) * x (ix3 0 0 n) + x (ix3 0 1 n) * x (ix3 0 1 n))
        + Finset.univ.inf (fun mm : Fin 2048 =>
            (c2 * p (ix3 0 mm 0)) * x (ix3 0 0 n) + (c2 * p (ix3 0 mm 1)) * x (ix3 0 1 n)
              + (p (ix3 0 mm 0) * p (ix3 0 mm 0) + p (ix3 0 mm 1) * p (ix3 0 mm 1))) := by
  unfold Val.out0 k0_pay5 k0_pay1 k0_pay2
  refine (shapeCast_ab_1ab_apply _ _ (0 : Fin 1) (0 : Fin 1) n).trans ?_
  have hX := (shapeCast_1ab_ab_apply (View.ld x Val.rowX0) shapeCasts_S1x1x2000_S1x2000 (0 : Fin 1) n).trans (ld_rowX x n)
  have hY := (shapeCast_1ab_ab_apply (View.ld x Val.rowY0) shapeCasts_S1x1x2000_S1x2000 (0 : Fin 1) n).trans (ld_rowY x n)
  refine congrArg₂ (· + ·) (congrArg₂ (· + ·) (congrArg₂ (· * ·) hX hX) (congrArg₂ (· * ·) hY hY)) ?_
  rw [trips_eq]
  refine (acc0_apply _ _ p 8 (le_refl 8) n).trans ?_
  rw [Finset.filter_true_of_mem (fun mm _ => by have := mm.isLt; omega)]
  refine Finset.inf_congr rfl fun mm _ => ?_
  exact congrArg₂ (· + ·) (congrArg₂ (· + ·) (congrArg (c2 * p (ix3 0 mm 0) * ·) (ld_rowX x n))
    (congrArg (c2 * p (ix3 0 mm 1) * ·) (ld_rowY x n))) rfl

open Idealize.ShloMosaic.TcCoe Idealize.SL.Sem
open Idealize.ShloMosaic.Pipeline (Dat)

def chamK0 (xT : FVec Ideal S16x2x2000 .f32) (pts : FVec Ideal S16x2048x2 .f32) : FVec Ideal S16x1x2000 .f32 :=
  fun i =>
    let b : Fin 16 := i 0
    let n : Fin 2000 := i 2
    (xT (ix3 b 0 n) * xT (ix3 b 0 n) + xT (ix3 b 1 n) * xT (ix3 b 1 n))
      + Finset.univ.inf (fun mm : Fin 2048 =>
          (c2 * pts (ix3 b mm 0)) * xT (ix3 b 0 n) + (c2 * pts (ix3 b mm 1)) * xT (ix3 b 1 n)
            + (pts (ix3 b mm 0) * pts (ix3 b mm 0) + pts (ix3 b mm 1) * pts (ix3 b mm 1)))

theorem chamK0_apply (xT : FVec Ideal S16x2x2000 .f32) (pts : FVec Ideal S16x2048x2 .f32) (b : Fin 16) (n : Fin 2000) :
    chamK0 xT pts (ix3 b 0 n)
      = (xT (ix3 b 0 n) * xT (ix3 b 0 n) + xT (ix3 b 1 n) * xT (ix3 b 1 n))
        + Finset.univ.inf (fun mm : Fin 2048 =>
            (c2 * pts (ix3 b mm 0)) * xT (ix3 b 0 n) + (c2 * pts (ix3 b mm 1)) * xT (ix3 b 1 n)
              + (pts (ix3 b mm 0) * pts (ix3 b mm 0) + pts (ix3 b mm 1) * pts (ix3 b mm 1))) := rfl

variable (V : (c : Dev nD) → (b : Ref sig .tc) → Buf (Elt Ideal) ((c : Thread nD τ).loc b))

private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

private abbrev xarr (c : Dev nD) : Vec Ideal S16x2x2000 .f32 := V c (Pipeline.arrRef spec0 0)
private abbrev parr (c : Dev nD) : Vec Ideal S16x2048x2 .f32 := V c (Pipeline.arrRef spec0 1)
private abbrev xblk (c : Dev nD) (t : Fin cfg0.N) : Vec Ideal S1x2x2000 .f32 := iblk0 V c 0 t
private abbrev pblk (c : Dev nD) (t : Fin cfg0.N) : Vec Ideal S1x2048x2 .f32 := iblk0 V c 1 t

private theorem xblk_apply (c : Dev nD) (t : Fin cfg0.N) (b : Fin 16) (hb : b.val = t.val) (j : Fin 2) (n : Fin 2000) :
    xblk V c t (ix3 (0 : Fin 1) j n) = xarr V c (ix3 b j n) := by
  obtain ⟨ea, eb, ec, -⟩ := idx_facts t
  show V c (Pipeline.arrRef spec0 0) (((cfg0.win 0).blk t).view.emb (ix3 (0 : Fin 1) j n)) = V c (Pipeline.arrRef spec0 0) (ix3 b j n)
  refine congrArg (V c (Pipeline.arrRef spec0 0)) (funext fun a => Fin.ext ?_)
  match a with
  | ⟨0, _⟩ => show win0_0.index t (0 : Fin 3) * 1 + 1 * (0 : Fin 1).val = b.val; rw [ea, hb]; simp
  | ⟨1, _⟩ => show win0_0.index t (1 : Fin 3) * 2 + 1 * j.val = j.val; rw [eb]; omega
  | ⟨2, _⟩ => show win0_0.index t (2 : Fin 3) * 2000 + 1 * n.val = n.val; rw [ec]; omega

private theorem pblk_apply (c : Dev nD) (t : Fin cfg0.N) (b : Fin 16) (hb : b.val = t.val) (mm : Fin 2048) (j : Fin 2) :
    pblk V c t (ix3 (0 : Fin 1) mm j) = parr V c (ix3 b mm j) := by
  obtain ⟨-, -, -, ea, eb, ec, -⟩ := idx_facts t
  show V c (Pipeline.arrRef spec0 1) (((cfg0.win 1).blk t).view.emb (ix3 (0 : Fin 1) mm j)) = V c (Pipeline.arrRef spec0 1) (ix3 b mm j)
  refine congrArg (V c (Pipeline.arrRef spec0 1)) (funext fun a => Fin.ext ?_)
  match a with
  | ⟨0, _⟩ => show win0_1.index t (0 : Fin 3) * 1 + 1 * (0 : Fin 1).val = b.val; rw [ea, hb]; simp
  | ⟨1, _⟩ => show win0_1.index t (1 : Fin 3) * 2048 + 1 * mm.val = mm.val; rw [eb]; omega
  | ⟨2, _⟩ => show win0_1.index t (2 : Fin 3) * 2 + 1 * j.val = j.val; rw [ec]; omega

private theorem flushed_eq (c : Dev nD) (t : Fin cfg0.N) :
    (dat0 V c).flushed 2 t = ((cfg0.win 2).blk t).view.read (Elt Ideal) (chamK0 (xarr V c) (parr V c)) := by
  show (cfg0.win 2).cut (grid0.coords t) ((dat0 V c).after 2 t) = _
  rw [after0_2]
  obtain ⟨-, -, -, -, -, -, ea, eb, ec⟩ := idx_facts t
  have htN : t.val < 16 := t.isLt
  funext y
  obtain ⟨u, v, n, rfl⟩ : ∃ (u : Fin 1) (v : Fin 1) (n : Fin 2000), y = ix3 u v n := ⟨y 0, y 1, y 2, eq_ix3 y⟩
  obtain rfl : u = 0 := Subsingleton.elim _ _
  obtain rfl : v = 0 := Subsingleton.elim _ _
  have hemb : ((cfg0.win 2).blk t).view.emb (ix3 (0 : Fin 1) (0 : Fin 1) n) = ix3 (⟨t.val, htN⟩ : Fin 16) (0 : Fin 1) n :=
    funext fun a => Fin.ext (by
      match a with
      | ⟨0, _⟩ => show win0_2.index t (0 : Fin 3) * 1 + 1 * (0 : Fin 1).val = t.val; rw [ea]; simp
      | ⟨1, _⟩ => show win0_2.index t (1 : Fin 3) * 1 + 1 * (0 : Fin 1).val = (0 : Fin 1).val; rw [eb]; simp
      | ⟨2, _⟩ => show win0_2.index t (2 : Fin 3) * 2000 + 1 * n.val = n.val; rw [ec]; omega)
  refine (out0_apply (xblk V c t) (pblk V c t) n).trans ?_
  refine Eq.trans ?_ (congrArg (chamK0 (xarr V c) (parr V c)) hemb).symm
  refine Eq.trans ?_ (chamK0_apply (xarr V c) (parr V c) ⟨t.val, htN⟩ n).symm
  have hxa := xblk_apply V c t ⟨t.val, htN⟩ rfl 0 n
  have hxb := xblk_apply V c t ⟨t.val, htN⟩ rfl 1 n
  refine congrArg₂ (· + ·) (congrArg₂ (· + ·) (congrArg₂ (· * ·) hxa hxa) (congrArg₂ (· * ·) hxb hxb))
    (Finset.inf_congr rfl fun mm _ => ?_)
  have hpa := pblk_apply V c t ⟨t.val, htN⟩ rfl mm 0
  have hpb := pblk_apply V c t ⟨t.val, htN⟩ rfl mm 1
  exact congrArg₂ (· + ·) (congrArg₂ (· + ·) (congrArg₂ (· * ·) (congrArg (c2 * ·) hpa) hxa)
    (congrArg₂ (· * ·) (congrArg (c2 * ·) hpb) hxb)) (congrArg₂ (· + ·) (congrArg₂ (· * ·) hpa hpa) (congrArg₂ (· * ·) hpb hpb))

private theorem mem_blk (t : Fin cfg0.N) (i : S16x1x2000.Idx) :
    i ∈ ((cfg0.win 2).blk t).view.set ↔ ∀ a : Fin 3, win0_2.index t a * S1x1x2000.size a ≤ (i a).val ∧ (i a).val < win0_2.index t a * S1x1x2000.size a + S1x1x2000.size a := by
  show i ∈ ((View.whole (Pipeline.arrRef spec0 2)).slice (win0_2.rect t)).set ↔ _
  rw [View.set_slice_whole, Rect.mem_set_unit]
  exact Iff.rfl

private theorem cover (i : S16x1x2000.Idx) : ∃ t : Fin cfg0.N, (cfg0.win 2).flush t = true ∧ i ∈ ((cfg0.win 2).blk t).view.set := by
  have la : (i 0).val < 16 := (i 0).isLt
  have lb : (i 1).val < 1 := (i 1).isLt
  have lc : (i 2).val < 2000 := (i 2).isLt
  refine ⟨⟨(i 0).val, la⟩, flush0_2 _, ?_⟩
  obtain ⟨-, -, -, -, -, -, ea, eb, ec⟩ := idx_facts ⟨(i 0).val, la⟩
  rw [mem_blk]
  intro a
  match a with
  | ⟨0, _⟩ => show win0_2.index _ (0 : Fin 3) * 1 ≤ (i 0).val ∧ (i 0).val < win0_2.index _ (0 : Fin 3) * 1 + 1; rw [ea]; simp
  | ⟨1, _⟩ => show win0_2.index _ (1 : Fin 3) * 1 ≤ (i 1).val ∧ (i 1).val < win0_2.index _ (1 : Fin 3) * 1 + 1; rw [eb]; omega
  | ⟨2, _⟩ => show win0_2.index _ (2 : Fin 3) * 2000 ≤ (i 2).val ∧ (i 2).val < win0_2.index _ (2 : Fin 3) * 2000 + 2000; rw [ec]; omega

-- The grid's blocks tile the output array, one batch row each.
theorem arrAt_out0 (c : Dev nD) :
    (dat0 (F := Ideal) V c).arrAt 2 cfg0.N = chamK0 (V c (Pipeline.arrRef spec0 0)) (V c (Pipeline.arrRef spec0 1)) :=
  (dat0 V c).arrAt_eq_of_cover 2 (chamK0 (xarr V c) (parr V c)) (fun t _ => flushed_eq V c t) cover

end Cert.KernelIdeal.Hand

end
-- ==== Proof.KI.RegVal1.lean ====
import proofs.«423449_j63771674411371_3_alg».proof.Proof.KI.RegVal0
import proofs.«423449_j63771674411371_3_alg».proof.Proof.KI.ValLib
import proofs.«423449_j63771674411371_3_alg».proof.Proof.KI.Dat1
import Idealize.ShloMosaic.Lib.Pipeline.Value

noncomputable section

namespace Cert.KernelIdeal.Hand

open Idealize.ShloMosaic Idealize.ShloMosaic.ValueIdx Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

private theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

private abbrev xarr (c : Dev nD) : Vec Ideal S16x2x2000 .f32 := V c (Pipeline.arrRef spec1 0)
private abbrev parr (c : Dev nD) : Vec Ideal S16x2048x2 .f32 := V c (Pipeline.arrRef spec1 1)
private abbrev xblk (c : Dev nD) (t : Fin cfg1.N) : Vec Ideal S1x2x2000 .f32 := iblk1 V c 0 t
private abbrev pblk (c : Dev nD) (t : Fin cfg1.N) : Vec Ideal S1x2048x2 .f32 := iblk1 V c 1 t

private theorem xblk_apply (c : Dev nD) (t : Fin cfg1.N) (b : Fin 16) (hb : b.val = t.val) (j : Fin 2) (n : Fin 2000) :
    xblk V c t (ix3 (0 : Fin 1) j n) = xarr V c (ix3 b j n) := by
  obtain ⟨ea, eb, ec, -⟩ := idx_facts t
  show V c (Pipeline.arrRef spec1 0) (((cfg1.win 0).blk t).view.emb (ix3 (0 : Fin 1) j n)) = V c (Pipeline.arrRef spec1 0) (ix3 b j n)
  refine congrArg (V c (Pipeline.arrRef spec1 0)) (funext fun a => Fin.ext ?_)
  match a with
  | ⟨0, _⟩ => show win1_0.index t (0 : Fin 3) * 1 + 1 * (0 : Fin 1).val = b.val; rw [ea, hb]; simp
  | ⟨1, _⟩ => show win1_0.index t (1 : Fin 3) * 2 + 1 * j.val = j.val; rw [eb]; omega
  | ⟨2, _⟩ => show win1_0.index t (2 : Fin 3) * 2000 + 1 * n.val = n.val; rw [ec]; omega

private theorem pblk_apply (c : Dev nD) (t : Fin cfg1.N) (b : Fin 16) (hb : b.val = t.val) (mm : Fin 2048) (j : Fin 2) :
    pblk V c t (ix3 (0 : Fin 1) mm j) = parr V c (ix3 b mm j) := by
  obtain ⟨-, -, -, ea, eb, ec, -⟩ := idx_facts t
  show V c (Pipeline.arrRef spec1 1) (((cfg1.win 1).blk t).view.emb (ix3 (0 : Fin 1) mm j)) = V c (Pipeline.arrRef spec1 1) (ix3 b mm j)
  refine congrArg (V c (Pipeline.arrRef spec1 1)) (funext fun a => Fin.ext ?_)
  match a with
  | ⟨0, _⟩ => show win1_1.index t (0 : Fin 3) * 1 + 1 * (0 : Fin 1).val = b.val; rw [ea, hb]; simp
  | ⟨1, _⟩ => show win1_1.index t (1 : Fin 3) * 2048 + 1 * mm.val = mm.val; rw [eb]; omega
  | ⟨2, _⟩ => show win1_1.index t (2 : Fin 3) * 2 + 1 * j.val = j.val; rw [ec]; omega

private theorem flushed_eq (c : Dev nD) (t : Fin cfg1.N) :
    (dat1 V c).flushed 2 t = ((cfg1.win 2).blk t).view.read (Elt Ideal) (chamK0 (xarr V c) (parr V c)) := by
  show (cfg1.win 2).cut (grid1.coords t) ((dat1 V c).after 2 t) = _
  rw [after1_2]
  obtain ⟨-, -, -, -, -, -, ea, eb, ec⟩ := idx_facts t
  have htN : t.val < 16 := t.isLt
  funext y
  obtain ⟨u, v, n, rfl⟩ : ∃ (u : Fin 1) (v : Fin 1) (n : Fin 2000), y = ix3 u v n := ⟨y 0, y 1, y 2, eq_ix3 y⟩
  obtain rfl : u = 0 := Subsingleton.elim _ _
  obtain rfl : v = 0 := Subsingleton.elim _ _
  have hemb : ((cfg1.win 2).blk t).view.emb (ix3 (0 : Fin 1) (0 : Fin 1) n) = ix3 (⟨t.val, htN⟩ : Fin 16) (0 : Fin 1) n :=
    funext fun a => Fin.ext (by
      match a with
      | ⟨0, _⟩ => show win1_2.index t (0 : Fin 3) * 1 + 1 * (0 : Fin 1).val = t.val; rw [ea]; simp
      | ⟨1, _⟩ => show win1_2.index t (1 : Fin 3) * 1 + 1 * (0 : Fin 1).val = (0 : Fin 1).val; rw [eb]; simp
      | ⟨2, _⟩ => show win1_2.index t (2 : Fin 3) * 2000 + 1 * n.val = n.val; rw [ec]; omega)
  refine (out0_apply (xblk V c t) (pblk V c t) n).trans ?_
  refine Eq.trans ?_ (congrArg (chamK0 (xarr V c) (parr V c)) hemb).symm
  refine Eq.trans ?_ (chamK0_apply (xarr V c) (parr V c) ⟨t.val, htN⟩ n).symm
  have hxa := xblk_apply V c t ⟨t.val, htN⟩ rfl 0 n
  have hxb := xblk_apply V c t ⟨t.val, htN⟩ rfl 1 n
  refine congrArg₂ (· + ·) (congrArg₂ (· + ·) (congrArg₂ (· * ·) hxa hxa) (congrArg₂ (· * ·) hxb hxb))
    (Finset.inf_congr rfl fun mm _ => ?_)
  have hpa := pblk_apply V c t ⟨t.val, htN⟩ rfl mm 0
  have hpb := pblk_apply V c t ⟨t.val, htN⟩ rfl mm 1
  exact congrArg₂ (· + ·) (congrArg₂ (· + ·) (congrArg₂ (· * ·) (congrArg (c2 * ·) hpa) hxa)
    (congrArg₂ (· * ·) (congrArg (c2 * ·) hpb) hxb)) (congrArg₂ (· + ·) (congrArg₂ (· * ·) hpa hpa) (congrArg₂ (· * ·) hpb hpb))

private theorem mem_blk (t : Fin cfg1.N) (i : S16x1x2000.Idx) :
    i ∈ ((cfg1.win 2).blk t).view.set ↔ ∀ a : Fin 3, win1_2.index t a * S1x1x2000.size a ≤ (i a).val ∧ (i a).val < win1_2.index t a * S1x1x2000.size a + S1x1x2000.size a := by
  show i ∈ ((View.whole (Pipeline.arrRef spec1 2)).slice (win1_2.rect t)).set ↔ _
  rw [View.set_slice_whole, Rect.mem_set_unit]
  exact Iff.rfl

private theorem cover (i : S16x1x2000.Idx) : ∃ t : Fin cfg1.N, (cfg1.win 2).flush t = true ∧ i ∈ ((cfg1.win 2).blk t).view.set := by
  have la : (i 0).val < 16 := (i 0).isLt
  have lb : (i 1).val < 1 := (i 1).isLt
  have lc : (i 2).val < 2000 := (i 2).isLt
  refine ⟨⟨(i 0).val, la⟩, flush1_2 _, ?_⟩
  obtain ⟨-, -, -, -, -, -, ea, eb, ec⟩ := idx_facts ⟨(i 0).val, la⟩
  rw [mem_blk]
  intro a
  match a with
  | ⟨0, _⟩ => show win1_2.index _ (0 : Fin 3) * 1 ≤ (i 0).val ∧ (i 0).val < win1_2.index _ (0 : Fin 3) * 1 + 1; rw [ea]; simp
  | ⟨1, _⟩ => show win1_2.index _ (1 : Fin 3) * 1 ≤ (i 1).val ∧ (i 1).val < win1_2.index _ (1 : Fin 3) * 1 + 1; rw [eb]; omega
  | ⟨2, _⟩ => show win1_2.index _ (2 : Fin 3) * 2000 ≤ (i 2).val ∧ (i 2).val < win1_2.index _ (2 : Fin 3) * 2000 + 2000; rw [ec]; omega

theorem arrAt_out1 (c : Dev nD) :
    (dat1 (F := Ideal) V c).arrAt 2 cfg1.N = chamK0 (V c (Pipeline.arrRef spec1 0)) (V c (Pipeline.arrRef spec1 1)) :=
  (dat1 V c).arrAt_eq_of_cover 2 (chamK0 (xarr V c) (parr V c)) (fun t _ => flushed_eq V c t) cover

end Cert.KernelIdeal.Hand

end
-- ==== Proof.KI.RegVal2.lean ====
import proofs.«423449_j63771674411371_3_alg».proof.Proof.KI.Out2
import proofs.«423449_j63771674411371_3_alg».proof.Proof.KI.ValLib
import proofs.«423449_j63771674411371_3_alg».proof.Proof.KI.Dat2
import Idealize.ShloMosaic.Lib.Pipeline.Value

noncomputable section

namespace Cert.KernelIdeal.Hand

open Idealize.ShloMosaic Idealize.ShloMosaic.ValueIdx Cert.KernelIdeal Cert.KernelIdeal.Gen

private theorem trips_eq : k2_t1_loop.trips = 8 := by decide

private theorem col_apply {α : Type} (q : S1x256x2.Idx → α) (o : ℕ) (h : S256x2.Slices ![0, o] S256x1) (r : Fin 256)
    (c : Fin 2) (hc : c.val = o + (0 : Fin 1).val) :
    extractStridedSlice S256x1 ![0, o] (shapeCast S256x2 q shapeCasts_S1x256x2_S256x2) h (ix2 r (0 : Fin 1))
      = q (ix3 (0 : Fin 1) r c) :=
  (slice2_axis1_apply o _ h r (0 : Fin 1) c hc).trans (shapeCast_1ab_ab_apply q shapeCasts_S1x256x2_S256x2 r c)

private theorem pay4_apply (v0 v2 : Vec Ideal S1x1x1000 .f32) (q : Vec Ideal S1x256x2 .f32) (a : Vec Ideal S1x1000 .f32)
    (n : Fin 1000) :
    k2_pay4 (F := Ideal) v0 v2 q a (ix2 (0 : Fin 1) n)
      = min (a (ix2 (0 : Fin 1) n)) (Finset.univ.inf fun r : Fin 256 =>
          (c2 * q (ix3 (0 : Fin 1) r 0)) * v0 (ix3 (0 : Fin 1) (0 : Fin 1) n)
            + (c2 * q (ix3 (0 : Fin 1) r 1)) * v2 (ix3 (0 : Fin 1) (0 : Fin 1) n)
            + (q (ix3 (0 : Fin 1) r 0) * q (ix3 (0 : Fin 1) r 0) + q (ix3 (0 : Fin 1) r 1) * q (ix3 (0 : Fin 1) r 1))) := by
  unfold k2_pay4 k2_pay1 k2_pay2
  refine (congrFun (shapeCast_self _ _) _).trans ?_
  refine congrArg (min (a (ix2 (0 : Fin 1) n))) ?_
  refine (shapeCast_a_1a_apply _ _ (0 : Fin 1) n).trans ?_
  refine (rowsMin_apply _ _ _ _ n).trans ?_
  refine Finset.inf_congr rfl fun r _ => ?_
  have hx := col_apply q 0 slices_S256x2_o0_0_S256x1 r 0 rfl
  have hy := col_apply q 1 slices_S256x2_o0_1_S256x1 r 1 rfl
  refine congrArg₂ (· + ·) (congrArg₂ (· + ·) (congrArg₂ (· * ·) ?_ ?_) (congrArg₂ (· * ·) ?_ ?_)) ?_
  · exact (broadcastTo_a1_ab_apply _ _ r n).trans (congrArg (c2 * ·) hx)
  · exact (broadcastTo_1b_ab_apply _ _ r n).trans (shapeCast_1ab_ab_apply v0 _ (0 : Fin 1) n)
  · exact (broadcastTo_a1_ab_apply _ _ r n).trans (congrArg (c2 * ·) hy)
  · exact (broadcastTo_1b_ab_apply _ _ r n).trans (shapeCast_1ab_ab_apply v2 _ (0 : Fin 1) n)
  · exact (broadcastTo_a1_ab_apply _ _ r n).trans (congrArg₂ (· + ·) (congrArg₂ (· * ·) hx hx) (congrArg₂ (· * ·) hy hy))

private theorem pay3_apply (n : Fin 1000) : k2_pay3 (F := Ideal) (ix2 (0 : Fin 1) n) = ⊤ := by
  unfold k2_pay3
  refine (congrFun (shapeCast_self _ _) _).trans ?_
  exact ofBits_posInf

private theorem ld_chunk {α : Type} (p : S1x2048x2.Idx → α) (kk : Fin k2_t1_loop.trips) (r : Fin 256) (c : Fin 2) (mm : Fin 2048)
    (hm : mm.val = 256 * kk.val + r.val) :
    (fun y : S1x256x2.Idx => p ((Val.chunk2 kk).idx y)) (ix3 (0 : Fin 1) r c) = p (ix3 (0 : Fin 1) mm c) := by
  refine congrArg p (funext fun a => Fin.ext ?_)
  show (k2_off1 kk) a + 1 * (ix3 (0 : Fin 1) r c a).val = (ix3 (0 : Fin 1) mm c a).val
  rw [k2_off1_eq]
  match a with
  | ⟨0, _⟩ => rfl
  | ⟨1, _⟩ => show 256 * kk.val + 1 * r.val = mm.val; omega
  | ⟨2, _⟩ => show 0 + 1 * c.val = c.val; omega

-- After k chunks the running minimum is the minimum over the first 256 k landmarks.
theorem acc2_apply (v0 v2 : Vec Ideal S1x1x1000 .f32) (p : Vec Ideal S1x2048x2 .f32) (k : ℕ) (hk : k ≤ 8) (n : Fin 1000) :
    Val.acc2 (F := Ideal) v0 v2 p k (ix2 0 n)
      = (Finset.univ.filter (fun mm : Fin 2048 => mm.val < 256 * k)).inf (fun mm =>
          (c2 * p (ix3 0 mm 0)) * v0 (ix3 0 0 n) + (c2 * p (ix3 0 mm 1)) * v2 (ix3 0 0 n)
            + (p (ix3 0 mm 0) * p (ix3 0 mm 0) + p (ix3 0 mm 1) * p (ix3 0 mm 1))) := by
  induction k with
  | zero =>
    rw [Val.acc2, pay3_apply, Finset.filter_false_of_mem (fun mm _ => by omega), Finset.inf_empty]
  | succ k ih =>
    have hlt : k < k2_t1_loop.trips := by rw [trips_eq]; omega
    rw [Val.acc2, dif_pos hlt, pay4_apply, ih (by omega)]
    refine Eq.trans ?_ (inf_chunk_step (M := 2048) (L := 256) _ k (by omega))
    refine congrArg (min _) (Finset.inf_congr rfl fun r _ => ?_)
    have ea := ld_chunk p ⟨k, hlt⟩ r 0 ⟨256 * k + r.val, by have := r.isLt; omega⟩ rfl
    have eb := ld_chunk p ⟨k, hlt⟩ r 1 ⟨256 * k + r.val, by have := r.isLt; omega⟩ rfl
    exact congrArg₂ (· + ·) (congrArg₂ (· + ·) (congrArg (c2 * · * _) ea) (congrArg (c2 * · * _) eb))
      (congrArg₂ (· + ·) (congrArg₂ (· * ·) ea ea) (congrArg₂ (· * ·) eb eb))

private theorem ld_rowX {α : Type} (x : S1x2x1000.Idx → α) (n : Fin 1000) :
    (fun y : S1x1x1000.Idx => x (Val.rowX2.idx y)) (ix3 (0 : Fin 1) (0 : Fin 1) n) = x (ix3 (0 : Fin 1) (0 : Fin 2) n) :=
  congrArg x (funext fun a => Fin.ext (by
    match a with
    | ⟨0, _⟩ => rfl
    | ⟨1, _⟩ => rfl
    | ⟨2, _⟩ => show 0 + 1 * n.val = n.val; omega))

private theorem ld_rowY {α : Type} (x : S1x2x1000.Idx → α) (n : Fin 1000) :
    (fun y : S1x1x1000.Idx => x (Val.rowY2.idx y)) (ix3 (0 : Fin 1) (0 : Fin 1) n) = x (ix3 (0 : Fin 1) (1 : Fin 2) n) :=
  congrArg x (funext fun a => Fin.ext (by
    match a with
    | ⟨0, _⟩ => rfl
    | ⟨1, _⟩ => rfl
    | ⟨2, _⟩ => show 0 + 1 * n.val = n.val; omega))

-- Read at a vertex v: |v|² plus the minimum over all 2048 landmarks p of (-2 p) · v + |p|².
theorem out2_apply (x : Vec Ideal S1x2x1000 .f32) (p : Vec Ideal S1x2048x2 .f32) (n : Fin 1000) :
    Val.out2 (F := Ideal) x p (ix3 0 0 n)
      = (x (ix3 0 0 n) * x (ix3 0 0 n) + x (ix3 0 1 n) * x (ix3 0 1 n))
        + Finset.univ.inf (fun mm : Fin 2048 =>
            (c2 * p (ix3 0 mm 0)) * x (ix3 0 0 n) + (c2 * p (ix3 0 mm 1)) * x (ix3 0 1 n)
              + (p (ix3 0 mm 0) * p (ix3 0 mm 0) + p (ix3 0 mm 1) * p (ix3 0 mm 1))) := by
  unfold Val.out2 k2_pay5 k2_pay1 k2_pay2
  refine (shapeCast_ab_1ab_apply _ _ (0 : Fin 1) (0 : Fin 1) n).trans ?_
  have hX := (shapeCast_1ab_ab_apply (View.ld x Val.rowX2) shapeCasts_S1x1x1000_S1x1000 (0 : Fin 1) n).trans (ld_rowX x n)
  have hY := (shapeCast_1ab_ab_apply (View.ld x Val.rowY2) shapeCasts_S1x1x1000_S1x1000 (0 : Fin 1) n).trans (ld_rowY x n)
  refine congrArg₂ (· + ·) (congrArg₂ (· + ·) (congrArg₂ (· * ·) hX hX) (congrArg₂ (· * ·) hY hY)) ?_
  rw [trips_eq]
  refine (acc2_apply _ _ p 8 (le_refl 8) n).trans ?_
  rw [Finset.filter_true_of_mem (fun mm _ => by have := mm.isLt; omega)]
  refine Finset.inf_congr rfl fun mm _ => ?_
  exact congrArg₂ (· + ·) (congrArg₂ (· + ·) (congrArg (c2 * p (ix3 0 mm 0) * ·) (ld_rowX x n))
    (congrArg (c2 * p (ix3 0 mm 1) * ·) (ld_rowY x n))) rfl

open Idealize.ShloMosaic.TcCoe Idealize.SL.Sem
open Idealize.ShloMosaic.Pipeline (Dat)

def chamK2 (xT : FVec Ideal S16x2x1000 .f32) (pts : FVec Ideal S16x2048x2 .f32) : FVec Ideal S16x1x1000 .f32 :=
  fun i =>
    let b : Fin 16 := i 0
    let n : Fin 1000 := i 2
    (xT (ix3 b 0 n) * xT (ix3 b 0 n) + xT (ix3 b 1 n) * xT (ix3 b 1 n))
      + Finset.univ.inf (fun mm : Fin 2048 =>
          (c2 * pts (ix3 b mm 0)) * xT (ix3 b 0 n) + (c2 * pts (ix3 b mm 1)) * xT (ix3 b 1 n)
            + (pts (ix3 b mm 0) * pts (ix3 b mm 0) + pts (ix3 b mm 1) * pts (ix3 b mm 1)))

theorem chamK2_apply (xT : FVec Ideal S16x2x1000 .f32) (pts : FVec Ideal S16x2048x2 .f32) (b : Fin 16) (n : Fin 1000) :
    chamK2 xT pts (ix3 b 0 n)
      = (xT (ix3 b 0 n) * xT (ix3 b 0 n) + xT (ix3 b 1 n) * xT (ix3 b 1 n))
        + Finset.univ.inf (fun mm : Fin 2048 =>
            (c2 * pts (ix3 b mm 0)) * xT (ix3 b 0 n) + (c2 * pts (ix3 b mm 1)) * xT (ix3 b 1 n)
              + (pts (ix3 b mm 0) * pts (ix3 b mm 0) + pts (ix3 b mm 1) * pts (ix3 b mm 1))) := rfl

variable (V : (c : Dev nD) → (b : Ref sig .tc) → Buf (Elt Ideal) ((c : Thread nD τ).loc b))

private theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

private abbrev xarr (c : Dev nD) : Vec Ideal S16x2x1000 .f32 := V c (Pipeline.arrRef spec2 0)
private abbrev parr (c : Dev nD) : Vec Ideal S16x2048x2 .f32 := V c (Pipeline.arrRef spec2 1)
private abbrev xblk (c : Dev nD) (t : Fin cfg2.N) : Vec Ideal S1x2x1000 .f32 := iblk2 V c 0 t
private abbrev pblk (c : Dev nD) (t : Fin cfg2.N) : Vec Ideal S1x2048x2 .f32 := iblk2 V c 1 t

private theorem xblk_apply (c : Dev nD) (t : Fin cfg2.N) (b : Fin 16) (hb : b.val = t.val) (j : Fin 2) (n : Fin 1000) :
    xblk V c t (ix3 (0 : Fin 1) j n) = xarr V c (ix3 b j n) := by
  obtain ⟨ea, eb, ec, -⟩ := idx_facts t
  show V c (Pipeline.arrRef spec2 0) (((cfg2.win 0).blk t).view.emb (ix3 (0 : Fin 1) j n)) = V c (Pipeline.arrRef spec2 0) (ix3 b j n)
  refine congrArg (V c (Pipeline.arrRef spec2 0)) (funext fun a => Fin.ext ?_)
  match a with
  | ⟨0, _⟩ => show win2_0.index t (0 : Fin 3) * 1 + 1 * (0 : Fin 1).val = b.val; rw [ea, hb]; simp
  | ⟨1, _⟩ => show win2_0.index t (1 : Fin 3) * 2 + 1 * j.val = j.val; rw [eb]; omega
  | ⟨2, _⟩ => show win2_0.index t (2 : Fin 3) * 1000 + 1 * n.val = n.val; rw [ec]; omega

private theorem pblk_apply (c : Dev nD) (t : Fin cfg2.N) (b : Fin 16) (hb : b.val = t.val) (mm : Fin 2048) (j : Fin 2) :
    pblk V c t (ix3 (0 : Fin 1) mm j) = parr V c (ix3 b mm j) := by
  obtain ⟨-, -, -, ea, eb, ec, -⟩ := idx_facts t
  show V c (Pipeline.arrRef spec2 1) (((cfg2.win 1).blk t).view.emb (ix3 (0 : Fin 1) mm j)) = V c (Pipeline.arrRef spec2 1) (ix3 b mm j)
  refine congrArg (V c (Pipeline.arrRef spec2 1)) (funext fun a => Fin.ext ?_)
  match a with
  | ⟨0, _⟩ => show win2_1.index t (0 : Fin 3) * 1 + 1 * (0 : Fin 1).val = b.val; rw [ea, hb]; simp
  | ⟨1, _⟩ => show win2_1.index t (1 : Fin 3) * 2048 + 1 * mm.val = mm.val; rw [eb]; omega
  | ⟨2, _⟩ => show win2_1.index t (2 : Fin 3) * 2 + 1 * j.val = j.val; rw [ec]; omega

private theorem flushed_eq (c : Dev nD) (t : Fin cfg2.N) :
    (dat2 V c).flushed 2 t = ((cfg2.win 2).blk t).view.read (Elt Ideal) (chamK2 (xarr V c) (parr V c)) := by
  show (cfg2.win 2).cut (grid2.coords t) ((dat2 V c).after 2 t) = _
  rw [after2_2]
  obtain ⟨-, -, -, -, -, -, ea, eb, ec⟩ := idx_facts t
  have htN : t.val < 16 := t.isLt
  funext y
  obtain ⟨u, v, n, rfl⟩ : ∃ (u : Fin 1) (v : Fin 1) (n : Fin 1000), y = ix3 u v n := ⟨y 0, y 1, y 2, eq_ix3 y⟩
  obtain rfl : u = 0 := Subsingleton.elim _ _
  obtain rfl : v = 0 := Subsingleton.elim _ _
  have hemb : ((cfg2.win 2).blk t).view.emb (ix3 (0 : Fin 1) (0 : Fin 1) n) = ix3 (⟨t.val, htN⟩ : Fin 16) (0 : Fin 1) n :=
    funext fun a => Fin.ext (by
      match a with
      | ⟨0, _⟩ => show win2_2.index t (0 : Fin 3) * 1 + 1 * (0 : Fin 1).val = t.val; rw [ea]; simp
      | ⟨1, _⟩ => show win2_2.index t (1 : Fin 3) * 1 + 1 * (0 : Fin 1).val = (0 : Fin 1).val; rw [eb]; simp
      | ⟨2, _⟩ => show win2_2.index t (2 : Fin 3) * 1000 + 1 * n.val = n.val; rw [ec]; omega)
  refine (out2_apply (xblk V c t) (pblk V c t) n).trans ?_
  refine Eq.trans ?_ (congrArg (chamK2 (xarr V c) (parr V c)) hemb).symm
  refine Eq.trans ?_ (chamK2_apply (xarr V c) (parr V c) ⟨t.val, htN⟩ n).symm
  have hxa := xblk_apply V c t ⟨t.val, htN⟩ rfl 0 n
  have hxb := xblk_apply V c t ⟨t.val, htN⟩ rfl 1 n
  refine congrArg₂ (· + ·) (congrArg₂ (· + ·) (congrArg₂ (· * ·) hxa hxa) (congrArg₂ (· * ·) hxb hxb))
    (Finset.inf_congr rfl fun mm _ => ?_)
  have hpa := pblk_apply V c t ⟨t.val, htN⟩ rfl mm 0
  have hpb := pblk_apply V c t ⟨t.val, htN⟩ rfl mm 1
  exact congrArg₂ (· + ·) (congrArg₂ (· + ·) (congrArg₂ (· * ·) (congrArg (c2 * ·) hpa) hxa)
    (congrArg₂ (· * ·) (congrArg (c2 * ·) hpb) hxb)) (congrArg₂ (· + ·) (congrArg₂ (· * ·) hpa hpa) (congrArg₂ (· * ·) hpb hpb))

private theorem mem_blk (t : Fin cfg2.N) (i : S16x1x1000.Idx) :
    i ∈ ((cfg2.win 2).blk t).view.set ↔ ∀ a : Fin 3, win2_2.index t a * S1x1x1000.size a ≤ (i a).val ∧ (i a).val < win2_2.index t a * S1x1x1000.size a + S1x1x1000.size a := by
  show i ∈ ((View.whole (Pipeline.arrRef spec2 2)).slice (win2_2.rect t)).set ↔ _
  rw [View.set_slice_whole, Rect.mem_set_unit]
  exact Iff.rfl

private theorem cover (i : S16x1x1000.Idx) : ∃ t : Fin cfg2.N, (cfg2.win 2).flush t = true ∧ i ∈ ((cfg2.win 2).blk t).view.set := by
  have la : (i 0).val < 16 := (i 0).isLt
  have lb : (i 1).val < 1 := (i 1).isLt
  have lc : (i 2).val < 1000 := (i 2).isLt
  refine ⟨⟨(i 0).val, la⟩, flush2_2 _, ?_⟩
  obtain ⟨-, -, -, -, -, -, ea, eb, ec⟩ := idx_facts ⟨(i 0).val, la⟩
  rw [mem_blk]
  intro a
  match a with
  | ⟨0, _⟩ => show win2_2.index _ (0 : Fin 3) * 1 ≤ (i 0).val ∧ (i 0).val < win2_2.index _ (0 : Fin 3) * 1 + 1; rw [ea]; simp
  | ⟨1, _⟩ => show win2_2.index _ (1 : Fin 3) * 1 ≤ (i 1).val ∧ (i 1).val < win2_2.index _ (1 : Fin 3) * 1 + 1; rw [eb]; omega
  | ⟨2, _⟩ => show win2_2.index _ (2 : Fin 3) * 1000 ≤ (i 2).val ∧ (i 2).val < win2_2.index _ (2 : Fin 3) * 1000 + 1000; rw [ec]; omega

-- The grid's blocks tile the output array, one batch row each.
theorem arrAt_out2 (c : Dev nD) :
    (dat2 (F := Ideal) V c).arrAt 2 cfg2.N = chamK2 (V c (Pipeline.arrRef spec2 0)) (V c (Pipeline.arrRef spec2 1)) :=
  (dat2 V c).arrAt_eq_of_cover 2 (chamK2 (xarr V c) (parr V c)) (fun t _ => flushed_eq V c t) cover

end Cert.KernelIdeal.Hand

end
-- ==== Proof.KI.RegVal3.lean ====
import proofs.«423449_j63771674411371_3_alg».proof.Proof.KI.RegVal2
import proofs.«423449_j63771674411371_3_alg».proof.Proof.KI.ValLib
import proofs.«423449_j63771674411371_3_alg».proof.Proof.KI.Dat3
import Idealize.ShloMosaic.Lib.Pipeline.Value

noncomputable section

namespace Cert.KernelIdeal.Hand

open Idealize.ShloMosaic Idealize.ShloMosaic.ValueIdx Cert.KernelIdeal Cert.KernelIdeal.Gen

open Idealize.ShloMosaic.TcCoe Idealize.SL.Sem
open Idealize.ShloMosaic.Pipeline (Dat)

variable (V : (c : Dev nD) → (b : Ref sig .tc) → Buf (Elt Ideal) ((c : Thread nD τ).loc b))

private theorem idx_facts : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0 :=
  (by decide +kernel : ∀ t : Fin grid3.N, _)

private abbrev xarr (c : Dev nD) : Vec Ideal S16x2x1000 .f32 := V c (Pipeline.arrRef spec3 0)
private abbrev parr (c : Dev nD) : Vec Ideal S16x2048x2 .f32 := V c (Pipeline.arrRef spec3 1)
private abbrev xblk (c : Dev nD) (t : Fin cfg3.N) : Vec Ideal S1x2x1000 .f32 := iblk3 V c 0 t
private abbrev pblk (c : Dev nD) (t : Fin cfg3.N) : Vec Ideal S1x2048x2 .f32 := iblk3 V c 1 t

private theorem xblk_apply (c : Dev nD) (t : Fin cfg3.N) (b : Fin 16) (hb : b.val = t.val) (j : Fin 2) (n : Fin 1000) :
    xblk V c t (ix3 (0 : Fin 1) j n) = xarr V c (ix3 b j n) := by
  obtain ⟨ea, eb, ec, -⟩ := idx_facts t
  show V c (Pipeline.arrRef spec3 0) (((cfg3.win 0).blk t).view.emb (ix3 (0 : Fin 1) j n)) = V c (Pipeline.arrRef spec3 0) (ix3 b j n)
  refine congrArg (V c (Pipeline.arrRef spec3 0)) (funext fun a => Fin.ext ?_)
  match a with
  | ⟨0, _⟩ => show win3_0.index t (0 : Fin 3) * 1 + 1 * (0 : Fin 1).val = b.val; rw [ea, hb]; simp
  | ⟨1, _⟩ => show win3_0.index t (1 : Fin 3) * 2 + 1 * j.val = j.val; rw [eb]; omega
  | ⟨2, _⟩ => show win3_0.index t (2 : Fin 3) * 1000 + 1 * n.val = n.val; rw [ec]; omega

private theorem pblk_apply (c : Dev nD) (t : Fin cfg3.N) (b : Fin 16) (hb : b.val = t.val) (mm : Fin 2048) (j : Fin 2) :
    pblk V c t (ix3 (0 : Fin 1) mm j) = parr V c (ix3 b mm j) := by
  obtain ⟨-, -, -, ea, eb, ec, -⟩ := idx_facts t
  show V c (Pipeline.arrRef spec3 1) (((cfg3.win 1).blk t).view.emb (ix3 (0 : Fin 1) mm j)) = V c (Pipeline.arrRef spec3 1) (ix3 b mm j)
  refine congrArg (V c (Pipeline.arrRef spec3 1)) (funext fun a => Fin.ext ?_)
  match a with
  | ⟨0, _⟩ => show win3_1.index t (0 : Fin 3) * 1 + 1 * (0 : Fin 1).val = b.val; rw [ea, hb]; simp
  | ⟨1, _⟩ => show win3_1.index t (1 : Fin 3) * 2048 + 1 * mm.val = mm.val; rw [eb]; omega
  | ⟨2, _⟩ => show win3_1.index t (2 : Fin 3) * 2 + 1 * j.val = j.val; rw [ec]; omega

private theorem flushed_eq (c : Dev nD) (t : Fin cfg3.N) :
    (dat3 V c).flushed 2 t = ((cfg3.win 2).blk t).view.read (Elt Ideal) (chamK2 (xarr V c) (parr V c)) := by
  show (cfg3.win 2).cut (grid3.coords t) ((dat3 V c).after 2 t) = _
  rw [after3_2]
  obtain ⟨-, -, -, -, -, -, ea, eb, ec⟩ := idx_facts t
  have htN : t.val < 16 := t.isLt
  funext y
  obtain ⟨u, v, n, rfl⟩ : ∃ (u : Fin 1) (v : Fin 1) (n : Fin 1000), y = ix3 u v n := ⟨y 0, y 1, y 2, eq_ix3 y⟩
  obtain rfl : u = 0 := Subsingleton.elim _ _
  obtain rfl : v = 0 := Subsingleton.elim _ _
  have hemb : ((cfg3.win 2).blk t).view.emb (ix3 (0 : Fin 1) (0 : Fin 1) n) = ix3 (⟨t.val, htN⟩ : Fin 16) (0 : Fin 1) n :=
    funext fun a => Fin.ext (by
      match a with
      | ⟨0, _⟩ => show win3_2.index t (0 : Fin 3) * 1 + 1 * (0 : Fin 1).val = t.val; rw [ea]; simp
      | ⟨1, _⟩ => show win3_2.index t (1 : Fin 3) * 1 + 1 * (0 : Fin 1).val = (0 : Fin 1).val; rw [eb]; simp
      | ⟨2, _⟩ => show win3_2.index t (2 : Fin 3) * 1000 + 1 * n.val = n.val; rw [ec]; omega)
  refine (out2_apply (xblk V c t) (pblk V c t) n).trans ?_
  refine Eq.trans ?_ (congrArg (chamK2 (xarr V c) (parr V c)) hemb).symm
  refine Eq.trans ?_ (chamK2_apply (xarr V c) (parr V c) ⟨t.val, htN⟩ n).symm
  have hxa := xblk_apply V c t ⟨t.val, htN⟩ rfl 0 n
  have hxb := xblk_apply V c t ⟨t.val, htN⟩ rfl 1 n
  refine congrArg₂ (· + ·) (congrArg₂ (· + ·) (congrArg₂ (· * ·) hxa hxa) (congrArg₂ (· * ·) hxb hxb))
    (Finset.inf_congr rfl fun mm _ => ?_)
  have hpa := pblk_apply V c t ⟨t.val, htN⟩ rfl mm 0
  have hpb := pblk_apply V c t ⟨t.val, htN⟩ rfl mm 1
  exact congrArg₂ (· + ·) (congrArg₂ (· + ·) (congrArg₂ (· * ·) (congrArg (c2 * ·) hpa) hxa)
    (congrArg₂ (· * ·) (congrArg (c2 * ·) hpb) hxb)) (congrArg₂ (· + ·) (congrArg₂ (· * ·) hpa hpa) (congrArg₂ (· * ·) hpb hpb))

private theorem mem_blk (t : Fin cfg3.N) (i : S16x1x1000.Idx) :
    i ∈ ((cfg3.win 2).blk t).view.set ↔ ∀ a : Fin 3, win3_2.index t a * S1x1x1000.size a ≤ (i a).val ∧ (i a).val < win3_2.index t a * S1x1x1000.size a + S1x1x1000.size a := by
  show i ∈ ((View.whole (Pipeline.arrRef spec3 2)).slice (win3_2.rect t)).set ↔ _
  rw [View.set_slice_whole, Rect.mem_set_unit]
  exact Iff.rfl

private theorem cover (i : S16x1x1000.Idx) : ∃ t : Fin cfg3.N, (cfg3.win 2).flush t = true ∧ i ∈ ((cfg3.win 2).blk t).view.set := by
  have la : (i 0).val < 16 := (i 0).isLt
  have lb : (i 1).val < 1 := (i 1).isLt
  have lc : (i 2).val < 1000 := (i 2).isLt
  refine ⟨⟨(i 0).val, la⟩, flush3_2 _, ?_⟩
  obtain ⟨-, -, -, -, -, -, ea, eb, ec⟩ := idx_facts ⟨(i 0).val, la⟩
  rw [mem_blk]
  intro a
  match a with
  | ⟨0, _⟩ => show win3_2.index _ (0 : Fin 3) * 1 ≤ (i 0).val ∧ (i 0).val < win3_2.index _ (0 : Fin 3) * 1 + 1; rw [ea]; simp
  | ⟨1, _⟩ => show win3_2.index _ (1 : Fin 3) * 1 ≤ (i 1).val ∧ (i 1).val < win3_2.index _ (1 : Fin 3) * 1 + 1; rw [eb]; omega
  | ⟨2, _⟩ => show win3_2.index _ (2 : Fin 3) * 1000 ≤ (i 2).val ∧ (i 2).val < win3_2.index _ (2 : Fin 3) * 1000 + 1000; rw [ec]; omega

theorem arrAt_out3 (c : Dev nD) :
    (dat3 (F := Ideal) V c).arrAt 2 cfg3.N = chamK2 (V c (Pipeline.arrRef spec3 0)) (V c (Pipeline.arrRef spec3 1)) :=
  (dat3 V c).arrAt_eq_of_cover 2 (chamK2 (xarr V c) (parr V c)) (fun t _ => flushed_eq V c t) cover

end Cert.KernelIdeal.Hand

end
-- ==== Proof.Ref.Value.lean ====
import proofs.«423449_j63771674411371_3_alg».proof.Proof.Ref.Run
import proofs.«423449_j63771674411371_3_alg».proof.Proof.Ref.StageDefs
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem gath_read (V : Valuation τ sig (Elt F)) :
    after opsB (after opsA V) (Proc.devRef .tc main_v28)
      = gathR (V (Proc.devRef .tc main_arg4)) (V (Proc.devRef .tc main_arg6)) (V (Proc.devRef .tc main_arg7))
          (V (Proc.devRef .tc main_arg8)) (V (Proc.devRef .tc main_arg9)) := by
  chain_rfl

theorem proj_read (W : Valuation τ sig (Elt F)) :
    after opsH (after opsG (after opsF (after opsE (after opsD (after opsC (after opsB W)))))) (Proc.devRef .tc main_v119)
      = projR (after opsB W (Proc.devRef .tc main_v28)) (W (Proc.devRef .tc main_arg5)) := by
  chain_rfl

theorem cham0_read (W : Valuation τ sig (Elt F)) :
    after opsH W (Proc.devRef .tc main_v134)
      = chamR2000 (sl0 (after opsH W (Proc.devRef .tc main_v119))) (W (Proc.devRef .tc main_arg0)) := by
  chain_rfl

theorem cham1_read (W : Valuation τ sig (Elt F)) :
    after opsI (after opsH W) (Proc.devRef .tc main_v153)
      = chamR2000 (sl1 (after opsH W (Proc.devRef .tc main_v119))) (W (Proc.devRef .tc main_arg1)) := by
  chain_rfl

theorem cham2_read (W : Valuation τ sig (Elt F)) :
    after opsI (after opsH W) (Proc.devRef .tc main_v172)
      = chamR1000 (sl2 (after opsH W (Proc.devRef .tc main_v119))) (W (Proc.devRef .tc main_arg2)) := by
  chain_rfl

theorem cham3_read (W : Valuation τ sig (Elt F)) :
    after opsI (after opsH W) (Proc.devRef .tc main_v191)
      = chamR1000 (sl3 (after opsH W (Proc.devRef .tc main_v119))) (W (Proc.devRef .tc main_arg3)) := by
  chain_rfl

theorem tail_read (V : Valuation τ sig (Elt F)) :
    after opsK (after opsJ (after opsI (after opsH (after opsG (after opsF (after opsE (after opsD (after opsC (after opsB (after opsA V)))))))))) (Proc.devRef .tc main_v201)
      = tailR (after opsH (after opsG (after opsF (after opsE (after opsD (after opsC (after opsB (after opsA V))))))) (Proc.devRef .tc main_v134))
          (after opsI (after opsH (after opsG (after opsF (after opsE (after opsD (after opsC (after opsB (after opsA V)))))))) (Proc.devRef .tc main_v153))
          (after opsI (after opsH (after opsG (after opsF (after opsE (after opsD (after opsC (after opsB (after opsA V)))))))) (Proc.devRef .tc main_v172))
          (after opsI (after opsH (after opsG (after opsF (after opsE (after opsD (after opsC (after opsB (after opsA V)))))))) (Proc.devRef .tc main_v191)) := by
  chain_rfl

theorem keepAG (V : Valuation τ sig (Elt F)) (r : Ref sig .tc)
    (hA : r ∉ opsA_W) (hB : r ∉ opsB_W) (hC : r ∉ opsC_W) (hD : r ∉ opsD_W) (hE : r ∉ opsE_W) (hF : r ∉ opsF_W)
    (hG : r ∉ opsG_W) :
    after opsG (after opsF (after opsE (after opsD (after opsC (after opsB (after opsA V)))))) (Proc.devRef .tc r)
      = V (Proc.devRef .tc r) := by
  rw [after_of_writes_sub opsG _ opsG_writes hG, after_of_writes_sub opsF _ opsF_writes hF,
    after_of_writes_sub opsE _ opsE_writes hE, after_of_writes_sub opsD _ opsD_writes hD,
    after_of_writes_sub opsC _ opsC_writes hC, after_of_writes_sub opsB _ opsB_writes hB,
    after_of_writes_sub opsA _ opsA_writes hA]

theorem v119_read (V : Valuation τ sig (Elt F)) :
    after opsH (after opsG (after opsF (after opsE (after opsD (after opsC (after opsB (after opsA V))))))) (Proc.devRef .tc main_v119)
      = projR (gathR (V (Proc.devRef .tc main_arg4)) (V (Proc.devRef .tc main_arg6)) (V (Proc.devRef .tc main_arg7))
          (V (Proc.devRef .tc main_arg8)) (V (Proc.devRef .tc main_arg9))) (V (Proc.devRef .tc main_arg5)) := by
  rw [proj_read, gath_read, after_of_writes_sub (r := main_arg5) opsA _ opsA_writes (by decide)]

theorem Y_v119 (m : (ℓ : Loc nD τ sig) → Buf (Elt F) ℓ) (c : Dev nD) :
    Y m c (Proc.devRef .tc main_v119)
      = projR (gathR (m ((c.tc : Thread nD τ).loc main_arg4)) (m ((c.tc : Thread nD τ).loc main_arg6))
          (m ((c.tc : Thread nD τ).loc main_arg7)) (m ((c.tc : Thread nD τ).loc main_arg8))
          (m ((c.tc : Thread nD τ).loc main_arg9))) (m ((c.tc : Thread nD τ).loc main_arg5)) := by
  have e : ∀ V : Valuation τ sig (Elt F), after ops V (Proc.devRef .tc main_v119)
      = projR (gathR (V (Proc.devRef .tc main_arg4)) (V (Proc.devRef .tc main_arg6)) (V (Proc.devRef .tc main_arg7))
          (V (Proc.devRef .tc main_arg8)) (V (Proc.devRef .tc main_arg9))) (V (Proc.devRef .tc main_arg5)) := by
    intro V
    simp only [ops, StableHlo.after_append]
    rw [after_of_writes_sub (r := main_v119) opsK _ opsK_writes (by decide),
      after_of_writes_sub (r := main_v119) opsJ _ opsJ_writes (by decide),
      after_of_writes_sub (r := main_v119) opsI _ opsI_writes (by decide), v119_read]
  exact e _

theorem Y_v201 (m : (ℓ : Loc nD τ sig) → Buf (Elt F) ℓ) (c : Dev nD) :
    Y m c (Proc.devRef .tc main_v201)
      = tailR
          (chamR2000 (sl0 (projR (gathR (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg5)))) (m ((c.tc : Thread nD τ).loc main_arg0)))
          (chamR2000 (sl1 (projR (gathR (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg5)))) (m ((c.tc : Thread nD τ).loc main_arg1)))
          (chamR1000 (sl2 (projR (gathR (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg5)))) (m ((c.tc : Thread nD τ).loc main_arg2)))
          (chamR1000 (sl3 (projR (gathR (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg5)))) (m ((c.tc : Thread nD τ).loc main_arg3))) := by
  have e : ∀ V : Valuation τ sig (Elt F), after ops V (Proc.devRef .tc main_v201)
      = tailR
          (chamR2000 (sl0 (projR (gathR (V (Proc.devRef .tc main_arg4)) (V (Proc.devRef .tc main_arg6)) (V (Proc.devRef .tc main_arg7)) (V (Proc.devRef .tc main_arg8)) (V (Proc.devRef .tc main_arg9))) (V (Proc.devRef .tc main_arg5)))) (V (Proc.devRef .tc main_arg0)))
          (chamR2000 (sl1 (projR (gathR (V (Proc.devRef .tc main_arg4)) (V (Proc.devRef .tc main_arg6)) (V (Proc.devRef .tc main_arg7)) (V (Proc.devRef .tc main_arg8)) (V (Proc.devRef .tc main_arg9))) (V (Proc.devRef .tc main_arg5)))) (V (Proc.devRef .tc main_arg1)))
          (chamR1000 (sl2 (projR (gathR (V (Proc.devRef .tc main_arg4)) (V (Proc.devRef .tc main_arg6)) (V (Proc.devRef .tc main_arg7)) (V (Proc.devRef .tc main_arg8)) (V (Proc.devRef .tc main_arg9))) (V (Proc.devRef .tc main_arg5)))) (V (Proc.devRef .tc main_arg2)))
          (chamR1000 (sl3 (projR (gathR (V (Proc.devRef .tc main_arg4)) (V (Proc.devRef .tc main_arg6)) (V (Proc.devRef .tc main_arg7)) (V (Proc.devRef .tc main_arg8)) (V (Proc.devRef .tc main_arg9))) (V (Proc.devRef .tc main_arg5)))) (V (Proc.devRef .tc main_arg3))) := by
    intro V
    simp only [ops, StableHlo.after_append]
    rw [tail_read, cham0_read, cham1_read, cham2_read, cham3_read, v119_read,
      keepAG V main_arg0 (by decide) (by decide) (by decide) (by decide) (by decide) (by decide) (by decide),
      keepAG V main_arg1 (by decide) (by decide) (by decide) (by decide) (by decide) (by decide) (by decide),
      keepAG V main_arg2 (by decide) (by decide) (by decide) (by decide) (by decide) (by decide) (by decide),
      keepAG V main_arg3 (by decide) (by decide) (by decide) (by decide) (by decide) (by decide) (by decide)]
  exact e _

end Cert.ReferenceIdeal.Hand

end
-- ==== Proof.Bridge.Real.lean ====
import proofs.«423449_j63771674411371_3_alg».proof.Proof.Ref.StageDefs
import Idealize.ShloMosaic.PureOps
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Algebra.BigOperators.Group.Finset.Basic
import Mathlib.Tactic.Positivity
import Mathlib.Tactic.NormNum

noncomputable section

namespace Cert.Bridge

open Idealize.ShloMosaic
open scoped BigOperators

def IsReal (x : EReal) : Prop := ∃ r : ℝ, x = (r : EReal)

def AllReal {ι : Type} (v : ι → EReal) : Prop := ∀ i, IsReal (v i)

def IsPos (x : EReal) : Prop := ∃ r : ℝ, 0 < r ∧ x = (r : EReal)

def AllPos {ι : Type} (v : ι → EReal) : Prop := ∀ i, IsPos (v i)

def AllNonneg {ι : Type} (v : ι → EReal) : Prop := ∀ i, 0 ≤ v i

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) :
    IsReal (∑ i ∈ s, f i) :=
  Finset.sum_induction f IsReal (fun _ _ => IsReal.add) IsReal.zero h

theorem IsReal.min {x y : EReal} (hx : IsReal x) (hy : IsReal y) : IsReal (min x y) := by
  rcases min_choice x y with h | h <;> rw [h] <;> assumption

theorem IsPos.nonneg_add {x y : EReal} (hx : IsReal x) (h0 : 0 ≤ x) (hy : IsPos y) : IsPos (x + y) := by
  obtain ⟨a, rfl⟩ := hx; obtain ⟨b, hb, rfl⟩ := hy
  have ha : 0 ≤ a := EReal.coe_nonneg.mp h0
  exact ⟨a + b, by positivity, (EReal.coe_add a b).symm⟩

theorem IsReal.div_coe {x : EReal} {b : ℝ} (hx : IsReal x) (hb : b ≠ 0) : IsReal (Ideal.div x (b : EReal)) := by
  obtain ⟨a, rfl⟩ := hx
  rw [Ideal.div_coe hb]
  exact ⟨a * (1 / b), (EReal.coe_mul a (1 / b)).symm⟩

theorem IsReal.div {x y : EReal} (hx : IsReal x) (hy : IsPos y) : IsReal (Ideal.div x y) := by
  obtain ⟨b, hb, rfl⟩ := hy; exact hx.div_coe hb.ne'

theorem IsReal.sqrt {x : EReal} (hx : IsReal x) (h0 : 0 ≤ x) : IsReal (Ideal.sqrt x) := by
  obtain ⟨a, rfl⟩ := hx
  have ha : 0 ≤ a := EReal.coe_nonneg.mp h0
  rw [Ideal.sqrt_coe, if_neg (not_lt.mpr ha)]
  exact ⟨Real.sqrt a, rfl⟩

theorem sqrt_nonneg {x : EReal} (hx : IsReal x) (h0 : 0 ≤ x) : 0 ≤ Ideal.sqrt x := by
  obtain ⟨a, rfl⟩ := hx
  have ha : 0 ≤ a := EReal.coe_nonneg.mp h0
  rw [Ideal.sqrt_coe, if_neg (not_lt.mpr ha)]
  exact EReal.coe_nonneg.mpr (Real.sqrt_nonneg a)

theorem mul_self_nonneg_of_isReal {x : EReal} (hx : IsReal x) : 0 ≤ x * x := by
  obtain ⟨a, rfl⟩ := hx
  rw [← EReal.coe_mul]
  exact EReal.coe_nonneg.mpr (mul_self_nonneg a)

theorem isReal_ofBits_f32 (b : BitVec 32) (h : (b.extractLsb' 23 8).toNat ≠ 255) :
    IsReal (Ideal.ofBits .f32 b) := by
  have h' : ¬ (b.extractLsb' 23 8).toNat = 2 ^ 8 - 1 := by norm_num; exact h
  unfold Ideal.ofBits Ideal.ieee
  simp only [if_neg h']
  split_ifs <;> exact ⟨_, rfl⟩

theorem isPos_ofBits_f32 (b : BitVec 32) (hs : (b.extractLsb' (8 + 23) 1 == 1#1) = false)
    (h : (b.extractLsb' 23 8).toNat ≠ 255) (h0 : (b.extractLsb' 23 8).toNat ≠ 0) :
    IsPos (Ideal.ofBits .f32 b) := by
  have h' : ¬ (b.extractLsb' 23 8).toNat = 2 ^ 8 - 1 := by norm_num; exact h
  unfold Ideal.ofBits Ideal.ieee
  simp only [if_neg h', if_neg h0, hs]
  refine ⟨_, ?_, rfl⟩
  have : (0 : ℝ) < ((2 ^ 23 + (b.extractLsb' 0 23).toNat : ℕ) : ℝ) := by positivity
  rw [if_neg Bool.false_ne_true]
  exact mul_pos (mul_pos one_pos this) (zpow_pos (by norm_num) _)

theorem isReal_two : IsReal (Ideal.ofBits .f32 0x40000000#32) := isReal_ofBits_f32 _ (by decide)
theorem isReal_one : IsReal (Ideal.ofBits .f32 0x3F800000#32) := isReal_ofBits_f32 _ (by decide)
theorem isReal_zero : IsReal (Ideal.ofBits .f32 0x00000000#32) := isReal_ofBits_f32 _ (by decide)
theorem isPos_eps : IsPos (Ideal.ofBits .f32 0x322BCC77#32) :=
  isPos_ofBits_f32 _ (by decide) (by decide) (by decide)
theorem ofBits_zero_nonneg : 0 ≤ Ideal.ofBits .f32 0x00000000#32 := by
  rw [Ideal.ofBits_zero_f32]

section Vectors
variable {s t : Shape} {φ : FTy}

theorem allReal_mulf {a b : FVec Ideal s φ} (ha : AllReal a) (hb : AllReal b) :
    AllReal (Idealize.ShloMosaic.mulf a b) := fun i => (ha i).mul (hb i)

theorem allReal_addf {a b : FVec Ideal s φ} (ha : AllReal a) (hb : AllReal b) :
    AllReal (Idealize.ShloMosaic.addf a b) := fun i => (ha i).add (hb i)

theorem allReal_subf {a b : FVec Ideal s φ} (ha : AllReal a) (hb : AllReal b) :
    AllReal (Idealize.ShloMosaic.subf a b) := fun i => (ha i).sub (hb i)

theorem allReal_host_divf {a b : FVec Ideal s φ} (ha : AllReal a) (hb : AllPos b) :
    AllReal (Host.divf a b) := fun i => (ha i).div (hb i)

theorem allReal_host_sqrt {a : FVec Ideal s φ} (ha : AllReal a) (h0 : AllNonneg a) :
    AllReal (Host.sqrt a) := fun i => (ha i).sqrt (h0 i)

theorem allNonneg_host_sqrt {a : FVec Ideal s φ} (ha : AllReal a) (h0 : AllNonneg a) :
    AllNonneg (Host.sqrt a) := fun i => sqrt_nonneg (ha i) (h0 i)

theorem allNonneg_mulf_self {a : FVec Ideal s φ} (ha : AllReal a) :
    AllNonneg (Idealize.ShloMosaic.mulf a a) := fun i => mul_self_nonneg_of_isReal (ha i)

theorem allPos_addf {a b : FVec Ideal s φ} (ha : AllReal a) (h0 : AllNonneg a) (hb : AllPos b) :
    AllPos (Idealize.ShloMosaic.addf a b) := fun i => IsPos.nonneg_add (ha i) (h0 i) (hb i)

theorem allReal_host_reduceAdd {axes : List (Fin s.rank)} {u : Shape} {x : FVec Ideal s φ} {init : u.Idx → Ideal φ}
    (h : s.ReducesTo axes t) (hu : 0 < u.numel) (hx : AllReal x) (hi : AllReal init) :
    AllReal (Host.reduceAdd x init h hu) := fun _ =>
  (hi _).add (IsReal.sum _ _ fun i _ => hx i)

theorem allNonneg_host_reduceAdd {axes : List (Fin s.rank)} {u : Shape} {x : FVec Ideal s φ} {init : u.Idx → Ideal φ}
    (h : s.ReducesTo axes t) (hu : 0 < u.numel) (hx : AllNonneg x) (hi : AllNonneg init) :
    AllNonneg (Host.reduceAdd x init h hu) := fun _ =>
  add_nonneg (hi _) (Finset.sum_nonneg fun i _ => hx i)

theorem allReal_host_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun _ =>
  IsReal.zero.add (IsReal.sum _ _ fun _ _ => (hl _).mul (hr _))

theorem allReal_broadcastInDim {x : s.Idx → EReal} (t : Shape) (dims : Fin s.rank → Fin t.rank)
    (h : s.BroadcastsInDim t dims) (hx : AllReal x) : AllReal (broadcastInDim t dims h x) := fun _ => hx _

theorem allPos_broadcastInDim {x : s.Idx → EReal} (t : Shape) (dims : Fin s.rank → Fin t.rank)
    (h : s.BroadcastsInDim t dims) (hx : AllPos x) : AllPos (broadcastInDim t dims h x) := fun _ => hx _

theorem allNonneg_broadcastInDim {x : s.Idx → EReal} (t : Shape) (dims : Fin s.rank → Fin t.rank)
    (h : s.BroadcastsInDim t dims) (hx : AllNonneg x) : AllNonneg (broadcastInDim t dims h x) := fun _ => hx _

theorem allReal_extractStridedSlice {x : s.Idx → EReal} (t : Shape) (off : Fin s.rank → Nat) (h : s.Slices off t)
    (hx : AllReal x) : AllReal (extractStridedSlice t off x h) := fun _ => hx _

theorem allReal_shapeCast {x : s.Idx → EReal} (t : Shape) (h : s.ShapeCasts t) (hx : AllReal x) :
    AllReal (shapeCast t x h) := fun _ => hx _

theorem allReal_host_gather {si : Shape} {w : Nat} (d : GatherDims s si t) {x : s.Idx → EReal} (idx : IVec si w)
    (hx : AllReal x) : AllReal (Host.gather d x idx) := fun _ => hx _

theorem allReal_concatenate (t : Shape) (a : Fin t.rank) (xs : List ((s : Shape) × (s.Idx → EReal)))
    (h : Shape.Concatenates (xs.map (·.1)) t a) (hxs : ∀ p ∈ xs, AllReal p.2) :
    AllReal (concatenate t a xs h) := fun j => by
  unfold concatenate
  exact hxs _ (List.getElem_mem _) _

theorem allReal_concatenate3 (t : Shape) (a : Fin t.rank) {s₁ s₂ s₃ : Shape}
    {x₁ : s₁.Idx → EReal} {x₂ : s₂.Idx → EReal} {x₃ : s₃.Idx → EReal}
    (h : Shape.Concatenates (([⟨s₁, x₁⟩, ⟨s₂, x₂⟩, ⟨s₃, x₃⟩] : List ((s : Shape) × (s.Idx → EReal))).map (·.1)) t a)
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl <;> assumption)

theorem allReal_concatenate4 (t : Shape) (a : Fin t.rank) {s₁ s₂ s₃ s₄ : Shape}
    {x₁ : s₁.Idx → EReal} {x₂ : s₂.Idx → EReal} {x₃ : s₃.Idx → EReal} {x₄ : s₄.Idx → EReal}
    (h : Shape.Concatenates (([⟨s₁, x₁⟩, ⟨s₂, x₂⟩, ⟨s₃, x₃⟩, ⟨s₄, x₄⟩] : List ((s : Shape) × (s.Idx → EReal))).map (·.1)) t a)
    (h₁ : AllReal x₁) (h₂ : AllReal x₂) (h₃ : AllReal x₃) (h₄ : AllReal x₄) :
    AllReal (concatenate t a [⟨s₁, x₁⟩, ⟨s₂, x₂⟩, ⟨s₃, x₃⟩, ⟨s₄, x₄⟩] h) :=
  allReal_concatenate t a _ h (by
    intro p hp
    simp only [List.mem_cons, List.not_mem_nil, or_false] at hp
    rcases hp with rfl | rfl | rfl | rfl <;> assumption)

theorem allReal_constant (s : Shape) {φ : FTy} {b : BitVec φ.bits} (h : IsReal (Ideal.ofBits φ b)) :
    AllReal (constant (F := Ideal) s φ b) := fun _ => h

theorem allPos_constant (s : Shape) {φ : FTy} {b : BitVec φ.bits} (h : IsPos (Ideal.ofBits φ b)) :
    AllPos (constant (F := Ideal) s φ b) := fun _ => h

theorem allNonneg_constant_zero (s : Shape) : AllNonneg (constant (F := Ideal) s .f32 0x00000000#32) := fun _ =>
  ofBits_zero_nonneg

end Vectors

section Projection
open Cert.ReferenceIdeal

set_option maxHeartbeats 4000000 in
theorem projR_real (vc : FVec Ideal S16x6000x3 .f32) (cams : FVec Ideal S16x7 .f32)
    (hv : AllReal vc) (hc : AllReal cams) :
    AllReal (Cert.ReferenceIdeal.Hand.projR (F := Ideal) vc cams) := by
  unfold Cert.ReferenceIdeal.Hand.projR
  dsimp only
  repeat' first
    | exact hv
    | exact hc
    | exact isReal_two
    | exact isReal_one
    | exact isReal_zero
    | exact isPos_eps
    | with_reducible apply allReal_mulf
    | with_reducible apply allReal_addf
    | with_reducible apply allReal_subf
    | with_reducible apply allReal_broadcastInDim
    | with_reducible apply allReal_extractStridedSlice
    | with_reducible apply allReal_shapeCast
    | with_reducible apply allReal_host_dotGeneral
    | with_reducible apply allReal_host_divf
    | with_reducible apply allReal_host_sqrt
    | with_reducible apply allReal_host_reduceAdd
    | with_reducible apply allReal_constant
    | with_reducible apply allPos_broadcastInDim
    | with_reducible apply allPos_addf
    | with_reducible apply allPos_constant
    | with_reducible apply allNonneg_host_sqrt
    | with_reducible apply allNonneg_broadcastInDim
    | with_reducible apply allNonneg_host_reduceAdd
    | with_reducible apply allNonneg_mulf_self
    | with_reducible apply allNonneg_constant_zero
    | with_reducible apply allReal_concatenate3
    | apply allReal_concatenate3

theorem gathR_real (verts : FVec Ideal S16x8000x3 .f32) (i6 i7 : IVec S2000 32) (i8 i9 : IVec S1000 32)
    (hv : AllReal verts) : AllReal (Cert.ReferenceIdeal.Hand.gathR (F := Ideal) verts i6 i7 i8 i9) := by
  unfold Cert.ReferenceIdeal.Hand.gathR
  dsimp only
  apply allReal_concatenate4 <;> exact allReal_host_gather _ _ hv

end Projection

end Cert.Bridge

end
-- ==== Proof.Bridge.Pre.lean ====
import proofs.«423449_j63771674411371_3_alg».proof.Pre_finite_inputs
import Idealize.ShloMosaic.PureOps.Ideal
import Idealize.ShloMosaic.Lib.ReduceAll
import Idealize.ShloMosaic.Lib.ValueIdx

noncomputable section

namespace Cert.Bridge

open Idealize.ShloMosaic Idealize.ShloMosaic.ValueIdx Cert.Pre_finite_inputs

instance subsingleton_scalar_idx : Subsingleton S_.Idx := ⟨fun a b => funext fun d => d.elim0⟩

theorem inf_word : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

section OneInput
variable {s : Shape} {axes : List (Fin s.rank)}

theorem real_of_all (x : FVec Ideal s .f32) (hb : S_.BroadcastsInDim s (![] : Fin 0 → Fin s.rank))
    (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) := by
  have h := Host.reduce_andi_all _ _ hr hu ix0 e i
  change BitVec.ofBool (decide (max (x i) (-(x i)) < Ideal.ofBits .f32 0x7F800000#32)) = 1#1 at h
  rw [inf_word] at h
  refine real_of_abs_lt_top (x i) ?_
  by_contra hn
  rw [decide_eq_false hn] at h
  exact absurd h (by decide)

theorem nonneg_of_all (x : IVec s 32) (hb : S_.BroadcastsInDim s (![] : Fin 0 → Fin s.rank))
    (hr : s.ReducesTo axes S_) (hu : 0 < S_.numel)
    (e : Host.reduce IntOp.andi (cmpi .sge x (broadcastInDim s ![] hb (constantI S_ 32 0#32)))
          (constantI S_ 1 1#1) hr hu ix0 = 1#1) (i : s.Idx) : 0 ≤ (x i).toInt := by
  have h := Host.reduce_andi_all _ _ hr hu ix0 e i
  change IntOp.cmpi .sge (x i) 0#32 = 1#1 at h
  rw [IntOp.cmpi_sge, show (0#32 : BitVec 32).toInt = 0 from by decide] at h
  exact h

theorem lt_of_all (x : IVec s 32) (hb : S_.BroadcastsInDim s (![] : Fin 0 → Fin s.rank))
    (hr : s.ReducesTo axes S_) (hu : 0 < S_.numel)
    (e : Host.reduce IntOp.andi (cmpi .slt x (broadcastInDim s ![] hb (constantI S_ 32 8000#32)))
          (constantI S_ 1 1#1) hr hu ix0 = 1#1) (i : s.Idx) : (x i).toInt < 8000 := by
  have h := Host.reduce_andi_all _ _ hr hu ix0 e i
  change IntOp.cmpi .slt (x i) 8000#32 = 1#1 at h
  rw [IntOp.cmpi_slt, show (8000#32 : BitVec 32).toInt = 8000 from by decide] at h
  exact h

end OneInput

variable [Cert.Pre_finite_inputs.Facts]

theorem pre_gives (a0 a1 a2 a3 : FVec Ideal S16x2048x2 .f32) (a4 : FVec Ideal S16x8000x3 .f32)
    (a5 : FVec Ideal S16x7 .f32) (a6 a7 : IVec S2000 32) (a8 a9 : IVec S1000 32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, 0 ≤ (a6 i).toInt ∧ (a6 i).toInt < 8000) ∧ (∀ i, 0 ≤ (a7 i).toInt ∧ (a7 i).toInt < 8000)
    ∧ (∀ i, 0 ≤ (a8 i).toInt ∧ (a8 i).toInt < 8000) ∧ (∀ i, 0 ≤ (a9 i).toInt ∧ (a9 i).toInt < 8000) := by
  have e := congrFun h ix0
  dsimp only [fn, fn_part1, fn_part2, fn_part3] at e
  simp only [andi, IntOp.andi_eq_one] at e
  obtain ⟨⟨⟨⟨⟨⟨⟨⟨⟨⟨⟨⟨⟨e0, e1⟩, e2⟩, e3⟩, e4⟩, e5⟩, e6l⟩, e6u⟩, e7l⟩, e7u⟩, e8l⟩, e8u⟩, e9l⟩, e9u⟩ := e
  exact ⟨real_of_all a0 _ _ _ e0, real_of_all a1 _ _ _ e1, real_of_all a2 _ _ _ e2, real_of_all a3 _ _ _ e3,
    real_of_all a4 _ _ _ e4, real_of_all a5 _ _ _ e5,
    fun i => ⟨nonneg_of_all a6 _ _ _ e6l i, lt_of_all a6 _ _ _ e6u i⟩,
    fun i => ⟨nonneg_of_all a7 _ _ _ e7l i, lt_of_all a7 _ _ _ e7u i⟩,
    fun i => ⟨nonneg_of_all a8 _ _ _ e8l i, lt_of_all a8 _ _ _ e8u i⟩,
    fun i => ⟨nonneg_of_all a9 _ _ _ e9l i, lt_of_all a9 _ _ _ e9u i⟩⟩

end Cert.Bridge

end
-- ==== Proof.KI.StagesApply.lean ====
import proofs.«423449_j63771674411371_3_alg».proof.Proof.KI.Stages
import Idealize.ShloMosaic.Lib.ValueIdx
import Idealize.ShloMosaic.Lib.ValueLayout
import Idealize.ShloMosaic.Lib.Pipeline.Value

noncomputable section
namespace Cert.KernelIdeal.Hand
open Idealize.ShloMosaic Idealize.ShloMosaic.ValueIdx Idealize.SL.Sem
open Cert.KernelIdeal Cert.KernelIdeal.Gen
variable {F : FTy → Type} [FloatOps F]

theorem sqK2000_apply (d : FVec F S16x1x2000 .f32) (b : Fin 16) (n : Fin 2000) :
    sqK2000 (F := F) d (ix2 b n) = d (ix3 b 0 n) :=
  shapeCast_apply d shapeCasts_S16x1x2000_S16x2000 _ _ (by
    rw [Shape.rowMajor_val_three, Shape.rowMajor_val_two]
    show (b.val * 1 + 0) * 2000 + n.val = b.val * 2000 + n.val
    omega)

theorem sqK1000_apply (d : FVec F S16x1x1000 .f32) (b : Fin 16) (n : Fin 1000) :
    sqK1000 (F := F) d (ix2 b n) = d (ix3 b 0 n) :=
  shapeCast_apply d shapeCasts_S16x1x1000_S16x1000 _ _ (by
    rw [Shape.rowMajor_val_three, Shape.rowMajor_val_two]
    show (b.val * 1 + 0) * 1000 + n.val = b.val * 1000 + n.val
    omega)

theorem xT0_apply (v : FVec F S16x6000x2 .f32) (b : Fin 16) (d : Fin 2) (n : Fin 2000) :
    xT0 (F := F) v (ix3 b d n) = v (ix3 b ⟨n.val, by omega⟩ d) := by
  show transpose S16x2x2000 [0, 2, 1] (extractStridedSlice S16x2000x2 ![0, 0, 0] v slices_S16x6000x2_S16x2000x2_0_0_0) transposes_S16x2000x2_S16x2x2000_0_2_1 (ix3 b d n) = _
  rw [transpose_ix3_021_apply]
  exact extractStridedSlice_apply _ v _ _ _ fun a => match a with | ⟨0, _⟩ => (Nat.zero_add _).symm | ⟨1, _⟩ => (Nat.zero_add _).symm | ⟨2, _⟩ => (Nat.zero_add _).symm

theorem xT1_apply (v : FVec F S16x6000x2 .f32) (b : Fin 16) (d : Fin 2) (n : Fin 2000) :
    xT1 (F := F) v (ix3 b d n) = v (ix3 b ⟨2000 + n.val, by omega⟩ d) := by
  show transpose S16x2x2000 [0, 2, 1] (extractStridedSlice S16x2000x2 ![0, 2000, 0] v slices_S16x6000x2_S16x2000x2_0_2000_0) transposes_S16x2000x2_S16x2x2000_0_2_1 (ix3 b d n) = _
  rw [transpose_ix3_021_apply]
  exact extractStridedSlice_apply _ v _ _ _ fun a => match a with | ⟨0, _⟩ => (Nat.zero_add _).symm | ⟨1, _⟩ => rfl | ⟨2, _⟩ => (Nat.zero_add _).symm

theorem xT2_apply (v : FVec F S16x6000x2 .f32) (b : Fin 16) (d : Fin 2) (n : Fin 1000) :
    xT2 (F := F) v (ix3 b d n) = v (ix3 b ⟨4000 + n.val, by omega⟩ d) := by
  show transpose S16x2x1000 [0, 2, 1] (extractStridedSlice S16x1000x2 ![0, 4000, 0] v slices_S16x6000x2_S16x1000x2_0_4000_0) transposes_S16x1000x2_S16x2x1000_0_2_1 (ix3 b d n) = _
  rw [transpose_ix3_021_apply]
  exact extractStridedSlice_apply _ v _ _ _ fun a => match a with | ⟨0, _⟩ => (Nat.zero_add _).symm | ⟨1, _⟩ => rfl | ⟨2, _⟩ => (Nat.zero_add _).symm

theorem xT3_apply (v : FVec F S16x6000x2 .f32) (b : Fin 16) (d : Fin 2) (n : Fin 1000) :
    xT3 (F := F) v (ix3 b d n) = v (ix3 b ⟨5000 + n.val, by omega⟩ d) := by
  show transpose S16x2x1000 [0, 2, 1] (extractStridedSlice S16x1000x2 ![0, 5000, 0] v slices_S16x6000x2_S16x1000x2_0_5000_0) transposes_S16x1000x2_S16x2x1000_0_2_1 (ix3 b d n) = _
  rw [transpose_ix3_021_apply]
  exact extractStridedSlice_apply _ v _ _ _ fun a => match a with | ⟨0, _⟩ => (Nat.zero_add _).symm | ⟨1, _⟩ => rfl | ⟨2, _⟩ => (Nat.zero_add _).symm

end Cert.KernelIdeal.Hand
end
-- ==== Proof.Ref.Stages.lean ====
import proofs.«423449_j63771674411371_3_alg».proof.Proof.Ref.StageDefs
import Idealize.ShloMosaic.PureOps.Ideal.Laws
import Idealize.ShloMosaic.Lib.ValueIdx
import Idealize.ShloMosaic.Lib.IdealHost
import Idealize.ShloMosaic.Lib.Pipeline.Value

set_option synthInstance.maxSize 4096

noncomputable section

namespace Cert.ReferenceIdeal.Hand

open Idealize.ShloMosaic Idealize.ShloMosaic.ValueIdx Cert.ReferenceIdeal Cert.ReferenceIdeal.Facts₀

section Slices
variable {F : FTy → Type} [FloatOps F]

theorem sl0_apply (v : FVec F S16x6000x2 .f32) (b : Fin 16) (n : Fin 2000) (d : Fin 2) :
    sl0 v (ix3 b n d) = v (ix3 b ⟨n.val, by omega⟩ d) := by
  unfold sl0
  refine extractStridedSlice_apply _ v _ (ix3 b n d) _ fun a => ?_
  match a with
  | ⟨0, _⟩ => exact (Nat.zero_add _).symm
  | ⟨1, _⟩ => exact (Nat.zero_add _).symm
  | ⟨2, _⟩ => exact (Nat.zero_add _).symm

theorem sl1_apply (v : FVec F S16x6000x2 .f32) (b : Fin 16) (n : Fin 2000) (d : Fin 2) :
    sl1 v (ix3 b n d) = v (ix3 b ⟨2000 + n.val, by omega⟩ d) := by
  unfold sl1
  refine extractStridedSlice_apply _ v _ (ix3 b n d) _ fun a => ?_
  match a with
  | ⟨0, _⟩ => exact (Nat.zero_add _).symm
  | ⟨1, _⟩ => rfl
  | ⟨2, _⟩ => exact (Nat.zero_add _).symm

theorem sl2_apply (v : FVec F S16x6000x2 .f32) (b : Fin 16) (n : Fin 1000) (d : Fin 2) :
    sl2 v (ix3 b n d) = v (ix3 b ⟨4000 + n.val, by omega⟩ d) := by
  unfold sl2
  refine extractStridedSlice_apply _ v _ (ix3 b n d) _ fun a => ?_
  match a with
  | ⟨0, _⟩ => exact (Nat.zero_add _).symm
  | ⟨1, _⟩ => rfl
  | ⟨2, _⟩ => exact (Nat.zero_add _).symm

theorem sl3_apply (v : FVec F S16x6000x2 .f32) (b : Fin 16) (n : Fin 1000) (d : Fin 2) :
    sl3 v (ix3 b n d) = v (ix3 b ⟨5000 + n.val, by omega⟩ d) := by
  unfold sl3
  refine extractStridedSlice_apply _ v _ (ix3 b n d) _ fun a => ?_
  match a with
  | ⟨0, _⟩ => exact (Nat.zero_add _).symm
  | ⟨1, _⟩ => rfl
  | ⟨2, _⟩ => exact (Nat.zero_add _).symm

end Slices

theorem ofBits_posInf_f32 : Ideal.ofBits .f32 0x7F800000#32 = (⊤ : EReal) := by
  simp [Ideal.ofBits, Ideal.ieee]

theorem fold_min_posInf {N : Nat} (f : Fin N → EReal) :
    Finset.fold (FloatOps.minimumf (F := Ideal) (φ := .f32)) (Ideal.ofBits .f32 0x7F800000#32) f Finset.univ
      = Finset.univ.inf f := by
  rw [ofBits_posInf_f32]; rfl

theorem sumsq2048_apply (y : FVec Ideal S16x2048x2 .f32) (b : Fin 16) (mm : Fin 2048) :
    Host.reduceAdd (mulf y y) (constant (F := Ideal) S_ .f32 0x00000000#32) reducesTo_S16x2048x2_S16x2048_d2 h_S_ (ix2 b mm)
      = y (ix3 b mm 0) * y (ix3 b mm 0) + y (ix3 b mm 1) * y (ix3 b mm 1) := by
  have hred : S16x2048x2.Reduces [2] S16x2048 := by decide
  refine (Ideal.hostReduceAdd_single reducesTo_S16x2048x2_S16x2048_d2 hred (mulf y y) _ (ix2 b mm)).trans ?_
  show Ideal.ofBits .f32 0x00000000#32 + ∑ k : Fin 2, (mulf y y) (hred.lift (ix2 b mm) k) = _
  rw [Ideal.ofBits_zero_f32, zero_add, Fin.sum_univ_two]
  have e0 : hred.lift (ix2 b mm) (0 : Fin 2) = ix3 b mm 0 := by
    funext a; refine Fin.ext ?_
    match a with
    | ⟨0, _⟩ => rfl
    | ⟨1, _⟩ => rfl
    | ⟨2, _⟩ => rfl
  have e1 : hred.lift (ix2 b mm) (1 : Fin 2) = ix3 b mm 1 := by
    funext a; refine Fin.ext ?_
    match a with
    | ⟨0, _⟩ => rfl
    | ⟨1, _⟩ => rfl
    | ⟨2, _⟩ => rfl
  rw [e0, e1]; rfl

theorem lift2000 (h : S16x2000x2048.Reduces [2] S16x2000) (b : Fin 16) (n : Fin 2000) (mm : Fin 2048) :
    h.lift (ix2 b n) mm = ix3 b n mm := by
  funext a; refine Fin.ext ?_
  match a with
  | ⟨0, _⟩ => rfl
  | ⟨1, _⟩ => rfl
  | ⟨2, _⟩ => rfl

theorem sumsq2000_apply (x : FVec Ideal S16x2000x2 .f32) (b : Fin 16) (n : Fin 2000) :
    Host.reduceAdd (mulf x x) (constant (F := Ideal) S_ .f32 0x00000000#32) reducesTo_S16x2000x2_S16x2000_d2 h_S_ (ix2 b n)
      = x (ix3 b n 0) * x (ix3 b n 0) + x (ix3 b n 1) * x (ix3 b n 1) := by
  have hred : S16x2000x2.Reduces [2] S16x2000 := by decide
  refine (Ideal.hostReduceAdd_single reducesTo_S16x2000x2_S16x2000_d2 hred (mulf x x) _ (ix2 b n)).trans ?_
  show Ideal.ofBits .f32 0x00000000#32 + ∑ k : Fin 2, (mulf x x) (hred.lift (ix2 b n) k) = _
  rw [Ideal.ofBits_zero_f32, zero_add, Fin.sum_univ_two]
  have e0 : hred.lift (ix2 b n) (0 : Fin 2) = ix3 b n 0 := by
    funext a; refine Fin.ext ?_
    match a with
    | ⟨0, _⟩ => rfl
    | ⟨1, _⟩ => rfl
    | ⟨2, _⟩ => rfl
  have e1 : hred.lift (ix2 b n) (1 : Fin 2) = ix3 b n 1 := by
    funext a; refine Fin.ext ?_
    match a with
    | ⟨0, _⟩ => rfl
    | ⟨1, _⟩ => rfl
    | ⟨2, _⟩ => rfl
  rw [e0, e1]; rfl

theorem dot2000_apply (x : FVec Ideal S16x2000x2 .f32) (y : FVec Ideal S16x2048x2 .f32) (b : Fin 16) (n : Fin 2000) (mm : Fin 2048) :
    Host.dotGeneral dot_S16x2000x2_S16x2048x2_S16x2000x2048_2_2_1_1_0_0 none x y (ix3 b n mm)
      = x (ix3 b n 0) * y (ix3 b mm 0) + x (ix3 b n 1) * y (ix3 b mm 1) := by
  show FloatOps.dotGeneral _ none _ x y (ix3 b n mm) = _
  rw [Ideal.dotGeneral_apply,
    ← Equiv.sum_comp (contrEquiv1 dot_S16x2000x2_S16x2048x2_S16x2000x2048_2_2_1_1_0_0 2 rfl rfl).symm, Fin.sum_univ_two]
  have l (c : Fin 2) : dot_S16x2000x2_S16x2048x2_S16x2000x2048_2_2_1_1_0_0.lhsIdx (ix3 b n mm)
      ((contrEquiv1 dot_S16x2000x2_S16x2048x2_S16x2000x2048_2_2_1_1_0_0 2 rfl rfl).symm c) = ix3 b n c := by
    have c3 := contrEquiv1_symm_val dot_S16x2000x2_S16x2048x2_S16x2000x2048_2_2_1_1_0_0 2 rfl rfl c
    funext ax; apply Fin.ext
    match ax with
    | ⟨0, _⟩ => simp [DotDims.lhsIdx, dot_S16x2000x2_S16x2048x2_S16x2000x2048_2_2_1_1_0_0]; rfl
    | ⟨1, _⟩ => simp [DotDims.lhsIdx, dot_S16x2000x2_S16x2048x2_S16x2000x2048_2_2_1_1_0_0]; rfl
    | ⟨2, _⟩ => simp [DotDims.lhsIdx, dot_S16x2000x2_S16x2048x2_S16x2000x2048_2_2_1_1_0_0]; exact c3
  have r (c : Fin 2) : dot_S16x2000x2_S16x2048x2_S16x2000x2048_2_2_1_1_0_0.rhsIdx (ix3 b n mm)
      ((contrEquiv1 dot_S16x2000x2_S16x2048x2_S16x2000x2048_2_2_1_1_0_0 2 rfl rfl).symm c) = ix3 b mm c := by
    have c3 := contrEquiv1_symm_val dot_S16x2000x2_S16x2048x2_S16x2000x2048_2_2_1_1_0_0 2 rfl rfl c
    funext ax; apply Fin.ext
    match ax with
    | ⟨0, _⟩ => simp [DotDims.rhsIdx, dot_S16x2000x2_S16x2048x2_S16x2000x2048_2_2_1_1_0_0]; rfl
    | ⟨1, _⟩ => simp [DotDims.rhsIdx, dot_S16x2000x2_S16x2048x2_S16x2000x2048_2_2_1_1_0_0]; rfl
    | ⟨2, _⟩ => simp [DotDims.rhsIdx, dot_S16x2000x2_S16x2048x2_S16x2000x2048_2_2_1_1_0_0]; exact c3
  rw [l, l, r, r]

theorem bcastRow2000 {α : Type} (h1 : S16x2000x1.BroadcastsInDim S16x2000x2048 ![0, 1, 2]) (h2 : S16x2000.BroadcastsInDim S16x2000x1 ![0, 1])
    (v : S16x2000.Idx → α) (b : Fin 16) (n : Fin 2000) (mm : Fin 2048) :
    broadcastInDim S16x2000x2048 ![0, 1, 2] h1 (broadcastInDim S16x2000x1 ![0, 1] h2 v) (ix3 b n mm) = v (ix2 b n) := by
  refine (broadcastInDim_apply _ h1 _ (ix3 b n mm) (ix3 b n (0 : Fin 1)) ?_).trans
    (broadcastInDim_apply _ h2 v (ix3 b n (0 : Fin 1)) (ix2 b n) ?_)
  · intro a
    match a with
    | ⟨0, _⟩ => rfl
    | ⟨1, _⟩ => rfl
    | ⟨2, _⟩ => rfl
  · intro a
    match a with
    | ⟨0, _⟩ => rfl
    | ⟨1, _⟩ => rfl

theorem bcastCol2000 {α : Type} (h1 : S16x1x2048.BroadcastsInDim S16x2000x2048 ![0, 1, 2]) (h2 : S16x2048.BroadcastsInDim S16x1x2048 ![0, 2])
    (w : S16x2048.Idx → α) (b : Fin 16) (n : Fin 2000) (mm : Fin 2048) :
    broadcastInDim S16x2000x2048 ![0, 1, 2] h1 (broadcastInDim S16x1x2048 ![0, 2] h2 w) (ix3 b n mm) = w (ix2 b mm) := by
  refine (broadcastInDim_apply _ h1 _ (ix3 b n mm) (ix3 b (0 : Fin 1) mm) ?_).trans
    (broadcastInDim_apply _ h2 w (ix3 b (0 : Fin 1) mm) (ix2 b mm) ?_)
  · intro a
    match a with
    | ⟨0, _⟩ => rfl
    | ⟨1, _⟩ => rfl
    | ⟨2, _⟩ => rfl
  · intro a
    match a with
    | ⟨0, _⟩ => rfl
    | ⟨1, _⟩ => rfl

theorem min2000_apply (v : FVec Ideal S16x2000x2048 .f32) (b : Fin 16) (n : Fin 2000) :
    Host.reduce FloatOps.minimumf v (constant (F := Ideal) S_ .f32 0x7F800000#32) reducesTo_S16x2000x2048_S16x2000_d2 h_S_ (ix2 b n)
      = Finset.univ.inf fun mm : Fin 2048 => v (ix3 b n mm) := by
  have hred : S16x2000x2048.Reduces [2] S16x2000 := by decide
  refine (Host.reduce_eq_fold_single FloatOps.minimumf v _ reducesTo_S16x2000x2048_S16x2000_d2 hred h_S_ (ix2 b n)).trans ?_
  refine (fold_min_posInf (N := 2048) _).trans ?_
  refine congrArg (Finset.inf Finset.univ) (funext fun (mm : Fin 2048) => ?_)
  exact congrArg v (lift2000 hred b n mm)

theorem chamR2000_apply (x : FVec Ideal S16x2000x2 .f32) (y : FVec Ideal S16x2048x2 .f32) (b : Fin 16) (n : Fin 2000) :
    chamR2000 (F := Ideal) x y (ix2 b n)
      = Finset.univ.inf (fun mm : Fin 2048 =>
          (x (ix3 b n 0) * x (ix3 b n 0) + x (ix3 b n 1) * x (ix3 b n 1)
            + (y (ix3 b mm 0) * y (ix3 b mm 0) + y (ix3 b mm 1) * y (ix3 b mm 1)))
          - Ideal.ofBits .f32 0x40000000#32 * (x (ix3 b n 0) * y (ix3 b mm 0) + x (ix3 b n 1) * y (ix3 b mm 1))) := by
  unfold chamR2000
  refine (min2000_apply _ b n).trans ?_
  refine congrArg (Finset.inf Finset.univ) (funext fun (mm : Fin 2048) => ?_)
  rw [subf_apply, addf_apply, mulf_apply, bcastRow2000, bcastCol2000, broadcastInDim_scalar_apply, sumsq2000_apply,
    sumsq2048_apply, dot2000_apply]
  rfl

theorem lift1000 (h : S16x1000x2048.Reduces [2] S16x1000) (b : Fin 16) (n : Fin 1000) (mm : Fin 2048) :
    h.lift (ix2 b n) mm = ix3 b n mm := by
  funext a; refine Fin.ext ?_
  match a with
  | ⟨0, _⟩ => rfl
  | ⟨1, _⟩ => rfl
  | ⟨2, _⟩ => rfl

theorem sumsq1000_apply (x : FVec Ideal S16x1000x2 .f32) (b : Fin 16) (n : Fin 1000) :
    Host.reduceAdd (mulf x x) (constant (F := Ideal) S_ .f32 0x00000000#32) reducesTo_S16x1000x2_S16x1000_d2 h_S_ (ix2 b n)
      = x (ix3 b n 0) * x (ix3 b n 0) + x (ix3 b n 1) * x (ix3 b n 1) := by
  have hred : S16x1000x2.Reduces [2] S16x1000 := by decide
  refine (Ideal.hostReduceAdd_single reducesTo_S16x1000x2_S16x1000_d2 hred (mulf x x) _ (ix2 b n)).trans ?_
  show Ideal.ofBits .f32 0x00000000#32 + ∑ k : Fin 2, (mulf x x) (hred.lift (ix2 b n) k) = _
  rw [Ideal.ofBits_zero_f32, zero_add, Fin.sum_univ_two]
  have e0 : hred.lift (ix2 b n) (0 : Fin 2) = ix3 b n 0 := by
    funext a; refine Fin.ext ?_
    match a with
    | ⟨0, _⟩ => rfl
    | ⟨1, _⟩ => rfl
    | ⟨2, _⟩ => rfl
  have e1 : hred.lift (ix2 b n) (1 : Fin 2) = ix3 b n 1 := by
    funext a; refine Fin.ext ?_
    match a with
    | ⟨0, _⟩ => rfl
    | ⟨1, _⟩ => rfl
    | ⟨2, _⟩ => rfl
  rw [e0, e1]; rfl

theorem dot1000_apply (x : FVec Ideal S16x1000x2 .f32) (y : FVec Ideal S16x2048x2 .f32) (b : Fin 16) (n : Fin 1000) (mm : Fin 2048) :
    Host.dotGeneral dot_S16x1000x2_S16x2048x2_S16x1000x2048_2_2_1_1_0_0 none x y (ix3 b n mm)
      = x (ix3 b n 0) * y (ix3 b mm 0) + x (ix3 b n 1) * y (ix3 b mm 1) := by
  show FloatOps.dotGeneral _ none _ x y (ix3 b n mm) = _
  rw [Ideal.dotGeneral_apply,
    ← Equiv.sum_comp (contrEquiv1 dot_S16x1000x2_S16x2048x2_S16x1000x2048_2_2_1_1_0_0 2 rfl rfl).symm, Fin.sum_univ_two]
  have l (c : Fin 2) : dot_S16x1000x2_S16x2048x2_S16x1000x2048_2_2_1_1_0_0.lhsIdx (ix3 b n mm)
      ((contrEquiv1 dot_S16x1000x2_S16x2048x2_S16x1000x2048_2_2_1_1_0_0 2 rfl rfl).symm c) = ix3 b n c := by
    have c3 := contrEquiv1_symm_val dot_S16x1000x2_S16x2048x2_S16x1000x2048_2_2_1_1_0_0 2 rfl rfl c
    funext ax; apply Fin.ext
    match ax with
    | ⟨0, _⟩ => simp [DotDims.lhsIdx, dot_S16x1000x2_S16x2048x2_S16x1000x2048_2_2_1_1_0_0]; rfl
    | ⟨1, _⟩ => simp [DotDims.lhsIdx, dot_S16x1000x2_S16x2048x2_S16x1000x2048_2_2_1_1_0_0]; rfl
    | ⟨2, _⟩ => simp [DotDims.lhsIdx, dot_S16x1000x2_S16x2048x2_S16x1000x2048_2_2_1_1_0_0]; exact c3
  have r (c : Fin 2) : dot_S16x1000x2_S16x2048x2_S16x1000x2048_2_2_1_1_0_0.rhsIdx (ix3 b n mm)
      ((contrEquiv1 dot_S16x1000x2_S16x2048x2_S16x1000x2048_2_2_1_1_0_0 2 rfl rfl).symm c) = ix3 b mm c := by
    have c3 := contrEquiv1_symm_val dot_S16x1000x2_S16x2048x2_S16x1000x2048_2_2_1_1_0_0 2 rfl rfl c
    funext ax; apply Fin.ext
    match ax with
    | ⟨0, _⟩ => simp [DotDims.rhsIdx, dot_S16x1000x2_S16x2048x2_S16x1000x2048_2_2_1_1_0_0]; rfl
    | ⟨1, _⟩ => simp [DotDims.rhsIdx, dot_S16x1000x2_S16x2048x2_S16x1000x2048_2_2_1_1_0_0]; rfl
    | ⟨2, _⟩ => simp [DotDims.rhsIdx, dot_S16x1000x2_S16x2048x2_S16x1000x2048_2_2_1_1_0_0]; exact c3
  rw [l, l, r, r]

theorem bcastRow1000 {α : Type} (h1 : S16x1000x1.BroadcastsInDim S16x1000x2048 ![0, 1, 2]) (h2 : S16x1000.BroadcastsInDim S16x1000x1 ![0, 1])
    (v : S16x1000.Idx → α) (b : Fin 16) (n : Fin 1000) (mm : Fin 2048) :
    broadcastInDim S16x1000x2048 ![0, 1, 2] h1 (broadcastInDim S16x1000x1 ![0, 1] h2 v) (ix3 b n mm) = v (ix2 b n) := by
  refine (broadcastInDim_apply _ h1 _ (ix3 b n mm) (ix3 b n (0 : Fin 1)) ?_).trans
    (broadcastInDim_apply _ h2 v (ix3 b n (0 : Fin 1)) (ix2 b n) ?_)
  · intro a
    match a with
    | ⟨0, _⟩ => rfl
    | ⟨1, _⟩ => rfl
    | ⟨2, _⟩ => rfl
  · intro a
    match a with
    | ⟨0, _⟩ => rfl
    | ⟨1, _⟩ => rfl

theorem bcastCol1000 {α : Type} (h1 : S16x1x2048.BroadcastsInDim S16x1000x2048 ![0, 1, 2]) (h2 : S16x2048.BroadcastsInDim S16x1x2048 ![0, 2])
    (w : S16x2048.Idx → α) (b : Fin 16) (n : Fin 1000) (mm : Fin 2048) :
    broadcastInDim S16x1000x2048 ![0, 1, 2] h1 (broadcastInDim S16x1x2048 ![0, 2] h2 w) (ix3 b n mm) = w (ix2 b mm) := by
  refine (broadcastInDim_apply _ h1 _ (ix3 b n mm) (ix3 b (0 : Fin 1) mm) ?_).trans
    (broadcastInDim_apply _ h2 w (ix3 b (0 : Fin 1) mm) (ix2 b mm) ?_)
  · intro a
    match a with
    | ⟨0, _⟩ => rfl
    | ⟨1, _⟩ => rfl
    | ⟨2, _⟩ => rfl
  · intro a
    match a with
    | ⟨0, _⟩ => rfl
    | ⟨1, _⟩ => rfl

theorem min1000_apply (v : FVec Ideal S16x1000x2048 .f32) (b : Fin 16) (n : Fin 1000) :
    Host.reduce FloatOps.minimumf v (constant (F := Ideal) S_ .f32 0x7F800000#32) reducesTo_S16x1000x2048_S16x1000_d2 h_S_ (ix2 b n)
      = Finset.univ.inf fun mm : Fin 2048 => v (ix3 b n mm) := by
  have hred : S16x1000x2048.Reduces [2] S16x1000 := by decide
  refine (Host.reduce_eq_fold_single FloatOps.minimumf v _ reducesTo_S16x1000x2048_S16x1000_d2 hred h_S_ (ix2 b n)).trans ?_
  refine (fold_min_posInf (N := 2048) _).trans ?_
  refine congrArg (Finset.inf Finset.univ) (funext fun (mm : Fin 2048) => ?_)
  exact congrArg v (lift1000 hred b n mm)

theorem chamR1000_apply (x : FVec Ideal S16x1000x2 .f32) (y : FVec Ideal S16x2048x2 .f32) (b : Fin 16) (n : Fin 1000) :
    chamR1000 (F := Ideal) x y (ix2 b n)
      = Finset.univ.inf (fun mm : Fin 2048 =>
          (x (ix3 b n 0) * x (ix3 b n 0) + x (ix3 b n 1) * x (ix3 b n 1)
            + (y (ix3 b mm 0) * y (ix3 b mm 0) + y (ix3 b mm 1) * y (ix3 b mm 1)))
          - Ideal.ofBits .f32 0x40000000#32 * (x (ix3 b n 0) * y (ix3 b mm 0) + x (ix3 b n 1) * y (ix3 b mm 1))) := by
  unfold chamR1000
  refine (min1000_apply _ b n).trans ?_
  refine congrArg (Finset.inf Finset.univ) (funext fun (mm : Fin 2048) => ?_)
  rw [subf_apply, addf_apply, mulf_apply, bcastRow1000, bcastCol1000, broadcastInDim_scalar_apply, sumsq1000_apply,
    sumsq2048_apply, dot1000_apply]
  rfl

end Cert.ReferenceIdeal.Hand

end
-- ==== Proof.Bridge.Math.lean ====
import Idealize.ShloMosaic.PureOps.Ideal
import Idealize.ShloMosaic.PureOps.Ideal.Laws
import Mathlib.Data.EReal.Basic
import Mathlib.Data.EReal.Operations
import Mathlib.Data.Finset.Lattice.Fold
import Mathlib.Order.Fin.Basic
import Mathlib.Tactic.Ring
import Mathlib.Tactic.NormNum

noncomputable section

namespace Cert.Bridge

open Idealize.ShloMosaic

abbrev c2 : EReal := Ideal.ofBits .f32 0xC0000000#32

abbrev two : EReal := Ideal.ofBits .f32 0x40000000#32

theorem c2_eq : c2 = ((-2 : ℝ) : EReal) := by
  simp [c2, Ideal.ofBits, Ideal.ieee, -EReal.coe_mul]; norm_num

theorem two_eq : two = ((2 : ℝ) : EReal) := by
  simp [two, Ideal.ofBits, Ideal.ieee, -EReal.coe_mul]; norm_num

-- Adding a real commutes with a finite minimum, the empty one included: a + ⊤ = ⊤.
theorem add_inf (a : ℝ) {ι : Type} [Fintype ι] (f : ι → EReal) :
    (a : EReal) + Finset.univ.inf f = Finset.univ.inf (fun i => (a : EReal) + f i) :=
  Finset.comp_inf_eq_inf_comp_of_is_total (fun x : EReal => (a : EReal) + x)
    (fun _ _ h => add_le_add le_rfl h) (EReal.coe_add_top a)

-- Over the reals, |v|² + ((-2 p) · v + |p|²) = |v|² + |p|² - 2 v · p.
theorem cham_term' (vx vy px py : ℝ) :
    ((vx : EReal) * vx + (vy : EReal) * vy)
        + ((c2 * px) * vx + (c2 * py) * vy + ((px : EReal) * px + (py : EReal) * py))
      = ((vx : EReal) * vx + (vy : EReal) * vy + ((px : EReal) * px + (py : EReal) * py))
        - two * ((vx : EReal) * px + (vy : EReal) * py) := by
  rw [c2_eq, two_eq]
  simp only [← EReal.coe_mul, ← EReal.coe_add, ← EReal.coe_sub]
  congr 1
  ring

theorem cham_eq_n' {n : ℕ} (vx vy : ℝ) (px py : Fin n → ℝ) :
    ((vx : EReal) * vx + (vy : EReal) * vy)
        + Finset.univ.inf (fun mm : Fin n =>
            (c2 * (px mm : EReal)) * vx + (c2 * (py mm : EReal)) * vy
              + ((px mm : EReal) * px mm + (py mm : EReal) * py mm))
      = Finset.univ.inf (fun mm : Fin n =>
          ((vx : EReal) * vx + (vy : EReal) * vy + ((px mm : EReal) * px mm + (py mm : EReal) * py mm))
            - two * ((vx : EReal) * px mm + (vy : EReal) * py mm)) := by
  have hv : (vx : EReal) * vx + (vy : EReal) * vy = ((vx * vx + vy * vy : ℝ) : EReal) := by
    rw [EReal.coe_add, EReal.coe_mul, EReal.coe_mul]
  rw [hv, add_inf]
  refine Finset.inf_congr rfl fun mm _ => ?_
  rw [← hv]
  exact cham_term' vx vy (px mm) (py mm)

end Cert.Bridge

end
-- ==== Proof.Bridge.Cham.lean ====
import proofs.«423449_j63771674411371_3_alg».proof.Proof.KI.RegVal0
import proofs.«423449_j63771674411371_3_alg».proof.Proof.KI.RegVal1
import proofs.«423449_j63771674411371_3_alg».proof.Proof.KI.RegVal2
import proofs.«423449_j63771674411371_3_alg».proof.Proof.KI.RegVal3
import proofs.«423449_j63771674411371_3_alg».proof.Proof.KI.Stages
import proofs.«423449_j63771674411371_3_alg».proof.Proof.KI.StagesApply
import proofs.«423449_j63771674411371_3_alg».proof.Proof.Ref.Stages
import proofs.«423449_j63771674411371_3_alg».proof.Proof.Bridge.Math
import proofs.«423449_j63771674411371_3_alg».proof.Proof.Bridge.Real
import Idealize.ShloMosaic.Lib.ValueIdx

noncomputable section

namespace Cert.Bridge

open Idealize.ShloMosaic Idealize.ShloMosaic.ValueIdx

-- With every coordinate real the two forms of the squared distance agree landmark by landmark.
theorem cham_point {vx vy : EReal} {px py : Fin 2048 → EReal} (hvx : IsReal vx) (hvy : IsReal vy)
    (hpx : ∀ mm, IsReal (px mm)) (hpy : ∀ mm, IsReal (py mm)) :
    (vx * vx + vy * vy) + Finset.univ.inf (fun mm : Fin 2048 =>
        (c2 * px mm) * vx + (c2 * py mm) * vy + (px mm * px mm + py mm * py mm))
      = Finset.univ.inf (fun mm : Fin 2048 =>
        (vx * vx + vy * vy + (px mm * px mm + py mm * py mm)) - two * (vx * px mm + vy * py mm)) := by
  obtain ⟨a, rfl⟩ := hvx
  obtain ⟨b, rfl⟩ := hvy
  choose p hp using hpx
  choose q hq using hpy
  simp only [hp, hq]
  exact cham_eq_n' a b p q

variable (v : FVec Ideal Cert.KernelIdeal.S16x6000x2 .f32) (pts : FVec Ideal Cert.KernelIdeal.S16x2048x2 .f32)

theorem cham0_bridge (hv : AllReal v) (hp : AllReal pts) :
    Cert.KernelIdeal.Hand.sqK2000 (F := Ideal) (Cert.KernelIdeal.Hand.chamK0 (Cert.KernelIdeal.Hand.xT0 v) pts)
      = Cert.ReferenceIdeal.Hand.chamR2000 (F := Ideal) (Cert.ReferenceIdeal.Hand.sl0 v) pts := by
  funext j
  obtain ⟨b, n, rfl⟩ : ∃ (b : Fin 16) (n : Fin 2000), j = ix2 b n := ⟨j 0, j 1, eq_ix2 j⟩
  rw [Cert.KernelIdeal.Hand.sqK2000_apply, Cert.KernelIdeal.Hand.chamK0_apply, Cert.ReferenceIdeal.Hand.chamR2000_apply]
  simp only [Cert.KernelIdeal.Hand.xT0_apply, Cert.ReferenceIdeal.Hand.sl0_apply]
  exact cham_point (hv _) (hv _) (fun mm => hp _) (fun mm => hp _)

theorem cham1_bridge (hv : AllReal v) (hp : AllReal pts) :
    Cert.KernelIdeal.Hand.sqK2000 (F := Ideal) (Cert.KernelIdeal.Hand.chamK0 (Cert.KernelIdeal.Hand.xT1 v) pts)
      = Cert.ReferenceIdeal.Hand.chamR2000 (F := Ideal) (Cert.ReferenceIdeal.Hand.sl1 v) pts := by
  funext j
  obtain ⟨b, n, rfl⟩ : ∃ (b : Fin 16) (n : Fin 2000), j = ix2 b n := ⟨j 0, j 1, eq_ix2 j⟩
  rw [Cert.KernelIdeal.Hand.sqK2000_apply, Cert.KernelIdeal.Hand.chamK0_apply, Cert.ReferenceIdeal.Hand.chamR2000_apply]
  simp only [Cert.KernelIdeal.Hand.xT1_apply, Cert.ReferenceIdeal.Hand.sl1_apply]
  exact cham_point (hv _) (hv _) (fun mm => hp _) (fun mm => hp _)

theorem cham2_bridge (hv : AllReal v) (hp : AllReal pts) :
    Cert.KernelIdeal.Hand.sqK1000 (F := Ideal) (Cert.KernelIdeal.Hand.chamK2 (Cert.KernelIdeal.Hand.xT2 v) pts)
      = Cert.ReferenceIdeal.Hand.chamR1000 (F := Ideal) (Cert.ReferenceIdeal.Hand.sl2 v) pts := by
  funext j
  obtain ⟨b, n, rfl⟩ : ∃ (b : Fin 16) (n : Fin 1000), j = ix2 b n := ⟨j 0, j 1, eq_ix2 j⟩
  rw [Cert.KernelIdeal.Hand.sqK1000_apply, Cert.KernelIdeal.Hand.chamK2_apply, Cert.ReferenceIdeal.Hand.chamR1000_apply]
  simp only [Cert.KernelIdeal.Hand.xT2_apply, Cert.ReferenceIdeal.Hand.sl2_apply]
  exact cham_point (hv _) (hv _) (fun mm => hp _) (fun mm => hp _)

theorem cham3_bridge (hv : AllReal v) (hp : AllReal pts) :
    Cert.KernelIdeal.Hand.sqK1000 (F := Ideal) (Cert.KernelIdeal.Hand.chamK2 (Cert.KernelIdeal.Hand.xT3 v) pts)
      = Cert.ReferenceIdeal.Hand.chamR1000 (F := Ideal) (Cert.ReferenceIdeal.Hand.sl3 v) pts := by
  funext j
  obtain ⟨b, n, rfl⟩ : ∃ (b : Fin 16) (n : Fin 1000), j = ix2 b n := ⟨j 0, j 1, eq_ix2 j⟩
  rw [Cert.KernelIdeal.Hand.sqK1000_apply, Cert.KernelIdeal.Hand.chamK2_apply, Cert.ReferenceIdeal.Hand.chamR1000_apply]
  simp only [Cert.KernelIdeal.Hand.xT3_apply, Cert.ReferenceIdeal.Hand.sl3_apply]
  exact cham_point (hv _) (hv _) (fun mm => hp _) (fun mm => hp _)

end Cert.Bridge

end
-- ==== Proof.LibGather3.lean ====
import Idealize.ShloMosaic.PureOps.Ideal
import Idealize.ShloMosaic.Lib.ValueIdx
import Idealize.ShloMosaic.Lib.Pipeline.Value
import Idealize.ShloMosaic.PureOps.Reduce

noncomputable section

namespace Cert.Gather3

open Idealize.ShloMosaic Idealize.ShloMosaic.ValueIdx

abbrev rowGather3 (B A C N : Nat)
    (wf : GatherDims.WF ⟨3, ![B, A, C]⟩ ⟨2, ![N, 1]⟩ ⟨3, ![B, N, C]⟩ [0, 2] [1] [] [1] [] 1 ![B, 1, C]) :
    GatherDims ⟨3, ![B, A, C]⟩ ⟨2, ![N, 1]⟩ ⟨3, ![B, N, C]⟩ where
  offsetDims := [0, 2]
  collapsedSliceDims := [1]
  operandBatchingDims := []
  startIndicesBatchingDims := []
  startIndexMap := [1]
  indexVectorDim := 1
  sliceSizes := ![B, 1, C]
  wf := wf

section Rows
variable {B A C N w : Nat}
  (wf : GatherDims.WF ⟨3, ![B, A, C]⟩ ⟨2, ![N, 1]⟩ ⟨3, ![B, N, C]⟩ [0, 2] [1] [] [1] [] 1 ![B, 1, C])

theorem rows_siIdx (b : Fin B) (n : Fin N) (c : Fin C) (k : Fin (rowGather3 B A C N wf).startIndexMap.length) :
    (rowGather3 B A C N wf).siIdx (ix3 b n c) k = ix2 n (0 : Fin 1) := by
  funext a; refine Fin.ext ?_
  match a with
  | ⟨0, _⟩ => rfl
  | ⟨1, _⟩ =>
    show k.val = 0
    have : k.val < 1 := k.isLt
    omega

theorem rows_coord0 (idx : IVec ⟨2, ![N, 1]⟩ w) (b : Fin B) (n : Fin N) (c : Fin C) :
    (rowGather3 B A C N wf).start (ix3 b n c) idx (0 : Fin 3) + (rowGather3 B A C N wf).batchCoord (ix3 b n c) (0 : Fin 3)
        + (rowGather3 B A C N wf).offCoord (ix3 b n c) (0 : Fin 3)
      = b.val := by
  have hs : (rowGather3 B A C N wf).start (ix3 b n c) idx (0 : Fin 3) = 0 := by
    unfold GatherDims.start
    rw [dif_neg (show (0 : Fin 3) ∉ (rowGather3 B A C N wf).startIndexMap from by
      show (0 : Fin 3) ∉ ([1] : List (Fin 3))
      decide)]
  rw [hs, GatherDims.batchCoord_eq_zero _ _ _ List.not_mem_nil]
  simp only [Nat.add_zero, Nat.zero_add]
  unfold GatherDims.offCoord
  rw [dif_pos (show (0 : Fin 3) ∈ (rowGather3 B A C N wf).sKept from by
    rw [GatherDims.mem_sKept]
    exact ⟨by show (0 : Fin 3) ∉ ([1] : List (Fin 3)); decide, List.not_mem_nil⟩)]
  rfl

theorem rows_coord2 (idx : IVec ⟨2, ![N, 1]⟩ w) (b : Fin B) (n : Fin N) (c : Fin C) :
    (rowGather3 B A C N wf).start (ix3 b n c) idx (2 : Fin 3) + (rowGather3 B A C N wf).batchCoord (ix3 b n c) (2 : Fin 3)
        + (rowGather3 B A C N wf).offCoord (ix3 b n c) (2 : Fin 3)
      = c.val := by
  have hs : (rowGather3 B A C N wf).start (ix3 b n c) idx (2 : Fin 3) = 0 := by
    unfold GatherDims.start
    rw [dif_neg (show (2 : Fin 3) ∉ (rowGather3 B A C N wf).startIndexMap from by
      show (2 : Fin 3) ∉ ([1] : List (Fin 3))
      decide)]
  rw [hs, GatherDims.batchCoord_eq_zero _ _ _ List.not_mem_nil]
  simp only [Nat.add_zero, Nat.zero_add]
  unfold GatherDims.offCoord
  rw [dif_pos (show (2 : Fin 3) ∈ (rowGather3 B A C N wf).sKept from by
    rw [GatherDims.mem_sKept]
    exact ⟨by show (2 : Fin 3) ∉ ([1] : List (Fin 3)); decide, List.not_mem_nil⟩)]
  rfl

theorem rows_coord1 (idx : IVec ⟨2, ![N, 1]⟩ w) (b : Fin B) (n : Fin N) (c : Fin C) :
    (rowGather3 B A C N wf).start (ix3 b n c) idx (1 : Fin 3) + (rowGather3 B A C N wf).batchCoord (ix3 b n c) (1 : Fin 3)
        + (rowGather3 B A C N wf).offCoord (ix3 b n c) (1 : Fin 3)
      = min (idx (ix2 n (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (1 : Fin 3) ∈ (rowGather3 B A C N wf).startIndexMap from List.mem_cons_self)]
  rw [rows_siIdx]
  rfl

end Rows

theorem gather_rows3_apply {α : Type} {B A C N w : Nat} (hA : 0 < A)
    (wf : GatherDims.WF ⟨3, ![B, A, C]⟩ ⟨2, ![N, 1]⟩ ⟨3, ![B, N, C]⟩ [0, 2] [1] [] [1] [] 1 ![B, 1, C])
    (x : (⟨3, ![B, A, C]⟩ : Shape).Idx → α) (idx : IVec ⟨2, ![N, 1]⟩ w) (b : Fin B) (n : Fin N) (c : Fin C) :
    Host.gather (rowGather3 B A C N wf) x idx (ix3 b n c)
      = x (ix3 b ⟨min (idx (ix2 n (0 : Fin 1))).toInt.toNat (A - 1), by omega⟩ c) := by
  unfold Host.gather
  congr 1
  funext a
  refine Fin.ext ?_
  match a with
  | ⟨0, _⟩ => exact rows_coord0 wf idx b n c
  | ⟨1, _⟩ => exact rows_coord1 wf idx b n c
  | ⟨2, _⟩ => exact rows_coord2 wf idx b n c

theorem gather_rows3_apply_of_range {α : Type} {B A C N w : Nat}
    (wf : GatherDims.WF ⟨3, ![B, A, C]⟩ ⟨2, ![N, 1]⟩ ⟨3, ![B, N, C]⟩ [0, 2] [1] [] [1] [] 1 ![B, 1, C])
    (x : (⟨3, ![B, A, C]⟩ : Shape).Idx → α) (idx : IVec ⟨2, ![N, 1]⟩ w) (b : Fin B) (n : Fin N) (c : Fin C)
    (r : Fin A) (hr : (idx (ix2 n (0 : Fin 1))).toInt = (r.val : Int)) :
    Host.gather (rowGather3 B A C N wf) x idx (ix3 b n c) = x (ix3 b r c) := by
  have hA : 0 < A := Nat.lt_of_le_of_lt (Nat.zero_le _) r.isLt
  rw [gather_rows3_apply hA wf x idx b n c]
  congr 2
  refine Fin.ext ?_
  show min (idx (ix2 n (0 : Fin 1))).toInt.toNat (A - 1) = r.val
  rw [hr, Int.toNat_natCast]
  have := r.isLt
  omega

section Concat4Vec
variable {α : Type} {n0 n1 n2 n3 T : Nat}
  (h : Shape.Concatenates [(⟨1, ![n0]⟩ : Shape), ⟨1, ![n1]⟩, ⟨1, ![n2]⟩, ⟨1, ![n3]⟩] ⟨1, ![T]⟩ 0)
  (x0 : (⟨1, ![n0]⟩ : Shape).Idx → α) (x1 : (⟨1, ![n1]⟩ : Shape).Idx → α)
  (x2 : (⟨1, ![n2]⟩ : Shape).Idx → α) (x3 : (⟨1, ![n3]⟩ : Shape).Idx → α)

theorem concat4_vec_apply0 (j : Fin T) (hj : j.val < n0) :
    concatenate (⟨1, ![T]⟩ : Shape) 0 [⟨⟨1, ![n0]⟩, x0⟩, ⟨⟨1, ![n1]⟩, x1⟩, ⟨⟨1, ![n2]⟩, x2⟩, ⟨⟨1, ![n3]⟩, x3⟩] h (ix1 j)
      = x0 (ix1 ⟨j.val, hj⟩) := by
  refine concatenate_apply_piece (t := (⟨1, ![T]⟩ : Shape)) (0 : Fin 1)
    [⟨⟨1, ![n0]⟩, x0⟩, ⟨⟨1, ![n1]⟩, x1⟩, ⟨⟨1, ![n2]⟩, x2⟩, ⟨⟨1, ![n3]⟩, x3⟩] h (ix1 j) 0
    (by show 0 < 4; omega) _ x0 rfl rfl 0 rfl (ix1 ⟨j.val, hj⟩) ?_ ?_
  · intro b hb
    exact absurd (Subsingleton.elim _ _) hb
  · show 0 + j.val = j.val
    omega

theorem concat4_vec_apply1 (j : Fin T) (hlo : n0 ≤ j.val) (hhi : j.val - n0 < n1) :
    concatenate (⟨1, ![T]⟩ : Shape) 0 [⟨⟨1, ![n0]⟩, x0⟩, ⟨⟨1, ![n1]⟩, x1⟩, ⟨⟨1, ![n2]⟩, x2⟩, ⟨⟨1, ![n3]⟩, x3⟩] h (ix1 j)
      = x1 (ix1 ⟨j.val - n0, hhi⟩) := by
  refine concatenate_apply_piece (t := (⟨1, ![T]⟩ : Shape)) (0 : Fin 1)
    [⟨⟨1, ![n0]⟩, x0⟩, ⟨⟨1, ![n1]⟩, x1⟩, ⟨⟨1, ![n2]⟩, x2⟩, ⟨⟨1, ![n3]⟩, x3⟩] h (ix1 j) 1
    (by show 1 < 4; omega) _ x1 rfl rfl n0 rfl (ix1 ⟨j.val - n0, hhi⟩) ?_ ?_
  · intro b hb
    exact absurd (Subsingleton.elim _ _) hb
  · show n0 + (j.val - n0) = j.val
    omega

theorem concat4_vec_apply2 (j : Fin T) (hlo : n0 + n1 ≤ j.val) (hhi : j.val - (n0 + n1) < n2) :
    concatenate (⟨1, ![T]⟩ : Shape) 0 [⟨⟨1, ![n0]⟩, x0⟩, ⟨⟨1, ![n1]⟩, x1⟩, ⟨⟨1, ![n2]⟩, x2⟩, ⟨⟨1, ![n3]⟩, x3⟩] h (ix1 j)
      = x2 (ix1 ⟨j.val - (n0 + n1), hhi⟩) := by
  refine concatenate_apply_piece (t := (⟨1, ![T]⟩ : Shape)) (0 : Fin 1)
    [⟨⟨1, ![n0]⟩, x0⟩, ⟨⟨1, ![n1]⟩, x1⟩, ⟨⟨1, ![n2]⟩, x2⟩, ⟨⟨1, ![n3]⟩, x3⟩] h (ix1 j) 2
    (by show 2 < 4; omega) _ x2 rfl rfl (n0 + n1) rfl (ix1 ⟨j.val - (n0 + n1), hhi⟩) ?_ ?_
  · intro b hb
    exact absurd (Subsingleton.elim _ _) hb
  · show n0 + n1 + (j.val - (n0 + n1)) = j.val
    omega

theorem concat4_vec_apply3 (j : Fin T) (hlo : n0 + n1 + n2 ≤ j.val) (hhi : j.val - (n0 + n1 + n2) < n3) :
    concatenate (⟨1, ![T]⟩ : Shape) 0 [⟨⟨1, ![n0]⟩, x0⟩, ⟨⟨1, ![n1]⟩, x1⟩, ⟨⟨1, ![n2]⟩, x2⟩, ⟨⟨1, ![n3]⟩, x3⟩] h (ix1 j)
      = x3 (ix1 ⟨j.val - (n0 + n1 + n2), hhi⟩) := by
  refine concatenate_apply_piece (t := (⟨1, ![T]⟩ : Shape)) (0 : Fin 1)
    [⟨⟨1, ![n0]⟩, x0⟩, ⟨⟨1, ![n1]⟩, x1⟩, ⟨⟨1, ![n2]⟩, x2⟩, ⟨⟨1, ![n3]⟩, x3⟩] h (ix1 j) 3
    (by show 3 < 4; omega) _ x3 rfl rfl (n0 + n1 + n2) (by show n0 + (n1 + (n2 + 0)) = n0 + n1 + n2; omega)
    (ix1 ⟨j.val - (n0 + n1 + n2), hhi⟩) ?_ ?_
  · intro b hb
    exact absurd (Subsingleton.elim _ _) hb
  · show n0 + n1 + n2 + (j.val - (n0 + n1 + n2)) = j.val
    omega

end Concat4Vec

section Concat4Mid
variable {α : Type} {B C n0 n1 n2 n3 T : Nat}
  (h : Shape.Concatenates [(⟨3, ![B, n0, C]⟩ : Shape), ⟨3, ![B, n1, C]⟩, ⟨3, ![B, n2, C]⟩, ⟨3, ![B, n3, C]⟩] ⟨3, ![B, T, C]⟩ 1)
  (x0 : (⟨3, ![B, n0, C]⟩ : Shape).Idx → α) (x1 : (⟨3, ![B, n1, C]⟩ : Shape).Idx → α)
  (x2 : (⟨3, ![B, n2, C]⟩ : Shape).Idx → α) (x3 : (⟨3, ![B, n3, C]⟩ : Shape).Idx → α)

theorem concat4_mid_apply0 (b : Fin B) (j : Fin T) (c : Fin C) (hj : j.val < n0) :
    concatenate (⟨3, ![B, T, C]⟩ : Shape) 1
        [⟨⟨3, ![B, n0, C]⟩, x0⟩, ⟨⟨3, ![B, n1, C]⟩, x1⟩, ⟨⟨3, ![B, n2, C]⟩, x2⟩, ⟨⟨3, ![B, n3, C]⟩, x3⟩] h (ix3 b j c)
      = x0 (ix3 b ⟨j.val, hj⟩ c) := by
  refine concatenate_apply_piece (t := (⟨3, ![B, T, C]⟩ : Shape)) (1 : Fin 3)
    [⟨⟨3, ![B, n0, C]⟩, x0⟩, ⟨⟨3, ![B, n1, C]⟩, x1⟩, ⟨⟨3, ![B, n2, C]⟩, x2⟩, ⟨⟨3, ![B, n3, C]⟩, x3⟩] h (ix3 b j c) 0
    (by show 0 < 4; omega) _ x0 rfl rfl 0 rfl (ix3 b ⟨j.val, hj⟩ c) ?_ ?_
  · intro a ha
    match a with
    | ⟨0, _⟩ => rfl
    | ⟨1, _⟩ => exact absurd rfl ha
    | ⟨2, _⟩ => rfl
  · show 0 + j.val = j.val
    omega

theorem concat4_mid_apply1 (b : Fin B) (j : Fin T) (c : Fin C) (hlo : n0 ≤ j.val) (hhi : j.val - n0 < n1) :
    concatenate (⟨3, ![B, T, C]⟩ : Shape) 1
        [⟨⟨3, ![B, n0, C]⟩, x0⟩, ⟨⟨3, ![B, n1, C]⟩, x1⟩, ⟨⟨3, ![B, n2, C]⟩, x2⟩, ⟨⟨3, ![B, n3, C]⟩, x3⟩] h (ix3 b j c)
      = x1 (ix3 b ⟨j.val - n0, hhi⟩ c) := by
  refine concatenate_apply_piece (t := (⟨3, ![B, T, C]⟩ : Shape)) (1 : Fin 3)
    [⟨⟨3, ![B, n0, C]⟩, x0⟩, ⟨⟨3, ![B, n1, C]⟩, x1⟩, ⟨⟨3, ![B, n2, C]⟩, x2⟩, ⟨⟨3, ![B, n3, C]⟩, x3⟩] h (ix3 b j c) 1
    (by show 1 < 4; omega) _ x1 rfl rfl n0 rfl (ix3 b ⟨j.val - n0, hhi⟩ c) ?_ ?_
  · intro a ha
    match a with
    | ⟨0, _⟩ => rfl
    | ⟨1, _⟩ => exact absurd rfl ha
    | ⟨2, _⟩ => rfl
  · show n0 + (j.val - n0) = j.val
    omega

theorem concat4_mid_apply2 (b : Fin B) (j : Fin T) (c : Fin C) (hlo : n0 + n1 ≤ j.val) (hhi : j.val - (n0 + n1) < n2) :
    concatenate (⟨3, ![B, T, C]⟩ : Shape) 1
        [⟨⟨3, ![B, n0, C]⟩, x0⟩, ⟨⟨3, ![B, n1, C]⟩, x1⟩, ⟨⟨3, ![B, n2, C]⟩, x2⟩, ⟨⟨3, ![B, n3, C]⟩, x3⟩] h (ix3 b j c)
      = x2 (ix3 b ⟨j.val - (n0 + n1), hhi⟩ c) := by
  refine concatenate_apply_piece (t := (⟨3, ![B, T, C]⟩ : Shape)) (1 : Fin 3)
    [⟨⟨3, ![B, n0, C]⟩, x0⟩, ⟨⟨3, ![B, n1, C]⟩, x1⟩, ⟨⟨3, ![B, n2, C]⟩, x2⟩, ⟨⟨3, ![B, n3, C]⟩, x3⟩] h (ix3 b j c) 2
    (by show 2 < 4; omega) _ x2 rfl rfl (n0 + n1) rfl (ix3 b ⟨j.val - (n0 + n1), hhi⟩ c) ?_ ?_
  · intro a ha
    match a with
    | ⟨0, _⟩ => rfl
    | ⟨1, _⟩ => exact absurd rfl ha
    | ⟨2, _⟩ => rfl
  · show n0 + n1 + (j.val - (n0 + n1)) = j.val
    omega

theorem concat4_mid_apply3 (b : Fin B) (j : Fin T) (c : Fin C) (hlo : n0 + n1 + n2 ≤ j.val)
    (hhi : j.val - (n0 + n1 + n2) < n3) :
    concatenate (⟨3, ![B, T, C]⟩ : Shape) 1
        [⟨⟨3, ![B, n0, C]⟩, x0⟩, ⟨⟨3, ![B, n1, C]⟩, x1⟩, ⟨⟨3, ![B, n2, C]⟩, x2⟩, ⟨⟨3, ![B, n3, C]⟩, x3⟩] h (ix3 b j c)
      = x3 (ix3 b ⟨j.val - (n0 + n1 + n2), hhi⟩ c) := by
  refine concatenate_apply_piece (t := (⟨3, ![B, T, C]⟩ : Shape)) (1 : Fin 3)
    [⟨⟨3, ![B, n0, C]⟩, x0⟩, ⟨⟨3, ![B, n1, C]⟩, x1⟩, ⟨⟨3, ![B, n2, C]⟩, x2⟩, ⟨⟨3, ![B, n3, C]⟩, x3⟩] h (ix3 b j c) 3
    (by show 3 < 4; omega) _ x3 rfl rfl (n0 + n1 + n2) (by show n0 + (n1 + (n2 + 0)) = n0 + n1 + n2; omega)
    (ix3 b ⟨j.val - (n0 + n1 + n2), hhi⟩ c) ?_ ?_
  · intro a ha
    match a with
    | ⟨0, _⟩ => rfl
    | ⟨1, _⟩ => exact absurd rfl ha
    | ⟨2, _⟩ => rfl
  · show n0 + n1 + n2 + (j.val - (n0 + n1 + n2)) = j.val
    omega

end Concat4Mid

section Bcast
variable {α : Type}

theorem bcast_col_apply {N : Nat} (hb : (⟨1, ![N]⟩ : Shape).BroadcastsInDim ⟨2, ![N, 1]⟩ ![0])
    (v : (⟨1, ![N]⟩ : Shape).Idx → α) (n : Fin N) (z : Fin 1) :
    broadcastInDim ⟨2, ![N, 1]⟩ ![0] hb v (ix2 n z) = v (ix1 n) := by
  simp only [broadcastInDim]
  congr 1
  funext a
  have ha : a = 0 := Subsingleton.elim _ _
  subst ha
  apply Fin.ext
  have hn := n.isLt
  split
  · next h1 => change N = 1 at h1; show (0 : Nat) = n.val; omega
  · rfl

theorem bcast_mid_apply {B N C : Nat} (hb : (⟨1, ![N]⟩ : Shape).BroadcastsInDim ⟨3, ![B, N, C]⟩ ![1])
    (v : (⟨1, ![N]⟩ : Shape).Idx → α) (b : Fin B) (n : Fin N) (c : Fin C) :
    broadcastInDim ⟨3, ![B, N, C]⟩ ![1] hb v (ix3 b n c) = v (ix1 n) := by
  simp only [broadcastInDim]
  congr 1
  funext a
  have ha : a = 0 := Subsingleton.elim _ _
  subst ha
  apply Fin.ext
  have hn := n.isLt
  split
  · next h1 => change N = 1 at h1; show (0 : Nat) = n.val; omega
  · rfl

end Bcast

theorem foldl_andi_ones {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self]
    exact foldl_andi_ones f l (fun n hn => hl n (List.mem_cons_of_mem _ hn))

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ (fun i _ => hx i)

end Cert.Gather3

end
-- ==== Proof.Bridge.Gather.lean ====
import proofs.«423449_j63771674411371_3_alg».proof.Proof.KI.Stages
import proofs.«423449_j63771674411371_3_alg».proof.Proof.Ref.StageDefs
import proofs.«423449_j63771674411371_3_alg».proof.Proof.LibGather3
import Idealize.ShloMosaic.Lib.Affine

noncomputable section

namespace Cert.Bridge

open Idealize.ShloMosaic Idealize.ShloMosaic.ValueIdx Cert.Gather3

section Wrap
variable {N : Nat}
  (hb0 : (⟨0, ![]⟩ : Shape).BroadcastsInDim ⟨1, ![N]⟩ (![] : Fin 0 → Fin 1))
  (hb1 : (⟨1, ![N]⟩ : Shape).BroadcastsInDim ⟨2, ![N, 1]⟩ ![0])

abbrev wrapCol (ip : IVec ⟨1, ![N]⟩ 32) : IVec ⟨2, ![N, 1]⟩ 32 :=
  broadcastInDim ⟨2, ![N, 1]⟩ ![0] hb1
    (select (cmpi .slt ip (broadcastInDim ⟨1, ![N]⟩ ![] hb0 (constantI ⟨0, ![]⟩ 32 0#32)))
      (addi ip (broadcastInDim ⟨1, ![N]⟩ ![] hb0 (constantI ⟨0, ![]⟩ 32 8000#32))) ip)

theorem wrapCol_apply (ip : IVec ⟨1, ![N]⟩ 32) (n : Fin N) (z : Fin 1) (h0 : 0 ≤ (ip (ix1 n)).toInt) :
    wrapCol hb0 hb1 ip (ix2 n z) = ip (ix1 n) := by
  unfold wrapCol
  rw [bcast_col_apply]
  show Scalar.select (IntOp.cmpi .slt (ip (ix1 n)) 0#32) (IntOp.addi (ip (ix1 n)) 8000#32) (ip (ix1 n)) = ip (ix1 n)
  have hne : ¬ IntOp.cmpi .slt (ip (ix1 n)) 0#32 = 1#1 := by
    rw [IntOp.cmpi_slt, show (0#32 : BitVec 32).toInt = 0 from by decide]
    omega
  rw [eq_zero_of_ne_one hne, select_zero]

theorem wrap_gather_apply {α : Type}
    (wf : GatherDims.WF ⟨3, ![16, 8000, 3]⟩ ⟨2, ![N, 1]⟩ ⟨3, ![16, N, 3]⟩ [0, 2] [1] [] [1] [] 1 ![16, 1, 3])
    (verts : (⟨3, ![16, 8000, 3]⟩ : Shape).Idx → α) (ip : IVec ⟨1, ![N]⟩ 32) (b : Fin 16) (n : Fin N) (k : Fin 3)
    (r : Fin 8000) (hr : (ip (ix1 n)).toInt = (r.val : Int)) :
    Host.gather (rowGather3 16 8000 3 N wf) verts (wrapCol hb0 hb1 ip) (ix3 b n k) = verts (ix3 b r k) := by
  refine gather_rows3_apply_of_range wf verts _ b n k r ?_
  rw [wrapCol_apply hb0 hb1 ip n 0 (by rw [hr]; exact Int.natCast_nonneg _)]
  exact hr

theorem mask_one (ip : IVec ⟨1, ![N]⟩ 32) (hip : ∀ n, 0 ≤ (ip (ix1 n)).toInt ∧ (ip (ix1 n)).toInt < 8000)
    (hb2 : (⟨0, ![]⟩ : Shape).BroadcastsInDim ⟨2, ![N, 1]⟩ (![] : Fin 0 → Fin 2))
    (hb3 : (⟨1, ![1]⟩ : Shape).BroadcastsInDim ⟨2, ![1, 1]⟩ ![1])
    (hb4 : (⟨2, ![1, 1]⟩ : Shape).BroadcastsInDim ⟨2, ![N, 1]⟩ ![0, 1])
    (i : (⟨2, ![N, 1]⟩ : Shape).Idx) :
    andi (cmpi .sge (wrapCol hb0 hb1 ip) (broadcastInDim ⟨2, ![N, 1]⟩ ![] hb2 (constantI ⟨0, ![]⟩ 32 0#32)))
      (cmpi .sle (wrapCol hb0 hb1 ip)
        (broadcastInDim ⟨2, ![N, 1]⟩ ![0, 1] hb4 (broadcastInDim ⟨2, ![1, 1]⟩ ![1] hb3 (constantI ⟨1, ![1]⟩ 32 7999#32)))) i
      = 1#1 := by
  obtain ⟨n, z, rfl⟩ : ∃ n z, i = ix2 n z := ⟨i 0, i 1, eq_ix2 i⟩
  show IntOp.andi (IntOp.cmpi .sge (wrapCol hb0 hb1 ip (ix2 n z)) 0#32)
    (IntOp.cmpi .sle (wrapCol hb0 hb1 ip (ix2 n z)) 7999#32) = 1#1
  rw [wrapCol_apply hb0 hb1 ip n z (hip n).1, IntOp.andi_eq_one, IntOp.cmpi_sge, IntOp.cmpi_sle,
    show (0#32 : BitVec 32).toInt = 0 from by decide, show (7999#32 : BitVec 32).toInt = 7999 from by decide]
  have := (hip n).2
  exact ⟨(hip n).1, by omega⟩

end Wrap

theorem select_eq_of {α : Type} (c : BitVec 1) (a b x : α) (hc : c = 1#1) (ha : a = x) : Scalar.select c a b = x := by
  subst hc ha
  exact select_one _ _

section Kernel
open Cert.KernelIdeal Cert.KernelIdeal.Gen
variable {F : FTy → Type} [FloatOps F]

abbrev idxK (i6 i7 : IVec S2000 32) (i8 i9 : IVec S1000 32) : IVec S6000 32 :=
  concatenate S6000 0 [⟨S2000, i6⟩, ⟨S2000, i7⟩, ⟨S1000, i8⟩, ⟨S1000, i9⟩] concatenates_S2000_S2000_S1000_S1000_S6000_d0

theorem idxK_range (i6 i7 : IVec S2000 32) (i8 i9 : IVec S1000 32)
    (h6 : ∀ i, 0 ≤ (i6 i).toInt ∧ (i6 i).toInt < 8000) (h7 : ∀ i, 0 ≤ (i7 i).toInt ∧ (i7 i).toInt < 8000)
    (h8 : ∀ i, 0 ≤ (i8 i).toInt ∧ (i8 i).toInt < 8000) (h9 : ∀ i, 0 ≤ (i9 i).toInt ∧ (i9 i).toInt < 8000)
    (n : Fin 6000) : 0 ≤ (idxK i6 i7 i8 i9 (ix1 n)).toInt ∧ (idxK i6 i7 i8 i9 (ix1 n)).toInt < 8000 := by
  have hn := n.isLt
  rcases Nat.lt_or_ge n.val 2000 with h1 | h1
  · rw [show idxK i6 i7 i8 i9 (ix1 n) = _ from concat4_vec_apply0 _ i6 i7 i8 i9 n h1]
    exact h6 _
  · rcases Nat.lt_or_ge n.val 4000 with h2 | h2
    · rw [show idxK i6 i7 i8 i9 (ix1 n) = _ from concat4_vec_apply1 _ i6 i7 i8 i9 n h1 (by omega)]
      exact h7 _
    · rcases Nat.lt_or_ge n.val 5000 with h3 | h3
      · rw [show idxK i6 i7 i8 i9 (ix1 n) = _ from concat4_vec_apply2 _ i6 i7 i8 i9 n (by omega) (by omega)]
        exact h8 _
      · rw [show idxK i6 i7 i8 i9 (ix1 n) = _ from concat4_vec_apply3 _ i6 i7 i8 i9 n (by omega) (by omega)]
        exact h9 _

theorem takeK_apply (verts : FVec F S16x8000x3 .f32) (i6 i7 : IVec S2000 32) (i8 i9 : IVec S1000 32)
    (hv0 : ∀ n : Fin 6000, 0 ≤ (idxK i6 i7 i8 i9 (ix1 n)).toInt ∧ (idxK i6 i7 i8 i9 (ix1 n)).toInt < 8000)
    (b : Fin 16) (j : Fin 6000) (k : Fin 3) (r : Fin 8000) (hr : (idxK i6 i7 i8 i9 (ix1 j)).toInt = (r.val : Int)) :
    Cert.KernelIdeal.Hand.takeK (F := F) verts i6 i7 i8 i9 (ix3 b j k) = verts (ix3 b r k) := by
  change Scalar.select _ _ _ = _
  refine select_eq_of _ _ _ _ ?_ ?_
  · rw [bcast_mid_apply]
    exact reduce_andi_of_all _ _ _ _ _ rfl (mask_one _ _ (idxK i6 i7 i8 i9) hv0 _ _ _)
  · exact wrap_gather_apply _ _ _ verts (idxK i6 i7 i8 i9) b j k r hr

end Kernel

section Reference
variable {F : FTy → Type}

theorem gathR_apply0 (verts : FVec F Cert.ReferenceIdeal.S16x8000x3 .f32)
    (i6 i7 : IVec Cert.ReferenceIdeal.S2000 32) (i8 i9 : IVec Cert.ReferenceIdeal.S1000 32)
    (b : Fin 16) (j : Fin 6000) (k : Fin 3) (hj : j.val < 2000) (r : Fin 8000)
    (hr : (i6 (ix1 ⟨j.val, hj⟩)).toInt = (r.val : Int)) :
    Cert.ReferenceIdeal.Hand.gathR (F := F) verts i6 i7 i8 i9 (ix3 b j k) = verts (ix3 b r k) := by
  refine (concat4_mid_apply0
    Cert.ReferenceIdeal.Facts₀.concatenates_S16x2000x3_S16x2000x3_S16x1000x3_S16x1000x3_S16x6000x3_d1
    _ _ _ _ b j k hj).trans ?_
  exact wrap_gather_apply _ _ _ verts i6 b ⟨j.val, hj⟩ k r hr

theorem gathR_apply1 (verts : FVec F Cert.ReferenceIdeal.S16x8000x3 .f32)
    (i6 i7 : IVec Cert.ReferenceIdeal.S2000 32) (i8 i9 : IVec Cert.ReferenceIdeal.S1000 32)
    (b : Fin 16) (j : Fin 6000) (k : Fin 3) (hlo : 2000 ≤ j.val) (hhi : j.val - 2000 < 2000) (r : Fin 8000)
    (hr : (i7 (ix1 ⟨j.val - 2000, hhi⟩)).toInt = (r.val : Int)) :
    Cert.ReferenceIdeal.Hand.gathR (F := F) verts i6 i7 i8 i9 (ix3 b j k) = verts (ix3 b r k) := by
  refine (concat4_mid_apply1
    Cert.ReferenceIdeal.Facts₀.concatenates_S16x2000x3_S16x2000x3_S16x1000x3_S16x1000x3_S16x6000x3_d1
    _ _ _ _ b j k hlo hhi).trans ?_
  exact wrap_gather_apply _ _ _ verts i7 b ⟨j.val - 2000, hhi⟩ k r hr

theorem gathR_apply2 (verts : FVec F Cert.ReferenceIdeal.S16x8000x3 .f32)
    (i6 i7 : IVec Cert.ReferenceIdeal.S2000 32) (i8 i9 : IVec Cert.ReferenceIdeal.S1000 32)
    (b : Fin 16) (j : Fin 6000) (k : Fin 3) (hlo : 2000 + 2000 ≤ j.val) (hhi : j.val - (2000 + 2000) < 1000) (r : Fin 8000)
    (hr : (i8 (ix1 ⟨j.val - (2000 + 2000), hhi⟩)).toInt = (r.val : Int)) :
    Cert.ReferenceIdeal.Hand.gathR (F := F) verts i6 i7 i8 i9 (ix3 b j k) = verts (ix3 b r k) := by
  refine (concat4_mid_apply2
    Cert.ReferenceIdeal.Facts₀.concatenates_S16x2000x3_S16x2000x3_S16x1000x3_S16x1000x3_S16x6000x3_d1
    _ _ _ _ b j k hlo hhi).trans ?_
  exact wrap_gather_apply _ _ _ verts i8 b ⟨j.val - (2000 + 2000), hhi⟩ k r hr

theorem gathR_apply3 (verts : FVec F Cert.ReferenceIdeal.S16x8000x3 .f32)
    (i6 i7 : IVec Cert.ReferenceIdeal.S2000 32) (i8 i9 : IVec Cert.ReferenceIdeal.S1000 32)
    (b : Fin 16) (j : Fin 6000) (k : Fin 3) (hlo : 2000 + 2000 + 1000 ≤ j.val) (hhi : j.val - (2000 + 2000 + 1000) < 1000)
    (r : Fin 8000) (hr : (i9 (ix1 ⟨j.val - (2000 + 2000 + 1000), hhi⟩)).toInt = (r.val : Int)) :
    Cert.ReferenceIdeal.Hand.gathR (F := F) verts i6 i7 i8 i9 (ix3 b j k) = verts (ix3 b r k) := by
  refine (concat4_mid_apply3
    Cert.ReferenceIdeal.Facts₀.concatenates_S16x2000x3_S16x2000x3_S16x1000x3_S16x1000x3_S16x6000x3_d1
    _ _ _ _ b j k hlo hhi).trans ?_
  exact wrap_gather_apply _ _ _ verts i9 b ⟨j.val - (2000 + 2000 + 1000), hhi⟩ k r hr

end Reference

theorem take_eq_gath {F : FTy → Type} [FloatOps F] (verts : FVec F Cert.KernelIdeal.S16x8000x3 .f32)
    (i6 i7 : IVec Cert.KernelIdeal.S2000 32) (i8 i9 : IVec Cert.KernelIdeal.S1000 32)
    (h6 : ∀ i, 0 ≤ (i6 i).toInt ∧ (i6 i).toInt < 8000) (h7 : ∀ i, 0 ≤ (i7 i).toInt ∧ (i7 i).toInt < 8000)
    (h8 : ∀ i, 0 ≤ (i8 i).toInt ∧ (i8 i).toInt < 8000) (h9 : ∀ i, 0 ≤ (i9 i).toInt ∧ (i9 i).toInt < 8000) :
    Cert.KernelIdeal.Hand.takeK (F := F) verts i6 i7 i8 i9 = Cert.ReferenceIdeal.Hand.gathR (F := F) verts i6 i7 i8 i9 := by
  funext i
  obtain ⟨b, j, k, rfl⟩ : ∃ b j k, i = ix3 b j k := ⟨i 0, i 1, i 2, eq_ix3 i⟩
  have hv0 := idxK_range i6 i7 i8 i9 h6 h7 h8 h9
  obtain ⟨r, hr⟩ : ∃ r : Fin 8000, (idxK i6 i7 i8 i9 (ix1 j)).toInt = (r.val : Int) :=
    ⟨⟨(idxK i6 i7 i8 i9 (ix1 j)).toInt.toNat, by have := hv0 j; omega⟩, (Int.toNat_of_nonneg (hv0 j).1).symm⟩
  rw [takeK_apply verts i6 i7 i8 i9 hv0 b j k r hr]
  have hj := j.isLt
  rcases Nat.lt_or_ge j.val 2000 with h1 | h1
  · refine (gathR_apply0 verts i6 i7 i8 i9 b j k h1 r ?_).symm
    rw [← concat4_vec_apply0 Cert.KernelIdeal.Gen.concatenates_S2000_S2000_S1000_S1000_S6000_d0 i6 i7 i8 i9 j h1]
    exact hr
  · rcases Nat.lt_or_ge j.val 4000 with h2 | h2
    · refine (gathR_apply1 verts i6 i7 i8 i9 b j k h1 (by omega) r ?_).symm
      rw [← concat4_vec_apply1 Cert.KernelIdeal.Gen.concatenates_S2000_S2000_S1000_S1000_S6000_d0 i6 i7 i8 i9 j h1 (by omega)]
      exact hr
    · rcases Nat.lt_or_ge j.val 5000 with h3 | h3
      · refine (gathR_apply2 verts i6 i7 i8 i9 b j k (by omega) (by omega) r ?_).symm
        rw [← concat4_vec_apply2 Cert.KernelIdeal.Gen.concatenates_S2000_S2000_S1000_S1000_S6000_d0 i6 i7 i8 i9 j
          (by omega) (by omega)]
        exact hr
      · refine (gathR_apply3 verts i6 i7 i8 i9 b j k (by omega) (by omega) r ?_).symm
        rw [← concat4_vec_apply3 Cert.KernelIdeal.Gen.concatenates_S2000_S2000_S1000_S1000_S6000_d0 i6 i7 i8 i9 j
          (by omega) (by omega)]
        exact hr

end Cert.Bridge

end
-- ==== Proof.Bridge.Final.lean ====
import proofs.«423449_j63771674411371_3_alg».proof.Proof.KI.Run
import proofs.«423449_j63771674411371_3_alg».proof.Proof.KI.HostValue
import proofs.«423449_j63771674411371_3_alg».proof.Proof.KI.RegVal0
import proofs.«423449_j63771674411371_3_alg».proof.Proof.KI.RegVal1
import proofs.«423449_j63771674411371_3_alg».proof.Proof.KI.RegVal2
import proofs.«423449_j63771674411371_3_alg».proof.Proof.KI.RegVal3
import proofs.«423449_j63771674411371_3_alg».proof.Proof.Ref.Value
import proofs.«423449_j63771674411371_3_alg».proof.Proof.Bridge.Real
import proofs.«423449_j63771674411371_3_alg».proof.Proof.Bridge.Pre
import proofs.«423449_j63771674411371_3_alg».proof.Proof.Bridge.Cham
import proofs.«423449_j63771674411371_3_alg».proof.Proof.Bridge.Gather

noncomputable section

namespace Cert.Bridge

open Idealize.ShloMosaic Idealize.ShloMosaic.TcCoe

section Names

variable (m : (ℓ : Loc Cert.KernelIdeal.nD Cert.KernelIdeal.τ Cert.KernelIdeal.sig) → Buf (Elt Ideal) ℓ) (c : Dev Cert.KernelIdeal.nD)

private abbrev pts0 : FVec Ideal Cert.KernelIdeal.S16x2048x2 .f32 := m ((c.tc : Thread Cert.KernelIdeal.nD Cert.KernelIdeal.τ).loc Cert.KernelIdeal.main_arg0)

private abbrev pts1 : FVec Ideal Cert.KernelIdeal.S16x2048x2 .f32 := m ((c.tc : Thread Cert.KernelIdeal.nD Cert.KernelIdeal.τ).loc Cert.KernelIdeal.main_arg1)

private abbrev pts2 : FVec Ideal Cert.KernelIdeal.S16x2048x2 .f32 := m ((c.tc : Thread Cert.KernelIdeal.nD Cert.KernelIdeal.τ).loc Cert.KernelIdeal.main_arg2)

private abbrev pts3 : FVec Ideal Cert.KernelIdeal.S16x2048x2 .f32 := m ((c.tc : Thread Cert.KernelIdeal.nD Cert.KernelIdeal.τ).loc Cert.KernelIdeal.main_arg3)

private abbrev verts : FVec Ideal Cert.KernelIdeal.S16x8000x3 .f32 := m ((c.tc : Thread Cert.KernelIdeal.nD Cert.KernelIdeal.τ).loc Cert.KernelIdeal.main_arg4)

private abbrev cams : FVec Ideal Cert.KernelIdeal.S16x7 .f32 := m ((c.tc : Thread Cert.KernelIdeal.nD Cert.KernelIdeal.τ).loc Cert.KernelIdeal.main_arg5)

private abbrev idx6 : IVec Cert.KernelIdeal.S2000 32 := m ((c.tc : Thread Cert.KernelIdeal.nD Cert.KernelIdeal.τ).loc Cert.KernelIdeal.main_arg6)

private abbrev idx7 : IVec Cert.KernelIdeal.S2000 32 := m ((c.tc : Thread Cert.KernelIdeal.nD Cert.KernelIdeal.τ).loc Cert.KernelIdeal.main_arg7)

private abbrev idx8 : IVec Cert.KernelIdeal.S1000 32 := m ((c.tc : Thread Cert.KernelIdeal.nD Cert.KernelIdeal.τ).loc Cert.KernelIdeal.main_arg8)

private abbrev idx9 : IVec Cert.KernelIdeal.S1000 32 := m ((c.tc : Thread Cert.KernelIdeal.nD Cert.KernelIdeal.τ).loc Cert.KernelIdeal.main_arg9)

private abbrev v2d : FVec Ideal Cert.KernelIdeal.S16x6000x2 .f32 := Cert.ReferenceIdeal.Hand.projR (F := Ideal) (Cert.ReferenceIdeal.Hand.gathR (F := Ideal) (verts m c) (idx6 m c) (idx7 m c) (idx8 m c) (idx9 m c)) (cams m c)

end Names

variable [Cert.Pre_finite_inputs.Facts]

theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Hand.Xend m c (Proc.devRef .tc Cert.KernelIdeal.main_v130) = Cert.ReferenceIdeal.Hand.Y m' c (Proc.devRef .tc Cert.ReferenceIdeal.main_v201)
    ∧ Cert.KernelIdeal.Hand.Xend m c (Proc.devRef .tc Cert.KernelIdeal.main_v92) = Cert.ReferenceIdeal.Hand.Y m' c (Proc.devRef .tc Cert.ReferenceIdeal.main_v119) := by
  obtain ⟨g0, g1, g2, g3, g4, g5, g6, g7, g8, g9⟩ := hag
  obtain ⟨r0, r1, r2, r3, r4, r5, r6, r7, r8, r9⟩ := pre_gives _ _ _ _ _ _ _ _ _ _ hpre

  have htake : (Cert.KernelIdeal.Hand.takeK (F := Ideal) (verts m c) (idx6 m c) (idx7 m c) (idx8 m c) (idx9 m c)) = (Cert.ReferenceIdeal.Hand.gathR (F := Ideal) (verts m c) (idx6 m c) (idx7 m c) (idx8 m c) (idx9 m c)) := take_eq_gath _ _ _ _ _ r6 r7 r8 r9

  have hproj : Cert.ReferenceIdeal.Hand.projR (F := Ideal) (Cert.KernelIdeal.Hand.takeK (F := Ideal) (verts m c) (idx6 m c) (idx7 m c) (idx8 m c) (idx9 m c)) (cams m c) = v2d m c :=
    congrArg (fun g => Cert.ReferenceIdeal.Hand.projR (F := Ideal) g (cams m c)) htake

  have hv : AllReal (v2d m c) := projR_real _ _ (gathR_real _ _ _ _ _ r4) r5

  have e92 : Cert.KernelIdeal.Hand.Xend m c (Proc.devRef .tc Cert.KernelIdeal.main_v92) = v2d m c :=
    (Cert.KernelIdeal.Hand.X15_v92 m _ _ _ _ c).trans hproj
  have e119 : Cert.ReferenceIdeal.Hand.Y m' c (Proc.devRef .tc Cert.ReferenceIdeal.main_v119) = v2d m c := by
    rw [Cert.ReferenceIdeal.Hand.Y_v119 m' c, g4, g5, g6, g7, g8, g9]

  have o0 : Cert.KernelIdeal.Hand.sqK2000 (F := Ideal) (Cert.KernelIdeal.Hand.oR0 m c)
      = Cert.ReferenceIdeal.Hand.chamR2000 (F := Ideal) (Cert.ReferenceIdeal.Hand.sl0 (F := Ideal) (v2d m c)) (pts0 m c) := by
    have ho : Cert.KernelIdeal.Hand.oR0 m c = Cert.KernelIdeal.Hand.chamK0 (Cert.KernelIdeal.Hand.xT0 (F := Ideal) (v2d m c)) (pts0 m c) := by
      unfold Cert.KernelIdeal.Hand.oR0
      rw [Cert.KernelIdeal.Hand.arrAt_out0]
      exact congrArg₂ Cert.KernelIdeal.Hand.chamK0
        ((Cert.KernelIdeal.Hand.X6_v94 m c).trans (congrArg (Cert.KernelIdeal.Hand.xT0 (F := Ideal)) hproj))
        (Cert.KernelIdeal.Hand.X6_arg0 m c)
    rw [ho]
    exact cham0_bridge _ _ hv r0
  have o1 : Cert.KernelIdeal.Hand.sqK2000 (F := Ideal) (Cert.KernelIdeal.Hand.oR1 m c)
      = Cert.ReferenceIdeal.Hand.chamR2000 (F := Ideal) (Cert.ReferenceIdeal.Hand.sl1 (F := Ideal) (v2d m c)) (pts1 m c) := by
    have ho : Cert.KernelIdeal.Hand.oR1 m c = Cert.KernelIdeal.Hand.chamK0 (Cert.KernelIdeal.Hand.xT1 (F := Ideal) (v2d m c)) (pts1 m c) := by
      unfold Cert.KernelIdeal.Hand.oR1
      rw [Cert.KernelIdeal.Hand.arrAt_out1]
      exact congrArg₂ Cert.KernelIdeal.Hand.chamK0
        ((Cert.KernelIdeal.Hand.X8_v98 m _ c).trans (congrArg (Cert.KernelIdeal.Hand.xT1 (F := Ideal)) hproj))
        (Cert.KernelIdeal.Hand.X8_arg1 m _ c)
    rw [ho]
    exact cham1_bridge _ _ hv r1
  have o2 : Cert.KernelIdeal.Hand.sqK1000 (F := Ideal) (Cert.KernelIdeal.Hand.oR2 m c)
      = Cert.ReferenceIdeal.Hand.chamR1000 (F := Ideal) (Cert.ReferenceIdeal.Hand.sl2 (F := Ideal) (v2d m c)) (pts2 m c) := by
    have ho : Cert.KernelIdeal.Hand.oR2 m c = Cert.KernelIdeal.Hand.chamK2 (Cert.KernelIdeal.Hand.xT2 (F := Ideal) (v2d m c)) (pts2 m c) := by
      unfold Cert.KernelIdeal.Hand.oR2
      rw [Cert.KernelIdeal.Hand.arrAt_out2]
      exact congrArg₂ Cert.KernelIdeal.Hand.chamK2
        ((Cert.KernelIdeal.Hand.X10_v102 m _ _ c).trans (congrArg (Cert.KernelIdeal.Hand.xT2 (F := Ideal)) hproj))
        (Cert.KernelIdeal.Hand.X10_arg2 m _ _ c)
    rw [ho]
    exact cham2_bridge _ _ hv r2
  have o3 : Cert.KernelIdeal.Hand.sqK1000 (F := Ideal) (Cert.KernelIdeal.Hand.oR3 m c)
      = Cert.ReferenceIdeal.Hand.chamR1000 (F := Ideal) (Cert.ReferenceIdeal.Hand.sl3 (F := Ideal) (v2d m c)) (pts3 m c) := by
    have ho : Cert.KernelIdeal.Hand.oR3 m c = Cert.KernelIdeal.Hand.chamK2 (Cert.KernelIdeal.Hand.xT3 (F := Ideal) (v2d m c)) (pts3 m c) := by
      unfold Cert.KernelIdeal.Hand.oR3
      rw [Cert.KernelIdeal.Hand.arrAt_out3]
      exact congrArg₂ Cert.KernelIdeal.Hand.chamK2
        ((Cert.KernelIdeal.Hand.X13_v106 m _ _ _ c).trans (congrArg (Cert.KernelIdeal.Hand.xT3 (F := Ideal)) hproj))
        (Cert.KernelIdeal.Hand.X13_arg3 m _ _ _ c)
    rw [ho]
    exact cham3_bridge _ _ hv r3

  have e130 : Cert.KernelIdeal.Hand.Xend m c (Proc.devRef .tc Cert.KernelIdeal.main_v130)
      = Cert.ReferenceIdeal.Hand.tailR (F := Ideal)
          (Cert.ReferenceIdeal.Hand.chamR2000 (F := Ideal) (Cert.ReferenceIdeal.Hand.sl0 (F := Ideal) (v2d m c)) (pts0 m c))
          (Cert.ReferenceIdeal.Hand.chamR2000 (F := Ideal) (Cert.ReferenceIdeal.Hand.sl1 (F := Ideal) (v2d m c)) (pts1 m c))
          (Cert.ReferenceIdeal.Hand.chamR1000 (F := Ideal) (Cert.ReferenceIdeal.Hand.sl2 (F := Ideal) (v2d m c)) (pts2 m c))
          (Cert.ReferenceIdeal.Hand.chamR1000 (F := Ideal) (Cert.ReferenceIdeal.Hand.sl3 (F := Ideal) (v2d m c)) (pts3 m c)) := by
    refine (Cert.KernelIdeal.Hand.X15_v130 m _ _ _ _ c).trans ?_
    unfold Cert.KernelIdeal.Hand.tailK
    rw [o0, o1, o2, o3]
  have e201 : Cert.ReferenceIdeal.Hand.Y m' c (Proc.devRef .tc Cert.ReferenceIdeal.main_v201)
      = Cert.ReferenceIdeal.Hand.tailR (F := Ideal)
          (Cert.ReferenceIdeal.Hand.chamR2000 (F := Ideal) (Cert.ReferenceIdeal.Hand.sl0 (F := Ideal) (v2d m c)) (pts0 m c))
          (Cert.ReferenceIdeal.Hand.chamR2000 (F := Ideal) (Cert.ReferenceIdeal.Hand.sl1 (F := Ideal) (v2d m c)) (pts1 m c))
          (Cert.ReferenceIdeal.Hand.chamR1000 (F := Ideal) (Cert.ReferenceIdeal.Hand.sl2 (F := Ideal) (v2d m c)) (pts2 m c))
          (Cert.ReferenceIdeal.Hand.chamR1000 (F := Ideal) (Cert.ReferenceIdeal.Hand.sl3 (F := Ideal) (v2d m c)) (pts3 m c)) := by
    rw [Cert.ReferenceIdeal.Hand.Y_v201 m' c, g0, g1, g2, g3, g4, g5, g6, g7, g8, g9]
  exact ⟨e130.trans e201.symm, e92.trans e119.symm⟩

end Cert.Bridge

end
-- ==== Proof.lean ====
/-
  Chamfer loss of four groups of projected vertices against 2048 landmarks each, against its plain reference, over
  the extended reals, for finite inputs and vertex indices in range.

  Per vertex v and landmark p the kernel takes the minimum over p of (-2 p) · v + |p|², eight chunks of 256 landmarks
  at a time from +∞, and adds |v|²; the reference takes the minimum over p of |v|² + |p|² - 2 v · p. All coordinates are
  reals, so the summands agree landmark by landmark, adding a real commutes with a minimum, and a chunked running
  minimum from +∞ is the minimum over all landmarks. Gathering, rotation, projection and the weighted means are the
  same operations on both sides.

  The kernel as printed and its idealization are the same text, so the frame proved for every number type serves both.
-/
import proofs.«423449_j63771674411371_3_alg».proof.Defs
import proofs.«423449_j63771674411371_3_alg».proof.Proof.Gen.Kernel
import proofs.«423449_j63771674411371_3_alg».proof.Proof.Gen.KernelIdeal
import proofs.«423449_j63771674411371_3_alg».proof.Proof.Gen.ReferenceIdeal
import proofs.«423449_j63771674411371_3_alg».proof.Proof.Gen.Pre_finite_inputs
import proofs.«423449_j63771674411371_3_alg».proof.Proof.KI.Run
import proofs.«423449_j63771674411371_3_alg».proof.Proof.KernelSame
import proofs.«423449_j63771674411371_3_alg».proof.Proof.Ref.Run
import proofs.«423449_j63771674411371_3_alg».proof.Proof.Bridge.Final

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  Cert.KernelSame.frame

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

-- The witnesses are the reference's own results.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  refine ⟨fun c => Cert.ReferenceIdeal.Hand.Y m' c (Proc.devRef .tc Cert.ReferenceIdeal.main_v201),
    fun c => Cert.ReferenceIdeal.Hand.Y m' c (Proc.devRef .tc Cert.ReferenceIdeal.main_v119), ?_, ?_⟩
  · refine (θ_run (Cert.KernelIdeal.defs (F := Ideal)) _ _).mono (fun _ h c => ?_) (Cert.KernelIdeal.Hand.run_results (F := Ideal) m ρ)
    have hv := Cert.Bridge.results_eq m m' c (hpre c) (hag c)
    exact ⟨(h c).1.trans hv.1, (h c).2.1.trans hv.2, (h c).2.2⟩
  · exact Cert.ReferenceIdeal.Hand.run (F := Ideal) m' ρ'

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
